-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x64 .f32) (main_arg2 : FVec F S64x1024 .f32) (main_arg3 : FVec F S64x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_v13 main_v16
-- ==== Pre_finite_inputs_ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x128 .f32) (main_arg2 : FVec F S128x1024 .f32) (main_arg3 : FVec F S128x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_v13 main_v16
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S2x256x64 : Shape := ⟨3, ![2, 256, 64]⟩
abbrev S2x64x1024 : Shape := ⟨3, ![2, 64, 1024]⟩
abbrev S4x128x1024 : Shape := ⟨3, ![4, 128, 1024]⟩
abbrev S6 : Shape := ⟨1, ![6]⟩
abbrev S_ : Shape := ⟨0, ![]⟩
abbrev S1x256x1024 : Shape := ⟨3, ![1, 256, 1024]⟩
abbrev S256x1024 : Shape := ⟨2, ![256, 1024]⟩
abbrev S1x64x1024 : Shape := ⟨3, ![1, 64, 1024]⟩
abbrev S256x64 : Shape := ⟨2, ![256, 64]⟩
abbrev S1x256x64 : Shape := ⟨3, ![1, 256, 64]⟩
abbrev S1 : Shape := ⟨1, ![1]⟩
abbrev S1x128x1024 : Shape := ⟨3, ![1, 128, 1024]⟩
abbrev S128x1024 : Shape := ⟨2, ![128, 1024]⟩
abbrev S128x512 : Shape := ⟨2, ![128, 512]⟩
abbrev S256x32 : Shape := ⟨2, ![256, 32]⟩
abbrev S128x64 : Shape := ⟨2, ![128, 64]⟩
abbrev S128x32 : Shape := ⟨2, ![128, 32]⟩
abbrev S128x96 : Shape := ⟨2, ![128, 96]⟩
abbrev S256x96 : Shape := ⟨2, ![256, 96]⟩
abbrev S128x256 : Shape := ⟨2, ![128, 256]⟩
abbrev S128 : Shape := ⟨1, ![128]⟩
abbrev S128x1 : Shape := ⟨2, ![128, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x1024, .f32⟩
  | .local _ .vmem, ⟨0, _⟩ => ⟨S2x256x1024, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x512, .f32⟩
  | .local _ .vmem, ⟨6, _⟩ => ⟨S1024x32, .f32⟩
  | .local _ .vmem, ⟨7, _⟩ => ⟨S1024x1024, .f32⟩
  | .local _ .vmem, ⟨8, _⟩ => ⟨S2x256x1024, .f32⟩
  | .local _ .vmem, ⟨9, _⟩ => ⟨S2x256x64, .bf16⟩
  | .local _ .vmem, ⟨10, _⟩ => ⟨S2x64x1024, .bf16⟩
  | .local _ .vmem, ⟨11, _⟩ => ⟨S2x64x1024, .bf16⟩
  | .local _ .vmem, ⟨12, _⟩ => ⟨S4x128x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_9 : BitVec 32 := 4#32
  let v15 : BitVec 32 := Scalar.muli v9 c4_i32_9
  let v16 : BitVec 32 := Scalar.addi c0_i32 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v17 : BitVec 32 := Scalar.muli v5 c2_i32_10
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v19 : BitVec 32 := Scalar.muli v8 c1_i32_11
  let v20 : BitVec 32 := Scalar.addi v18 v19
  v20.toNat
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v21 : BitVec 32 := Scalar.muli v2 c4_i32_13
  let v22 : BitVec 32 := Scalar.addi c0_i32_14 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v23 : BitVec 32 := Scalar.muli v5 c2_i32_15
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_16 : BitVec 32 := 1#32
  let v25 : BitVec 32 := Scalar.muli v10 c1_i32_16
  let v26 : BitVec 32 := Scalar.addi v24 v25
  v26.toNat
def k0_dev3 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v27 : BitVec 32 := Scalar.muli v2 c4_i32_18
  let v28 : BitVec 32 := Scalar.addi c0_i32_19 v27
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_20 : BitVec 32 := 2#32
  let v29 : BitVec 32 := Scalar.muli v11 c2_i32_20
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v31 : BitVec 32 := Scalar.muli v8 c1_i32_21
  let v32 : BitVec 32 := Scalar.addi v30 v31
  v32.toNat
def k0_dev4 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_25 : BitVec 32 := 2#32
  let v35 : BitVec 32 := Scalar.muli v12 c2_i32_25
  let v36 : BitVec 32 := Scalar.addi v34 v35
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_26 : BitVec 32 := 1#32
  let v37 : BitVec 32 := Scalar.muli v13 c1_i32_26
  let v38 : BitVec 32 := Scalar.addi v36 v37
  v38.toNat
def k0_off1 (d0 : Dev nD) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : Index := Scalar.indexCast v5
  let c0 : Index := 0#32
  let c0_28 : Index := 0#32
  ![v39.toNat, 0, 0]
def k0_dev5 (d0 : Dev nD) : Nat :=
  let c0_i32_49 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_48 : BitVec 32 := 4#32
  let v64 : BitVec 32 := Scalar.muli v9 c4_i32_48
  let v65 : BitVec 32 := Scalar.addi c0_i32_49 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v66 : BitVec 32 := Scalar.muli v5 c2_i32_50
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v68 : BitVec 32 := Scalar.muli v8 c1_i32_51
  let v69 : BitVec 32 := Scalar.addi v67 v68
  v69.toNat
def k0_dev6 (d0 : Dev nD) : Nat :=
  let c0_i32_61 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_60 : BitVec 32 := 4#32
  let v78 : BitVec 32 := Scalar.muli v9 c4_i32_60
  let v79 : BitVec 32 := Scalar.addi c0_i32_61 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v80 : BitVec 32 := Scalar.muli v5 c2_i32_62
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v82 : BitVec 32 := Scalar.muli v8 c1_i32_63
  let v83 : BitVec 32 := Scalar.addi v81 v82
  v83.toNat
def k0_dev7 (d0 : Dev nD) : Nat :=
  let c0_i32_73 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_72 : BitVec 32 := 4#32
  let v92 : BitVec 32 := Scalar.muli v9 c4_i32_72
  let v93 : BitVec 32 := Scalar.addi c0_i32_73 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v94 : BitVec 32 := Scalar.muli v5 c2_i32_74
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v96 : BitVec 32 := Scalar.muli v8 c1_i32_75
  let v97 : BitVec 32 := Scalar.addi v95 v96
  v97.toNat
def k0_off2 (d0 : Dev nD) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v107 : Index := Scalar.indexCast v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v106 : BitVec 32 := Scalar.muli v8 c128_i32
  let v108 : Index := Scalar.indexCast v106
  let c0_80 : Index := 0#32
  ![v107.toNat, v108.toNat, 0]
def k0_dev8 (d0 : Dev nD) : Nat :=
  let c0_i32_254 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_253 : BitVec 32 := 4#32
  let v472 : BitVec 32 := Scalar.muli v2 c4_i32_253
  let v473 : BitVec 32 := Scalar.addi c0_i32_254 v472
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v474 : BitVec 32 := Scalar.muli v5 c2_i32_255
  let v475 : BitVec 32 := Scalar.addi v473 v474
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_256 : BitVec 32 := 1#32
  let v476 : BitVec 32 := Scalar.muli v10 c1_i32_256
  let v477 : BitVec 32 := Scalar.addi v475 v476
  v477.toNat
def k0_dev9 (d0 : Dev nD) : Nat :=
  let c0_i32_266 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_265 : BitVec 32 := 4#32
  let v486 : BitVec 32 := Scalar.muli v2 c4_i32_265
  let v487 : BitVec 32 := Scalar.addi c0_i32_266 v486
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_267 : BitVec 32 := 2#32
  let v488 : BitVec 32 := Scalar.muli v11 c2_i32_267
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v490 : BitVec 32 := Scalar.muli v8 c1_i32_268
  let v491 : BitVec 32 := Scalar.addi v489 v490
  v491.toNat
def k0_dev10 (d0 : Dev nD) : Nat :=
  let c0_i32_277 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_276 : BitVec 32 := 4#32
  let v500 : BitVec 32 := Scalar.muli v2 c4_i32_276
  let v501 : BitVec 32 := Scalar.addi c0_i32_277 v500
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_278 : BitVec 32 := 2#32
  let v502 : BitVec 32 := Scalar.muli v12 c2_i32_278
  let v503 : BitVec 32 := Scalar.addi v501 v502
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_279 : BitVec 32 := 1#32
  let v504 : BitVec 32 := Scalar.muli v13 c1_i32_279
  let v505 : BitVec 32 := Scalar.addi v503 v504
  v505.toNat
def k0_off3 (d0 : Dev nD) : Fin 3 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v548 : Index := Scalar.indexCast v5
  let c1_i32_286 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v519 : BitVec 32 := Scalar.subi c1_i32_286 v8
  let c128_i32_287 : BitVec 32 := 128#32
  let v520 : BitVec 32 := Scalar.muli v519 c128_i32_287
  let v549 : Index := Scalar.indexCast v520
  let c0_317 : Index := 0#32
  ![v548.toNat, v549.toNat, 0]
def k0_off4 (d0 : Dev nD) : Fin 3 → Nat :=
  let c1_i32_288 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v521 : BitVec 32 := Scalar.subi c1_i32_288 v5
  let v573 : Index := Scalar.indexCast v521
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_289 : BitVec 32 := 128#32
  let v522 : BitVec 32 := Scalar.muli v8 c128_i32_289
  let v574 : Index := Scalar.indexCast v522
  let c0_341 : Index := 0#32
  ![v573.toNat, v574.toNat, 0]
def k0_off5 (d0 : Dev nD) : Fin 3 → Nat :=
  let c1_i32_290 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v523 : BitVec 32 := Scalar.subi c1_i32_290 v5
  let v598 : Index := Scalar.indexCast v523
  let c1_i32_291 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v524 : BitVec 32 := Scalar.subi c1_i32_291 v8
  let c128_i32_292 : BitVec 32 := 128#32
  let v525 : BitVec 32 := Scalar.muli v524 c128_i32_292
  let v599 : Index := Scalar.indexCast v525
  let c0_365 : Index := 0#32
  ![v598.toNat, v599.toNat, 0]
abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

class Facts₀ : Prop where
  hamt_1 : (1#32 : BitVec 32).msb = false
  hamt_4 : (4#32 : BitVec 32).msb = false
  h_S1x256x1024 : 0 < S1x256x1024.numel
  shapeCasts_S1x256x1024_S1x256x1024 : S1x256x1024.ShapeCasts S1x256x1024
  shapeCasts_S1x256x1024_S256x1024 : S1x256x1024.ShapeCasts S256x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S2x64x1024_S1x64x1024_0_0_0 : ∀ a, (![0, 0, 0] : Fin 3 → Nat) a + S1x64x1024.size a ≤ S2x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  packedbf16_S2x64x1024_S1x64x1024_0_0_0 : (Rect.unit (s := S2x64x1024) ![0, 0, 0] S1x64x1024.size inb_S2x64x1024_S1x64x1024_0_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2x256x64_S1x256x64_0_0_0 : ∀ a, (![0, 0, 0] : Fin 3 → Nat) a + S1x256x64.size a ≤ S2x256x64.size a
  h_S1x256x64 : 0 < S1x256x64.numel
  shapeCasts_S1x256x64_S256x64 : S1x256x64.ShapeCasts S256x64
  shapeCasts_S256x64_S1x256x64 : S256x64.ShapeCasts S1x256x64
  packedbf16_S2x256x64_S1x256x64_0_0_0 : (Rect.unit (s := S2x256x64) ![0, 0, 0] S1x256x64.size inb_S2x256x64_S1x256x64_0_0_0).PackedRows (EltTy.packing .bf16)
  inb_S6_S1_0 : ∀ a, (![0] : Fin 1 → Nat) a + S1.size a ≤ S6.size a
  squeezes_S1_S_ : S1.Squeezes S_
  inb_S2x256x64_S1x256x64_1_0_0 : ∀ a, (![1, 0, 0] : Fin 3 → Nat) a + S1x256x64.size a ≤ S2x256x64.size a
  squeezes_S1x256x64_S256x64 : S1x256x64.Squeezes S256x64
  wordsbf16_S2x256x64_S1x256x64_0_0_0 : (Rect.unit (s := S2x256x64) ![0, 0, 0] S1x256x64.size inb_S2x256x64_S1x256x64_0_0_0).WholeWords (EltTy.packing .bf16)
  wordsbf16_S2x256x64_S1x256x64_1_0_0 : (Rect.unit (s := S2x256x64) ![1, 0, 0] S1x256x64.size inb_S2x256x64_S1x256x64_1_0_0).WholeWords (EltTy.packing .bf16)
  inb_S6_S1_1 : ∀ a, (![1] : Fin 1 → Nat) a + S1.size a ≤ S6.size a
  inb_S2x64x1024_S1x64x1024_1_0_0 : ∀ a, (![1, 0, 0] : Fin 3 → Nat) a + S1x64x1024.size a ≤ S2x64x1024.size a
  squeezes_S1x64x1024_S64x1024 : S1x64x1024.Squeezes S64x1024
  wordsbf16_S2x64x1024_S1x64x1024_0_0_0 : (Rect.unit (s := S2x64x1024) ![0, 0, 0] S1x64x1024.size inb_S2x64x1024_S1x64x1024_0_0_0).WholeWords (EltTy.packing .bf16)
  wordsbf16_S2x64x1024_S1x64x1024_1_0_0 : (Rect.unit (s := S2x64x1024) ![1, 0, 0] S1x64x1024.size inb_S2x64x1024_S1x64x1024_1_0_0).WholeWords (EltTy.packing .bf16)
  inb_S6_S1_2 : ∀ a, (![2] : Fin 1 → Nat) a + S1.size a ≤ S6.size a
  h_S1x128x1024 : 0 < S1x128x1024.numel
  shapeCasts_S1x128x1024_S1x128x1024 : S1x128x1024.ShapeCasts S1x128x1024
  shapeCasts_S1x128x1024_S128x1024 : S1x128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  slices_S128x1024_o0_0_S128x64 : S128x1024.Slices ![0, 0] S128x64
  slices_S128x512_o0_0_S128x32 : S128x512.Slices ![0, 0] S128x32
  concatenates_S128x64_S128x32_S128x96_d1 : Shape.Concatenates [S128x64, S128x32] S128x96 1
  slices_S256x1024_o0_0_S256x64 : S256x1024.Slices ![0, 0] S256x64
  concatenates_S256x64_S256x32_S256x96_d1 : Shape.Concatenates [S256x64, S256x32] S256x96 1
  reduces_S128x256_S128 : S128x256.Reduces [1] S128
  shapeCasts_S128_S128x1 : S128.ShapeCasts S128x1
  broadcasts_S128x1_S128x64 : S128x1.Broadcasts S128x64
  slices_S128x1024_o0_64_S128x64 : S128x1024.Slices ![0, 64] S128x64
  slices_S128x512_o0_32_S128x32 : S128x512.Slices ![0, 32] S128x32
  slices_S256x1024_o0_64_S256x64 : S256x1024.Slices ![0, 64] S256x64
  slices_S128x1024_o0_128_S128x64 : S128x1024.Slices ![0, 128] S128x64
  slices_S128x512_o0_64_S128x32 : S128x512.Slices ![0, 64] S128x32
  slices_S256x1024_o0_128_S256x64 : S256x1024.Slices ![0, 128] S256x64
  slices_S128x1024_o0_192_S128x64 : S128x1024.Slices ![0, 192] S128x64
  slices_S128x512_o0_96_S128x32 : S128x512.Slices ![0, 96] S128x32
  slices_S256x1024_o0_192_S256x64 : S256x1024.Slices ![0, 192] S256x64
  slices_S128x1024_o0_256_S128x64 : S128x1024.Slices ![0, 256] S128x64
  slices_S128x512_o0_128_S128x32 : S128x512.Slices ![0, 128] S128x32
  slices_S256x1024_o0_256_S256x64 : S256x1024.Slices ![0, 256] S256x64
  slices_S128x1024_o0_320_S128x64 : S128x1024.Slices ![0, 320] S128x64
  slices_S128x512_o0_160_S128x32 : S128x512.Slices ![0, 160] S128x32
  slices_S256x1024_o0_320_S256x64 : S256x1024.Slices ![0, 320] S256x64
  slices_S128x1024_o0_384_S128x64 : S128x1024.Slices ![0, 384] S128x64
  slices_S128x512_o0_192_S128x32 : S128x512.Slices ![0, 192] S128x32
  slices_S256x1024_o0_384_S256x64 : S256x1024.Slices ![0, 384] S256x64
  slices_S128x1024_o0_448_S128x64 : S128x1024.Slices ![0, 448] S128x64
  slices_S128x512_o0_224_S128x32 : S128x512.Slices ![0, 224] S128x32
  slices_S256x1024_o0_448_S256x64 : S256x1024.Slices ![0, 448] S256x64
  slices_S128x1024_o0_512_S128x64 : S128x1024.Slices ![0, 512] S128x64
  slices_S128x512_o0_256_S128x32 : S128x512.Slices ![0, 256] S128x32
  slices_S256x1024_o0_512_S256x64 : S256x1024.Slices ![0, 512] S256x64
  slices_S128x1024_o0_576_S128x64 : S128x1024.Slices ![0, 576] S128x64
  slices_S128x512_o0_288_S128x32 : S128x512.Slices ![0, 288] S128x32
  slices_S256x1024_o0_576_S256x64 : S256x1024.Slices ![0, 576] S256x64
  slices_S128x1024_o0_640_S128x64 : S128x1024.Slices ![0, 640] S128x64
  slices_S128x512_o0_320_S128x32 : S128x512.Slices ![0, 320] S128x32
  slices_S256x1024_o0_640_S256x64 : S256x1024.Slices ![0, 640] S256x64
  slices_S128x1024_o0_704_S128x64 : S128x1024.Slices ![0, 704] S128x64
  slices_S128x512_o0_352_S128x32 : S128x512.Slices ![0, 352] S128x32
  slices_S256x1024_o0_704_S256x64 : S256x1024.Slices ![0, 704] S256x64
  slices_S128x1024_o0_768_S128x64 : S128x1024.Slices ![0, 768] S128x64
  slices_S128x512_o0_384_S128x32 : S128x512.Slices ![0, 384] S128x32
  slices_S256x1024_o0_768_S256x64 : S256x1024.Slices ![0, 768] S256x64
  slices_S128x1024_o0_832_S128x64 : S128x1024.Slices ![0, 832] S128x64
  slices_S128x512_o0_416_S128x32 : S128x512.Slices ![0, 416] S128x32
  slices_S256x1024_o0_832_S256x64 : S256x1024.Slices ![0, 832] S256x64
  slices_S128x1024_o0_896_S128x64 : S128x1024.Slices ![0, 896] S128x64
  slices_S128x512_o0_448_S128x32 : S128x512.Slices ![0, 448] S128x32
  slices_S256x1024_o0_896_S256x64 : S256x1024.Slices ![0, 896] S256x64
  slices_S128x1024_o0_960_S128x64 : S128x1024.Slices ![0, 960] S128x64
  slices_S128x512_o0_480_S128x32 : S128x512.Slices ![0, 480] S128x32
  slices_S256x1024_o0_960_S256x64 : S256x1024.Slices ![0, 960] S256x64
  concatenates_S128x64_S128x64_S128x64_S128x64_S128x64_S128x64_S128x64_S128x64_S128x64_S128x64_S128x64_S128x64_S128x64_S128x64_S128x64_S128x64_S128x1024_d1 : Shape.Concatenates [S128x64, S128x64, S128x64, S128x64, S128x64, S128x64, S128x64, S128x64, S128x64, S128x64, S128x64, S128x64, S128x64, S128x64, S128x64, S128x64] S128x1024 1
  inb_S4x128x1024_S1x128x1024_0_0_0 : ∀ a, (![0, 0, 0] : Fin 3 → Nat) a + S1x128x1024.size a ≤ S4x128x1024.size a
  shapeCasts_S128x1024_S1x128x1024 : S128x1024.ShapeCasts S1x128x1024
  packedbf16_S4x128x1024_S1x128x1024_0_0_0 : (Rect.unit (s := S4x128x1024) ![0, 0, 0] S1x128x1024.size inb_S4x128x1024_S1x128x1024_0_0_0).PackedRows (EltTy.packing .bf16)
  inb_S6_S1_3 : ∀ a, (![3] : Fin 1 → Nat) a + S1.size a ≤ S6.size a
  inb_S4x128x1024_S1x128x1024_1_0_0 : ∀ a, (![1, 0, 0] : Fin 3 → Nat) a + S1x128x1024.size a ≤ S4x128x1024.size a
  squeezes_S1x128x1024_S128x1024 : S1x128x1024.Squeezes S128x1024
  wordsbf16_S4x128x1024_S1x128x1024_0_0_0 : (Rect.unit (s := S4x128x1024) ![0, 0, 0] S1x128x1024.size inb_S4x128x1024_S1x128x1024_0_0_0).WholeWords (EltTy.packing .bf16)
  wordsbf16_S4x128x1024_S1x128x1024_1_0_0 : (Rect.unit (s := S4x128x1024) ![1, 0, 0] S1x128x1024.size inb_S4x128x1024_S1x128x1024_1_0_0).WholeWords (EltTy.packing .bf16)
  inb_S6_S1_4 : ∀ a, (![4] : Fin 1 → Nat) a + S1.size a ≤ S6.size a
  inb_S4x128x1024_S1x128x1024_2_0_0 : ∀ a, (![2, 0, 0] : Fin 3 → Nat) a + S1x128x1024.size a ≤ S4x128x1024.size a
  wordsbf16_S4x128x1024_S1x128x1024_2_0_0 : (Rect.unit (s := S4x128x1024) ![2, 0, 0] S1x128x1024.size inb_S4x128x1024_S1x128x1024_2_0_0).WholeWords (EltTy.packing .bf16)
  inb_S6_S1_5 : ∀ a, (![5] : Fin 1 → Nat) a + S1.size a ≤ S6.size a
  inb_S4x128x1024_S1x128x1024_3_0_0 : ∀ a, (![3, 0, 0] : Fin 3 → Nat) a + S1x128x1024.size a ≤ S4x128x1024.size a
  wordsbf16_S4x128x1024_S1x128x1024_3_0_0 : (Rect.unit (s := S4x128x1024) ![3, 0, 0] S1x128x1024.size inb_S4x128x1024_S1x128x1024_3_0_0).WholeWords (EltTy.packing .bf16)
  dot_S256x1024_S1024x64_S256x64_1_0_0_1_n_n_wf : DotDims.WF S256x1024 S1024x64 S256x64 [1] [0] [0] [1] [] []
  dot_S128x1024_S1024x1024_S128x1024_1_0_0_1_n_n_wf : DotDims.WF S128x1024 S1024x1024 S128x1024 [1] [0] [0] [1] [] []
  dot_S128x1024_S1024x512_S128x512_1_0_0_1_n_n_wf : DotDims.WF S128x1024 S1024x512 S128x512 [1] [0] [0] [1] [] []
  dot_S256x1024_S1024x32_S256x32_1_0_0_1_n_n_wf : DotDims.WF S256x1024 S1024x32 S256x32 [1] [0] [0] [1] [] []
  dot_S256x64_S64x1024_S256x1024_1_0_0_1_n_n_wf : DotDims.WF S256x64 S64x1024 S256x1024 [1] [0] [0] [1] [] []
  dot_S128x96_S256x96_S128x256_1_1_0_0_n_n_wf : DotDims.WF S128x96 S256x96 S128x256 [1] [1] [0] [0] [] []
  dot_S128x256_S256x64_S128x64_1_0_0_1_n_n_wf : DotDims.WF S128x256 S256x64 S128x64 [1] [0] [0] [1] [] []
  hcc0_scratch4 : 9 + S6.numel ≤ 21
  hcc0_scratch5 : 15 + S6.numel ≤ 21
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_off1_inb : ∀ d0 : Dev nD, ∀ a, (k0_off1 d0) a + S1x256x1024.size a ≤ S2x256x1024.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off2_inb : ∀ d0 : Dev nD, ∀ a, (k0_off2 d0) a + S1x128x1024.size a ≤ S2x256x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off3_inb : ∀ d0 : Dev nD, ∀ a, (k0_off3 d0) a + S1x128x1024.size a ≤ S2x256x1024.size a
  k0_off4_inb : ∀ d0 : Dev nD, ∀ a, (k0_off4 d0) a + S1x128x1024.size a ≤ S2x256x1024.size a
  k0_off5_inb : ∀ d0 : Dev nD, ∀ a, (k0_off5 d0) a + S1x128x1024.size a ≤ S2x256x1024.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole

variable [Facts₀]

abbrev cc0_scratch4 : DmaSems sig S6 := SemArray.consecutive 9 S6 hcc0_scratch4
abbrev cc0_scratch5 : DmaSems sig S6 := SemArray.consecutive 15 S6 hcc0_scratch5
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S256x1024_S1024x32_S256x32_1_0_0_1_n_n : DotDims S256x1024 S1024x32 S256x32 where
  lhsContracting := [1]
  rhsContracting := [0]
  lhsNonContracting := [0]
  rhsNonContracting := [1]
  lhsBatch := []
  rhsBatch := []
  wf := dot_S256x1024_S1024x32_S256x32_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S128x96_S256x96_S128x256_1_1_0_0_n_n : DotDims S128x96 S256x96 S128x256 where
  lhsContracting := [1]
  rhsContracting := [1]
  lhsNonContracting := [0]
  rhsNonContracting := [0]
  lhsBatch := []
  rhsBatch := []
  wf := dot_S128x96_S256x96_S128x256_1_1_0_0_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v1) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x128, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x128, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S2x16x256x256, .f32⟩
  | .hbm, ⟨20, _⟩ => ⟨S2x256x16x32, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S2x16x256x256, .f32⟩
  | .hbm, ⟨25, _⟩ => ⟨S2x16x256x256, .f32⟩
  | .hbm, ⟨26, _⟩ => ⟨S_, .f32⟩
  | .hbm, ⟨27, _⟩ => ⟨S2x16x256, .f32⟩
  | .hbm, ⟨28, _⟩ => ⟨S2x16x256x1, .f32⟩
  | .hbm, ⟨29, _⟩ => ⟨S2x16x256x256, .f32⟩
  | .hbm, ⟨30, _⟩ => ⟨S2x16x256x256, .f32⟩
  | .hbm, ⟨31, _⟩ => ⟨S2x16x256x256, .f32⟩
  | .hbm, ⟨32, _⟩ => ⟨S_, .f32⟩
  | .hbm, ⟨33, _⟩ => ⟨S2x16x256, .f32⟩
  | .hbm, ⟨34, _⟩ => ⟨S2x16x256x1, .f32⟩
  | .hbm, ⟨35, _⟩ => ⟨S2x16x256x256, .f32⟩
  | .hbm, ⟨36, _⟩ => ⟨S2x16x256x256, .f32⟩
  | .hbm, ⟨37, _⟩ => ⟨S2x16x64x256, .f32⟩
  | .hbm, ⟨38, _⟩ => ⟨S2x256x16x64, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S2x256x1024_S2x256x16x64 : S2x256x1024.ShapeCasts S2x256x16x64
  shapeCasts_S2x256x512_S2x256x16x32 : S2x256x512.ShapeCasts S2x256x16x32
  shapeCasts_S2x256x32_S2x256x1x32 : S2x256x32.ShapeCasts S2x256x1x32
  bcast_S2x256x1x32_S2x256x16x32_0_1_2_3 : S2x256x1x32.BroadcastsInDim S2x256x16x32 (![0, 1, 2, 3] : Fin 4 → Fin S2x256x16x32.rank)
  bcast_S_S2x16x256x256 : S_.BroadcastsInDim S2x16x256x256 (![] : Fin 0 → Fin S2x16x256x256.rank)
  reducesTo_S2x16x256x256_S2x16x256_d3 : S2x16x256x256.ReducesTo [3] S2x16x256
  h_S_ : 0 < S_.numel
  bcast_S2x16x256_S2x16x256x1_0_1_2 : S2x16x256.BroadcastsInDim S2x16x256x1 (![0, 1, 2] : Fin 3 → Fin S2x16x256x1.rank)
  bcast_S2x16x256x1_S2x16x256x256_0_1_2_3 : S2x16x256x1.BroadcastsInDim S2x16x256x256 (![0, 1, 2, 3] : Fin 4 → Fin S2x16x256x256.rank)
  transposes_S2x16x64x256_S2x256x16x64_0_3_1_2 : S2x16x64x256.Transposes [0, 3, 1, 2] S2x256x16x64
  shapeCasts_S2x256x16x64_S2x256x1024 : S2x256x16x64.ShapeCasts S2x256x1024
  dot_S2x256x1024_S1024x128_S2x256x128_2_0_01_1_n_n_wf : DotDims.WF S2x256x1024 S1024x128 S2x256x128 [2] [0] [0, 1] [1] [] []
  dot_S2x256x128_S128x1024_S2x256x1024_2_0_01_1_n_n_wf : DotDims.WF S2x256x128 S128x1024 S2x256x1024 [2] [0] [0, 1] [1] [] []
  dot_S2x256x1024_S1024x1024_S2x256x1024_2_0_01_1_n_n_wf : DotDims.WF S2x256x1024 S1024x1024 S2x256x1024 [2] [0] [0, 1] [1] [] []
  dot_S2x256x1024_S1024x512_S2x256x512_2_0_01_1_n_n_wf : DotDims.WF S2x256x1024 S1024x512 S2x256x512 [2] [0] [0, 1] [1] [] []
  dot_S2x256x1024_S1024x32_S2x256x32_2_0_01_1_n_n_wf : DotDims.WF S2x256x1024 S1024x32 S2x256x32 [2] [0] [0, 1] [1] [] []
  dot_S2x256x16x64_S2x256x16x64_S2x16x256x256_3_3_1_1_02_02_wf : DotDims.WF S2x256x16x64 S2x256x16x64 S2x16x256x256 [3] [3] [1] [1] [0, 2] [0, 2]
  dot_S2x256x16x32_S2x256x16x32_S2x16x256x256_3_3_1_1_02_02_wf : DotDims.WF S2x256x16x32 S2x256x16x32 S2x16x256x256 [3] [3] [1] [1] [0, 2] [0, 2]
  dot_S2x256x16x64_S2x16x256x256_S2x16x64x256_1_3_3_2_02_01_wf : DotDims.WF S2x256x16x64 S2x16x256x256 S2x16x64x256 [1] [3] [3] [2] [0, 2] [0, 1]

variable [Facts₀]

def dot_S2x256x1024_S1024x128_S2x256x128_2_0_01_1_n_n : DotDims S2x256x1024 S1024x128 S2x256x128 where
  lhsContracting := [2]
  rhsContracting := [0]
  lhsNonContracting := [0, 1]
  rhsNonContracting := [1]
  lhsBatch := []
  rhsBatch := []
  wf := dot_S2x256x1024_S1024x128_S2x256x128_2_0_01_1_n_n_wf
def dot_S2x256x128_S128x1024_S2x256x1024_2_0_01_1_n_n : DotDims S2x256x128 S128x1024 S2x256x1024 where
  lhsContracting := [2]
  rhsContracting := [0]
  lhsNonContracting := [0, 1]
  rhsNonContracting := [1]
  lhsBatch := []
  rhsBatch := []
  wf := dot_S2x256x128_S128x1024_S2x256x1024_2_0_01_1_n_n_wf
def dot_S2x256x1024_S1024x1024_S2x256x1024_2_0_01_1_n_n : DotDims S2x256x1024 S1024x1024 S2x256x1024 where
  lhsContracting := [2]
  rhsContracting := [0]
  lhsNonContracting := [0, 1]
  rhsNonContracting := [1]
  lhsBatch := []
  rhsBatch := []
  wf := dot_S2x256x1024_S1024x1024_S2x256x1024_2_0_01_1_n_n_wf
def dot_S2x256x1024_S1024x512_S2x256x512_2_0_01_1_n_n : DotDims S2x256x1024 S1024x512 S2x256x512 where
  lhsContracting := [2]
  rhsContracting := [0]
  lhsNonContracting := [0, 1]
  rhsNonContracting := [1]
  lhsBatch := []
  rhsBatch := []
  wf := dot_S2x256x1024_S1024x512_S2x256x512_2_0_01_1_n_n_wf
def dot_S2x256x1024_S1024x32_S2x256x32_2_0_01_1_n_n : DotDims S2x256x1024 S1024x32 S2x256x32 where
  lhsContracting := [2]
  rhsContracting := [0]
  lhsNonContracting := [0, 1]
  rhsNonContracting := [1]
  lhsBatch := []
  rhsBatch := []
  wf := dot_S2x256x1024_S1024x32_S2x256x32_2_0_01_1_n_n_wf
def dot_S2x256x16x64_S2x256x16x64_S2x16x256x256_3_3_1_1_02_02 : DotDims S2x256x16x64 S2x256x16x64 S2x16x256x256 where
  lhsContracting := [3]
  rhsContracting := [3]
  lhsNonContracting := [1]
  rhsNonContracting := [1]
  lhsBatch := [0, 2]
  rhsBatch := [0, 2]
  wf := dot_S2x256x16x64_S2x256x16x64_S2x16x256x256_3_3_1_1_02_02_wf
def dot_S2x256x16x32_S2x256x16x32_S2x16x256x256_3_3_1_1_02_02 : DotDims S2x256x16x32 S2x256x16x32 S2x16x256x256 where
  lhsContracting := [3]
  rhsContracting := [3]
  lhsNonContracting := [1]
  rhsNonContracting := [1]
  lhsBatch := [0, 2]
  rhsBatch := [0, 2]
  wf := dot_S2x256x16x32_S2x256x16x32_S2x16x256x256_3_3_1_1_02_02_wf
def dot_S2x256x16x64_S2x16x256x256_S2x16x64x256_1_3_3_2_02_01 : DotDims S2x256x16x64 S2x16x256x256 S2x16x64x256 where
  lhsContracting := [1]
  rhsContracting := [3]
  lhsNonContracting := [3]
  rhsNonContracting := [2]
  lhsBatch := [0, 2]
  rhsBatch := [0, 1]
  wf := dot_S2x256x16x64_S2x16x256x256_S2x16x64x256_1_3_3_2_02_01_wf

class Facts : Prop extends Facts₀ where

variable [Facts]
-- ==== Proof.LibMesh.lean ====
import Idealize.ShloMosaic.Lib.Exec

/-!
Eight devices numbered `4 x + 2 y + z`; a peer of a device is the device with one or two coordinates flipped.
-/

noncomputable section

namespace Cert

open Idealize.ShloMosaic

abbrev PeerKind : Type := Fin 4

/-- The bits of the device number a peer of each kind differs in: `x`, `z`, `y`, both `y` and `z`. -/
def flipBits : PeerKind → Nat := ![4, 1, 2, 3]

def peer (j : PeerKind) (c : Dev 8) : Dev 8 := ⟨c.val ^^^ flipBits j, by revert c j; decide⟩

theorem peer_peer (j : PeerKind) (c : Dev 8) : peer j (peer j c) = c := by revert c j; decide

def peerEquiv (j : PeerKind) : Dev 8 ≃ Dev 8 := ⟨peer j, peer j, peer_peer j, peer_peer j⟩

/-- The peer each of the six transfers goes to. -/
def xferKind : Fin 6 → PeerKind := ![0, 0, 0, 1, 2, 3]
def xpeer (i : Fin 6) (c : Dev 8) : Dev 8 := peer (xferKind i) c
theorem xpeer_xpeer (i : Fin 6) (c : Dev 8) : xpeer i (xpeer i c) = c := peer_peer _ c

def yOf (c : Dev 8) : Fin 2 := ⟨(c.val / 2) % 2, Nat.mod_lt _ (by decide)⟩
def zOf (c : Dev 8) : Fin 2 := ⟨c.val % 2, Nat.mod_lt _ (by decide)⟩
def xOf (c : Dev 8) : Fin 2 := ⟨c.val / 4, Nat.div_lt_of_lt_mul (show c.val < 4 * 2 from c.isLt)⟩

end Cert

end
-- ==== Proof.Mesh.lean ====
import proofs.«900964_g7700000000000965_dist_mla_v7x_xyz2x2x2_x_b2_s256_d1024_dc64_f32_1_alg».proof.Proof.Gen.KernelIdeal
import proofs.«900964_g7700000000000965_dist_mla_v7x_xyz2x2x2_x_b2_s256_d1024_dc64_f32_1_alg».proof.Proof.LibMesh

noncomputable section

namespace Cert.KernelIdealProof

open Cert.KernelIdeal Cert.KernelIdeal.Gen
open Idealize.ShloMosaic

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 3 c := Fin.ext ((k0_dev4_eq c).trans (by revert c; decide))
theorem dev5_eq (c : Dev nD) : (⟨k0_dev5 c, k0_dev5_lt c⟩ : Dev nD) = peer 0 c := Fin.ext ((k0_dev5_eq c).trans (by revert c; decide))
theorem dev6_eq (c : Dev nD) : (⟨k0_dev6 c, k0_dev6_lt c⟩ : Dev nD) = peer 0 c := Fin.ext ((k0_dev6_eq c).trans (by revert c; decide))
theorem dev7_eq (c : Dev nD) : (⟨k0_dev7 c, k0_dev7_lt c⟩ : Dev nD) = peer 0 c := Fin.ext ((k0_dev7_eq c).trans (by revert c; decide))
theorem dev8_eq (c : Dev nD) : (⟨k0_dev8 c, k0_dev8_lt c⟩ : Dev nD) = peer 1 c := Fin.ext ((k0_dev8_eq c).trans (by revert c; decide))
theorem dev9_eq (c : Dev nD) : (⟨k0_dev9 c, k0_dev9_lt c⟩ : Dev nD) = peer 2 c := Fin.ext ((k0_dev9_eq c).trans (by revert c; decide))
theorem dev10_eq (c : Dev nD) : (⟨k0_dev10 c, k0_dev10_lt c⟩ : Dev nD) = peer 3 c := Fin.ext ((k0_dev10_eq c).trans (by revert c; decide))

end Cert.KernelIdealProof

end
-- ==== Proof.Contents.lean ====
import proofs.«900964_g7700000000000965_dist_mla_v7x_xyz2x2x2_x_b2_s256_d1024_dc64_f32_1_alg».proof.Proof.Gen.KernelIdeal.Skeleton
import proofs.«900964_g7700000000000965_dist_mla_v7x_xyz2x2x2_x_b2_s256_d1024_dc64_f32_1_alg».proof.Proof.Gen.KernelIdeal.Frame
import proofs.«900964_g7700000000000965_dist_mla_v7x_xyz2x2x2_x_b2_s256_d1024_dc64_f32_1_alg».proof.Proof.Mesh

noncomputable section

namespace Cert.KernelIdealProof

open Cert.KernelIdeal Cert.KernelIdeal.Gen
open Idealize.ShloMosaic Idealize.ShloMosaic.TcCoe

variable {F : FTy → Type} [FloatOps F]
variable (m : (ℓ : Loc nD τ sig) → Buf (Elt F) ℓ)

abbrev st0 (c : Dev nD) : Vec F S2x256x1024 .f32 := iblk m c 0 t0_0
abbrev st1 (c : Dev nD) : Vec F S1024x64 .f32 := iblk m c 1 t0_0
abbrev st2 (c : Dev nD) : Vec F S64x1024 .f32 := iblk m c 2 t0_0
abbrev st3 (c : Dev nD) : Vec F S64x1024 .f32 := iblk m c 3 t0_0
abbrev st4 (c : Dev nD) : Vec F S1024x1024 .f32 := iblk m c 4 t0_0
abbrev st5 (c : Dev nD) : Vec F S1024x512 .f32 := iblk m c 5 t0_0
abbrev st6 (c : Dev nD) : Vec F S1024x32 .f32 := iblk m c 6 t0_0
abbrev st7 (c : Dev nD) : Vec F S1024x1024 .f32 := iblk m c 7 t0_0

abbrev M0 : Memref sig .tc .vmem S2x256x1024 .f32 := Memref.whole cc0_stg0_0

def xRow (c : Dev nD) : Vec F S1x256x1024 .f32 :=
  (M0).view.readAt (Elt F) (Rect.unit (s := S2x256x1024) (k0_off1 c) S1x256x1024.size (k0_off1_inb c)).toLoadRect (st0 m c)
def xQry (c : Dev nD) : Vec F S1x128x1024 .f32 :=
  (M0).view.readAt (Elt F) (Rect.unit (s := S2x256x1024) (k0_off2 c) S1x128x1024.size (k0_off2_inb c)).toLoadRect (st0 m c)

def cNew (c : Dev nD) : FVec F S1x256x64 .bf16 := k0_pay6 (k0_pay5 (xRow m c) (st1 m c))
def ukNew (c : Dev nD) : FVec F S1x64x1024 .bf16 := k0_pay3 (st2 m c)
def uvNew (c : Dev nD) : FVec F S1x64x1024 .bf16 := k0_pay4 (st3 m c)

def qv (c : Dev nD) : FVec F S128x1024 .bf16 := k0_pay8 (xQry m c) (st4 m c)
def qrv (c : Dev nD) : FVec F S128x512 .bf16 := k0_pay9 (xQry m c) (st5 m c)
def krv (c : Dev nD) : FVec F S256x32 .bf16 := k0_pay10 (k0_pay2 (xRow m c)) (st6 m c)

def kk (c : Dev nD) : FVec F S256x1024 .bf16 := k0_pay11 (cNew m c) (ukNew m c) (cNew m (peer 0 c)) (ukNew m (peer 0 c))
def vv (c : Dev nD) : FVec F S256x1024 .bf16 := k0_pay12 (cNew m c) (uvNew m c) (cNew m (peer 0 c)) (uvNew m (peer 0 c))

def sc0 (c : Dev nD) : FVec F S128x256 .f32 := k0_pay13 (qv m c) (qrv m c) (krv m c) (cNew m c) (ukNew m c) (cNew m (peer 0 c)) (ukNew m (peer 0 c))
def hd0 (c : Dev nD) : FVec F S128x64 .f32 := k0_pay14 (vv m c) (sc0 m c)
def hd1 (c : Dev nD) : FVec F S128x64 .f32 := k0_pay15 (qv m c) (qrv m c) (krv m c) (kk m c) (vv m c)
def hd2 (c : Dev nD) : FVec F S128x64 .f32 := k0_pay16 (qv m c) (qrv m c) (krv m c) (kk m c) (vv m c)
def sc3 (c : Dev nD) : FVec F S128x256 .f32 := k0_pay17 (qv m c) (qrv m c) (krv m c) (kk m c)
def hd3 (c : Dev nD) : FVec F S128x64 .f32 := k0_pay18 (vv m c) (sc3 m c)
def hd4 (c : Dev nD) : FVec F S128x64 .f32 := k0_pay19 (qv m c) (qrv m c) (krv m c) (kk m c) (vv m c)
def hd5 (c : Dev nD) : FVec F S128x64 .f32 := k0_pay20 (qv m c) (qrv m c) (krv m c) (kk m c) (vv m c)
def sc6 (c : Dev nD) : FVec F S128x256 .f32 := k0_pay21 (qv m c) (qrv m c) (krv m c) (kk m c)
def hd6 (c : Dev nD) : FVec F S128x64 .f32 := k0_pay22 (vv m c) (sc6 m c)
def hd7 (c : Dev nD) : FVec F S128x64 .f32 := k0_pay23 (qv m c) (qrv m c) (krv m c) (kk m c) (vv m c)
def hd8 (c : Dev nD) : FVec F S128x64 .f32 := k0_pay24 (qv m c) (qrv m c) (krv m c) (kk m c) (vv m c)
def sc9 (c : Dev nD) : FVec F S128x256 .f32 := k0_pay25 (qv m c) (qrv m c) (krv m c) (kk m c)
def hd9 (c : Dev nD) : FVec F S128x64 .f32 := k0_pay26 (vv m c) (sc9 m c)
def hd10 (c : Dev nD) : FVec F S128x64 .f32 := k0_pay27 (qv m c) (qrv m c) (krv m c) (kk m c) (vv m c)
def hd11 (c : Dev nD) : FVec F S128x64 .f32 := k0_pay28 (qv m c) (qrv m c) (krv m c) (kk m c) (vv m c)
def sc12 (c : Dev nD) : FVec F S128x256 .f32 := k0_pay29 (qv m c) (qrv m c) (krv m c) (kk m c)
def hd12 (c : Dev nD) : FVec F S128x64 .f32 := k0_pay30 (vv m c) (sc12 m c)
def hd13 (c : Dev nD) : FVec F S128x64 .f32 := k0_pay31 (qv m c) (qrv m c) (krv m c) (kk m c) (vv m c)
def hd14 (c : Dev nD) : FVec F S128x64 .f32 := k0_pay32 (qv m c) (qrv m c) (krv m c) (kk m c) (vv m c)
def sc15 (c : Dev nD) : FVec F S128x256 .f32 := k0_pay33 (qv m c) (qrv m c) (krv m c) (kk m c)

def outF (c : Dev nD) : FVec F S128x1024 .f32 :=
  k0_pay34 (vv m c) (hd0 m c) (hd1 m c) (hd2 m c) (hd3 m c) (hd4 m c) (hd5 m c) (hd6 m c) (hd7 m c) (hd8 m c) (hd9 m c) (hd10 m c)
    (hd11 m c) (hd12 m c) (hd13 m c) (hd14 m c) (sc15 m c) (st7 m c)
def outB (c : Dev nD) : FVec F S1x128x1024 .bf16 :=
  k0_pay35 (vv m c) (hd0 m c) (hd1 m c) (hd2 m c) (hd3 m c) (hd4 m c) (hd5 m c) (hd6 m c) (hd7 m c) (hd8 m c) (hd9 m c) (hd10 m c)
    (hd11 m c) (hd12 m c) (hd13 m c) (hd14 m c) (sc15 m c) (st7 m c)

def blkOwn (c : Dev nD) : FVec F S1x128x1024 .f32 := k0_pay36 (outF m c)
def blkZ (c : Dev nD) : FVec F S1x128x1024 .f32 := k0_pay38 (k0_pay37 (outB m (peer 1 c)))
def blkY (c : Dev nD) : FVec F S1x128x1024 .f32 := k0_pay39 (outB m (peer 2 c))
def blkYZ (c : Dev nD) : FVec F S1x128x1024 .f32 := k0_pay1 (outB m (peer 3 c))

end Cert.KernelIdealProof

end
-- ==== Proof.SlotDefs.lean ====
import proofs.«900964_g7700000000000965_dist_mla_v7x_xyz2x2x2_x_b2_s256_d1024_dc64_f32_1_alg».proof.Proof.Gen.KernelIdeal.Skeleton

noncomputable section

namespace Cert.KernelIdealProof

open Cert.KernelIdeal Cert.KernelIdeal.Gen
open Idealize.ShloMosaic Idealize.ShloMosaic.TcCoe

abbrev M9 : Memref sig .tc .vmem S2x256x64 .bf16 := Memref.whole cc0_scratch0
abbrev M10 : Memref sig .tc .vmem S2x64x1024 .bf16 := Memref.whole cc0_scratch1
abbrev M11 : Memref sig .tc .vmem S2x64x1024 .bf16 := Memref.whole cc0_scratch2
abbrev M12 : Memref sig .tc .vmem S4x128x1024 .bf16 := Memref.whole cc0_scratch3
abbrev M8 : Memref sig .tc .vmem S2x256x1024 .f32 := Memref.whole cc0_stg8_0

abbrev rC0 : Rect S2x256x64 := Rect.unit (s := S2x256x64) ![0, 0, 0] S1x256x64.size inb_S2x256x64_S1x256x64_0_0_0
abbrev rC1 : Rect S2x256x64 := Rect.unit (s := S2x256x64) ![1, 0, 0] S1x256x64.size inb_S2x256x64_S1x256x64_1_0_0
abbrev rU0 : Rect S2x64x1024 := Rect.unit (s := S2x64x1024) ![0, 0, 0] S1x64x1024.size inb_S2x64x1024_S1x64x1024_0_0_0
abbrev rU1 : Rect S2x64x1024 := Rect.unit (s := S2x64x1024) ![1, 0, 0] S1x64x1024.size inb_S2x64x1024_S1x64x1024_1_0_0
abbrev rO0 : Rect S4x128x1024 := Rect.unit (s := S4x128x1024) ![0, 0, 0] S1x128x1024.size inb_S4x128x1024_S1x128x1024_0_0_0
abbrev rO1 : Rect S4x128x1024 := Rect.unit (s := S4x128x1024) ![1, 0, 0] S1x128x1024.size inb_S4x128x1024_S1x128x1024_1_0_0
abbrev rO2 : Rect S4x128x1024 := Rect.unit (s := S4x128x1024) ![2, 0, 0] S1x128x1024.size inb_S4x128x1024_S1x128x1024_2_0_0
abbrev rO3 : Rect S4x128x1024 := Rect.unit (s := S4x128x1024) ![3, 0, 0] S1x128x1024.size inb_S4x128x1024_S1x128x1024_3_0_0

abbrev sC0 : Memref sig .tc .vmem S256x64 .bf16 := ((M9).slice rC0 (fun _ => rfl)).squeeze S256x64 squeezes_S1x256x64_S256x64
abbrev sC1 : Memref sig .tc .vmem S256x64 .bf16 := ((M9).slice rC1 (fun _ => rfl)).squeeze S256x64 squeezes_S1x256x64_S256x64
abbrev sK0 : Memref sig .tc .vmem S64x1024 .bf16 := ((M10).slice rU0 (fun _ => rfl)).squeeze S64x1024 squeezes_S1x64x1024_S64x1024
abbrev sK1 : Memref sig .tc .vmem S64x1024 .bf16 := ((M10).slice rU1 (fun _ => rfl)).squeeze S64x1024 squeezes_S1x64x1024_S64x1024
abbrev sV0 : Memref sig .tc .vmem S64x1024 .bf16 := ((M11).slice rU0 (fun _ => rfl)).squeeze S64x1024 squeezes_S1x64x1024_S64x1024
abbrev sV1 : Memref sig .tc .vmem S64x1024 .bf16 := ((M11).slice rU1 (fun _ => rfl)).squeeze S64x1024 squeezes_S1x64x1024_S64x1024
abbrev sO0 : Memref sig .tc .vmem S128x1024 .bf16 := ((M12).slice rO0 (fun _ => rfl)).squeeze S128x1024 squeezes_S1x128x1024_S128x1024
abbrev sO1 : Memref sig .tc .vmem S128x1024 .bf16 := ((M12).slice rO1 (fun _ => rfl)).squeeze S128x1024 squeezes_S1x128x1024_S128x1024
abbrev sO2 : Memref sig .tc .vmem S128x1024 .bf16 := ((M12).slice rO2 (fun _ => rfl)).squeeze S128x1024 squeezes_S1x128x1024_S128x1024
abbrev sO3 : Memref sig .tc .vmem S128x1024 .bf16 := ((M12).slice rO3 (fun _ => rfl)).squeeze S128x1024 squeezes_S1x128x1024_S128x1024

abbrev setC0 : Finset S2x256x64.Idx := (sC0).view.set
abbrev setC1 : Finset S2x256x64.Idx := (sC1).view.set
abbrev setK0 : Finset S2x64x1024.Idx := (sK0).view.set
abbrev setK1 : Finset S2x64x1024.Idx := (sK1).view.set
abbrev setV0 : Finset S2x64x1024.Idx := (sV0).view.set
abbrev setV1 : Finset S2x64x1024.Idx := (sV1).view.set
abbrev setO0 : Finset S4x128x1024.Idx := (sO0).view.set
abbrev setO1 : Finset S4x128x1024.Idx := (sO1).view.set
abbrev setO2 : Finset S4x128x1024.Idx := (sO2).view.set
abbrev setO3 : Finset S4x128x1024.Idx := (sO3).view.set

end Cert.KernelIdealProof

end
-- ==== Proof.Sched.lean ====
import proofs.«900964_g7700000000000965_dist_mla_v7x_xyz2x2x2_x_b2_s256_d1024_dc64_f32_1_alg».proof.Proof.Contents
import proofs.«900964_g7700000000000965_dist_mla_v7x_xyz2x2x2_x_b2_s256_d1024_dc64_f32_1_alg».proof.Proof.SlotDefs
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev barS : Sem sig := (SemArray.scalar (sig.barrier 0 rfl) : Sems sig S_).sem
def sendS (i : Fin 6) : DmaSem sig := ⟨9 + i.val, by have := i.isLt; show 9 + i.val < 21; omega⟩
def recvS (i : Fin 6) : DmaSem sig := ⟨15 + i.val, by have := i.isLt; show 15 + i.val < 21; omega⟩

abbrev barCell (c : Dev nD) : GSem nD τ sig := ((c : Thread nD τ), .reg barS)
abbrev sendCell (i : Fin 6) (c : Dev nD) : GSem nD τ sig := ((c : Thread nD τ), .dma (sendS i))
abbrev recvCell (i : Fin 6) (c : Dev nD) : GSem nD τ sig := ((c : Thread nD τ), .dma (recvS i))

def Ncr : Fin 6 → ℕ := ![(sC1).view.dmaCredit, (sK1).view.dmaCredit, (sV1).view.dmaCredit, (sO1).view.dmaCredit, (sO2).view.dmaCredit, (sO3).view.dmaCredit]
theorem Ncr_pos (i : Fin 6) : 0 < Ncr i := by
  fin_cases i <;> exact View.dmaCredit_pos _ (by decide)

def junk {ty : BufTy} : ty.Contents (Elt F) := fun _ => Classical.arbitrary _

def bufC0 (c : Dev nD) : Buf (Elt F) ((c : Thread nD τ).loc cc0_scratch0) := ((M9).access rC0).write (Elt F) junk (cNew m c) Finset.univ
def bufK0 (c : Dev nD) : Buf (Elt F) ((c : Thread nD τ).loc cc0_scratch1) := ((M10).access rU0).write (Elt F) junk (ukNew m c) Finset.univ
def bufV0 (c : Dev nD) : Buf (Elt F) ((c : Thread nD τ).loc cc0_scratch2) := ((M11).access rU0).write (Elt F) junk (uvNew m c) Finset.univ
def bufO0 (c : Dev nD) : Buf (Elt F) ((c : Thread nD τ).loc cc0_scratch3) := ((M12).access rO0).write (Elt F) junk (outB m c) Finset.univ
def bufC1 (c : Dev nD) : Buf (Elt F) ((c : Thread nD τ).loc cc0_scratch0) := (sC1).view.write (Elt F) junk ((sC0).view.read (Elt F) (bufC0 m (peer 0 c))) Finset.univ
def bufK1 (c : Dev nD) : Buf (Elt F) ((c : Thread nD τ).loc cc0_scratch1) := (sK1).view.write (Elt F) junk ((sK0).view.read (Elt F) (bufK0 m (peer 0 c))) Finset.univ
def bufV1 (c : Dev nD) : Buf (Elt F) ((c : Thread nD τ).loc cc0_scratch2) := (sV1).view.write (Elt F) junk ((sV0).view.read (Elt F) (bufV0 m (peer 0 c))) Finset.univ
def bufO1 (c : Dev nD) : Buf (Elt F) ((c : Thread nD τ).loc cc0_scratch3) := (sO1).view.write (Elt F) junk ((sO0).view.read (Elt F) (bufO0 m (peer 1 c))) Finset.univ
def bufO2 (c : Dev nD) : Buf (Elt F) ((c : Thread nD τ).loc cc0_scratch3) := (sO2).view.write (Elt F) junk ((sO0).view.read (Elt F) (bufO0 m (peer 2 c))) Finset.univ
def bufO3 (c : Dev nD) : Buf (Elt F) ((c : Thread nD τ).loc cc0_scratch3) := (sO3).view.write (Elt F) junk ((sO0).view.read (Elt F) (bufO0 m (peer 3 c))) Finset.univ

abbrev qA : PosShare TreeShare := fullShare.left
abbrev qB : PosShare TreeShare := fullShare.right.left
abbrev qC : PosShare TreeShare := fullShare.right.right

def barPay (j : Fin 4) (c : Dev nD) : sProp 𝕄 :=
  match j with
  | 0 => iprop((∃ f, (((peer 0 c : Dev nD) : Thread nD τ).loc cc0_scratch0 ↦[setC1]{fullShare} f))
        ∗ (∃ f, (((peer 0 c : Dev nD) : Thread nD τ).loc cc0_scratch1 ↦[setK1]{fullShare} f))
        ∗ (∃ f, (((peer 0 c : Dev nD) : Thread nD τ).loc cc0_scratch2 ↦[setV1]{fullShare} f)))
  | 1 => iprop(∃ f, (((peer 1 c : Dev nD) : Thread nD τ).loc cc0_scratch3 ↦[setO1]{fullShare} f))
  | 2 => iprop(∃ f, (((peer 2 c : Dev nD) : Thread nD τ).loc cc0_scratch3 ↦[setO2]{fullShare} f))
  | 3 => iprop(∃ f, (((peer 3 c : Dev nD) : Thread nD τ).loc cc0_scratch3 ↦[setO3]{fullShare} f))

def recvPay (i : Fin 6) (c : Dev nD) : sProp 𝕄 :=
  match i with
  | 0 => ((c : Thread nD τ).loc cc0_scratch0 ↦[setC1]{fullShare} bufC1 m c)
  | 1 => ((c : Thread nD τ).loc cc0_scratch1 ↦[setK1]{fullShare} bufK1 m c)
  | 2 => ((c : Thread nD τ).loc cc0_scratch2 ↦[setV1]{fullShare} bufV1 m c)
  | 3 => ((c : Thread nD τ).loc cc0_scratch3 ↦[setO1]{fullShare} bufO1 m c)
  | 4 => ((c : Thread nD τ).loc cc0_scratch3 ↦[setO2]{fullShare} bufO2 m c)
  | 5 => ((c : Thread nD τ).loc cc0_scratch3 ↦[setO3]{fullShare} bufO3 m c)

def sendPay (i : Fin 6) (c : Dev nD) : sProp 𝕄 :=
  match i with
  | 0 => ((c : Thread nD τ).loc cc0_scratch0 ↦[setC0]{fullShare} bufC0 m c)
  | 1 => ((c : Thread nD τ).loc cc0_scratch1 ↦[setK0]{fullShare} bufK0 m c)
  | 2 => ((c : Thread nD τ).loc cc0_scratch2 ↦[setV0]{fullShare} bufV0 m c)
  | 3 => ((c : Thread nD τ).loc cc0_scratch3 ↦[setO0]{qA} bufO0 m c)
  | 4 => ((c : Thread nD τ).loc cc0_scratch3 ↦[setO0]{qB} bufO0 m c)
  | 5 => ((c : Thread nD τ).loc cc0_scratch3 ↦[setO0]{qC} bufO0 m c)

omit [FloatOps F] in
instance barPay_storable (j : Fin 4) (c : Dev nD) : BI.Storable (upEmb : UEmb _ 𝕄) (barPay (F := F) j c) := by
  unfold barPay; split <;> infer_instance
instance recvPay_storable (i : Fin 6) (c : Dev nD) : BI.Storable (upEmb : UEmb _ 𝕄) (recvPay m i c) := by
  unfold recvPay; split <;> infer_instance
instance sendPay_storable (i : Fin 6) (c : Dev nD) : BI.Storable (upEmb : UEmb _ 𝕄) (sendPay m i c) := by
  unfold sendPay; split <;> infer_instance

def semIx (q : DmaSem sig) : Fin 6 := ⟨(q.val + 3) % 6, Nat.mod_lt _ (by decide)⟩

def Rd : Rounds.Schedule (GSem nD τ sig) (Fin 4) 𝕄 where
  duties g r :=
    if r = 0 ∧ g.1.2 = .tc then
      (match g.2 with
        | .reg s => if s = barS then Finset.univ else ∅
        | .dma q => if 9 ≤ q.val then {0} else ∅)
    else ∅
  unitless _ := False
  amount g _ _ := match g.2 with
    | .reg _ => 1
    | .dma q => Ncr (semIx q)
  payload g _ d := match g.2 with
    | .reg s => if s = barS then barPay d g.1.1 else iprop(emp)
    | .dma q => if 15 ≤ q.val then recvPay m (semIx q) g.1.1 else if 9 ≤ q.val then sendPay m (semIx q) g.1.1 else iprop(emp)
  amount_pos g _ _ _ := by
    cases h : g.2 with
    | reg s => simp only [h]; exact Nat.one_pos
    | dma q => simp only [h]; exact Ncr_pos _

instance Rd_payload_storable (g : GSem nD τ sig) (r : ℕ) (d : Fin 4) :
    BI.Storable (upEmb : UEmb _ 𝕄) ((Rd (F := F) m).payload g r d) := by
  show BI.Storable upEmb (match g.2 with
    | .reg s => if s = barS then barPay d g.1.1 else iprop(emp)
    | .dma q => if 15 ≤ q.val then recvPay m (semIx q) g.1.1 else if 9 ≤ q.val then sendPay m (semIx q) g.1.1 else iprop(emp))
  (repeat' split) <;> infer_instance

def debt (c : Dev nD) (k : Fin 10) : CellTallies nD τ sig Unit :=
  if h : k.val < 4 then tallyAt (barCell (peer ⟨k.val, h⟩ c)) () 1
  else tallyAt (recvCell ⟨k.val - 4, by have := k.isLt; omega⟩ (xpeer ⟨k.val - 4, by have := k.isLt; omega⟩ c)) () (Ncr ⟨k.val - 4, by have := k.isLt; omega⟩)

def owesFrom (c : Dev nD) : ℕ → CellTallies nD τ sig Unit
  | k => if h : k < 10 then owesFrom c (k + 1) + debt c ⟨k, h⟩ else 0
termination_by k => 10 - k

def O₀ (c : Dev nD) : CellTallies nD τ sig Unit := owesFrom c 0

def L (g : GSem nD τ sig) : Finset Unit := if g.1.2 = .tc then {()} else ∅
def lv (g : GSem nD τ sig) (_ : Unit) : ℕ := match g.2 with
  | .reg _ => 1
  | .dma q => if 18 ≤ q.val then 3 else if 9 ≤ q.val then 2 else 0

end Cert.KernelIdealProof

end
-- ==== Proof.SchedFacts.lean ====
import proofs.«900964_g7700000000000965_dist_mla_v7x_xyz2x2x2_x_b2_s256_d1024_dc64_f32_1_alg».proof.Proof.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

omit [FloatOps F] in
private theorem semIx_sendS (i : Fin 6) : semIx (sendS i) = i :=
  Fin.ext (by have := i.isLt; show (9 + i.val + 3) % 6 = i.val; omega)
omit [FloatOps F] in
private theorem semIx_recvS (i : Fin 6) : semIx (recvS i) = i :=
  Fin.ext (by have := i.isLt; show (15 + i.val + 3) % 6 = i.val; omega)

theorem duties_bar : (Rd (F := F) m).duties (barCell c) 0 = Finset.univ := by
  dsimp only [Rd]; rw [if_pos ⟨rfl, rfl⟩]; exact if_pos rfl
theorem duties_send (i : Fin 6) : (Rd (F := F) m).duties (sendCell i c) 0 = {0} := by
  dsimp only [Rd]; rw [if_pos ⟨rfl, rfl⟩]; exact if_pos (by show 9 ≤ 9 + i.val; omega)
theorem duties_recv (i : Fin 6) : (Rd (F := F) m).duties (recvCell i c) 0 = {0} := by
  dsimp only [Rd]; rw [if_pos ⟨rfl, rfl⟩]; exact if_pos (by show 9 ≤ 15 + i.val; omega)
theorem duties_later (g : GSem nD τ sig) : ∀ r, 1 ≤ r → (Rd (F := F) m).duties g r = ∅ := by
  intro r hr; dsimp only [Rd]; exact if_neg fun h => by omega

theorem amount_bar (d : Fin 4) : (Rd (F := F) m).amount (barCell c) 0 d = 1 := by
  rfl
theorem amount_send (i : Fin 6) (d : Fin 4) : (Rd (F := F) m).amount (sendCell i c) 0 d = Ncr i := by
  show Ncr (semIx (sendS i)) = Ncr i; rw [semIx_sendS]
theorem amount_recv (i : Fin 6) (d : Fin 4) : (Rd (F := F) m).amount (recvCell i c) 0 d = Ncr i := by
  show Ncr (semIx (recvS i)) = Ncr i; rw [semIx_recvS]

theorem expect_bar : (Rd (F := F) m).expect (barCell c) 0 = 4 := by
  show ∑ d ∈ (Rd (F := F) m).duties (barCell c) 0, (Rd (F := F) m).amount (barCell c) 0 d = 4
  rw [duties_bar]; simp only [amount_bar]; rfl
theorem expect_send (i : Fin 6) : (Rd (F := F) m).expect (sendCell i c) 0 = Ncr i := by
  show ∑ d ∈ (Rd (F := F) m).duties (sendCell i c) 0, (Rd (F := F) m).amount (sendCell i c) 0 d = Ncr i
  rw [duties_send, Finset.sum_singleton]; exact amount_send m c i 0
theorem expect_recv (i : Fin 6) : (Rd (F := F) m).expect (recvCell i c) 0 = Ncr i := by
  show ∑ d ∈ (Rd (F := F) m).duties (recvCell i c) 0, (Rd (F := F) m).amount (recvCell i c) 0 d = Ncr i
  rw [duties_recv, Finset.sum_singleton]; exact amount_recv m c i 0

theorem payload_bar (j : Fin 4) : (Rd (F := F) m).payload (barCell c) 0 j = barPay j c := by
  dsimp only [Rd]; exact if_pos rfl
theorem payload_send (i : Fin 6) (d : Fin 4) : (Rd (F := F) m).payload (sendCell i c) 0 d = sendPay m i c := by
  show (if 15 ≤ 9 + i.val then recvPay m (semIx (sendS i)) c else if 9 ≤ 9 + i.val then sendPay m (semIx (sendS i)) c else iprop(emp)) = _
  have := i.isLt
  rw [if_neg (by omega), if_pos (by omega), semIx_sendS]
theorem payload_recv (i : Fin 6) (d : Fin 4) : (Rd (F := F) m).payload (recvCell i c) 0 d = recvPay m i c := by
  show (if 15 ≤ 15 + i.val then recvPay m (semIx (recvS i)) c else if 9 ≤ 15 + i.val then sendPay m (semIx (recvS i)) c else iprop(emp)) = _
  rw [if_pos (by omega), semIx_recvS]

theorem rest_bar : bigSep ((Rd (F := F) m).duties (barCell c) 0 \ ∅) (fun d => (Rd (F := F) m).payload (barCell c) 0 d)
    = iprop(barPay 0 c ∗ barPay 1 c ∗ barPay 2 c ∗ barPay 3 c) := by
  rw [Finset.sdiff_empty, duties_bar, bigSep_univ_eq_bigSepL [0, 1, 2, 3] (by decide) (by decide), bigSepL_cons_cons, bigSepL_cons_cons,
    bigSepL_cons_cons, bigSepL_singleton, payload_bar, payload_bar, payload_bar, payload_bar]
  rfl
theorem rest_send (i : Fin 6) : bigSep ((Rd (F := F) m).duties (sendCell i c) 0 \ ∅) (fun d => (Rd (F := F) m).payload (sendCell i c) 0 d)
    = sendPay m i c := by
  rw [Finset.sdiff_empty, duties_send, bigSep_singleton, payload_send]
theorem rest_recv (i : Fin 6) : bigSep ((Rd (F := F) m).duties (recvCell i c) 0 \ ∅) (fun d => (Rd (F := F) m).payload (recvCell i c) 0 d)
    = recvPay m i c := by
  rw [Finset.sdiff_empty, duties_recv, bigSep_singleton, payload_recv]

theorem owesFrom_step (k : ℕ) (h : k < 10) : owesFrom c k = owesFrom c (k + 1) + debt c ⟨k, h⟩ := by
  rw [owesFrom, dif_pos h]
theorem owesFrom_ten : owesFrom c 10 = 0 := by
  rw [owesFrom, dif_neg (by omega)]
theorem debt_bar (j : Fin 4) : debt c ⟨j.val, by have := j.isLt; omega⟩ = tallyAt (barCell (peer j c)) () 1 := by
  unfold debt; exact dif_pos j.isLt
omit [FloatOps F] in
private theorem debt_of_ge (k : Fin 10) (h4 : ¬ k.val < 4) (i : Fin 6) (hi : k.val - 4 = i.val) :
    debt c k = tallyAt (recvCell i (xpeer i c)) () (Ncr i) := by
  have hlt : k.val - 4 < 6 := by have := k.isLt; clear hi; omega
  have e : (⟨k.val - 4, hlt⟩ : Fin 6) = i := Fin.ext hi
  subst e
  unfold debt; rw [dif_neg h4]
theorem debt_recv (i : Fin 6) : debt c ⟨4 + i.val, by have := i.isLt; omega⟩ = tallyAt (recvCell i (xpeer i c)) () (Ncr i) := by
  exact debt_of_ge c _ (by show ¬ (4 + i.val < 4); omega) i (by show 4 + i.val - 4 = i.val; omega)

omit [FloatOps F] in
private theorem owesFrom_ge (k : ℕ) (h : 10 ≤ k) : owesFrom c k = 0 := by
  rw [owesFrom, dif_neg (by omega)]

omit [FloatOps F] in
private theorem owesFrom_pos_aux (n k : ℕ) (hn : 10 ≤ k + n) {g : GSem nD τ sig} {u : Unit} (h : 0 < owesFrom c k g u) :
    (∃ j : Fin 4, k ≤ j.val ∧ g = barCell (peer j c)) ∨ (∃ i : Fin 6, k ≤ 4 + i.val ∧ g = recvCell i (xpeer i c)) := by
  induction n generalizing k with
  | zero =>
    rw [owesFrom_ge c k (by omega)] at h
    exact absurd h (Nat.lt_irrefl 0)
  | succ n ih =>
    by_cases hk : k < 10
    · rw [owesFrom_step c k hk] at h
      rcases Pipeline.add_pos_cases h with h1 | h1
      · rcases ih (k + 1) (by omega) h1 with ⟨j, hj, hg⟩ | ⟨i, hi, hg⟩
        · exact .inl ⟨j, by omega, hg⟩
        · exact .inr ⟨i, by omega, hg⟩
      · by_cases h4 : k < 4
        · have e := debt_bar c ⟨k, h4⟩
          rw [show (⟨(⟨k, h4⟩ : Fin 4).val, _⟩ : Fin 10) = ⟨k, hk⟩ from rfl] at e
          rw [e] at h1
          exact .inl ⟨⟨k, h4⟩, le_refl _, (Pipeline.tallyAt_pos h1).1⟩
        · have e := debt_of_ge c ⟨k, hk⟩ h4 ⟨k - 4, by omega⟩ rfl
          rw [e] at h1
          exact .inr ⟨⟨k - 4, by omega⟩, by show k ≤ 4 + (k - 4); omega, (Pipeline.tallyAt_pos h1).1⟩
    · rw [owesFrom_ge c k (by omega)] at h
      exact absurd h (Nat.lt_irrefl 0)

theorem owesFrom_pos {k : ℕ} {g : GSem nD τ sig} {u : Unit} (h : 0 < owesFrom c k g u) :
    (∃ j : Fin 4, k ≤ j.val ∧ g = barCell (peer j c)) ∨ (∃ i : Fin 6, k ≤ 4 + i.val ∧ g = recvCell i (xpeer i c)) := by
  exact owesFrom_pos_aux c 10 k (by omega) h

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
private theorem lv_recvCell (i : Fin 6) (d : Dev nD) (u : Unit) :
    lv (recvCell i d) u = if 18 ≤ 15 + i.val then 3 else if 9 ≤ 15 + i.val then 2 else 0 := rfl

omit [FloatOps F] in
private theorem owed_level {k : ℕ} {g : GSem nD τ sig} {u : Unit} (h : 0 < owesFrom c k g u) :
    u ∈ L g ∧ 1 ≤ lv g u ∧ (4 ≤ k → 2 ≤ lv g u) ∧ (7 ≤ k → 3 ≤ lv g u) := by
  rcases owesFrom_pos c h with ⟨j, hj, rfl⟩ | ⟨i, hi, rfl⟩
  · have := j.isLt
    exact ⟨by rw [L_tc]; exact Finset.mem_singleton_self _, le_refl 1, fun h4 => by omega, fun h7 => by omega⟩
  · have := i.isLt
    refine ⟨by rw [L_tc]; exact Finset.mem_singleton_self _, ?_, fun h4 => ?_, fun h7 => ?_⟩ <;>
      rw [lv_recvCell] <;> split_ifs <;> omega

omit [FloatOps F] in
theorem mayWait_stage (q : DmaSem sig) (hq : q.val < 9) (O : CellTallies nD τ sig Unit) (hO : O = O₀ c ∨ O = 0) :
    (levAts L lv : sProp 𝕄) ⊢ MayWait (c : Thread nD τ) (.dma q) () O := by
  have hc : () ∈ L ((c : Thread nD τ), SemLoc.dma q) := by rw [L_tc]; exact Finset.mem_singleton_self _
  have e : lv ((c : Thread nD τ), SemLoc.dma q) () = 0 := by
    dsimp only [lv]; rw [if_neg (by omega), if_neg (by omega)]
  rcases hO with rfl | rfl
  · exact Pipeline.mayWait_of_levAts hc fun g u hg => ⟨(owed_level c hg).1, by rw [e]; exact (owed_level c hg).2.1⟩
  · exact Pipeline.mayWait_of_levAts hc fun g u hg => absurd hg (Nat.lt_irrefl 0)

omit [FloatOps F] in
theorem mayWait_bar : (levAts L lv : sProp 𝕄) ⊢ MayWait (c : Thread nD τ) (.reg barS) () (owesFrom c 4) := by
  have hc : () ∈ L ((c : Thread nD τ), SemLoc.reg barS) := by rw [L_tc]; exact Finset.mem_singleton_self _
  exact Pipeline.mayWait_of_levAts hc fun g u hg => ⟨(owed_level c hg).1, (owed_level c hg).2.2.1 (le_refl 4)⟩

omit [FloatOps F] in
theorem mayWait_early (q : DmaSem sig) (hq : 9 ≤ q.val ∧ q.val < 18) :
    (levAts L lv : sProp 𝕄) ⊢ MayWait (c : Thread nD τ) (.dma q) () (owesFrom c 7) := by
  have hc : () ∈ L ((c : Thread nD τ), SemLoc.dma q) := by rw [L_tc]; exact Finset.mem_singleton_self _
  have e : lv ((c : Thread nD τ), SemLoc.dma q) () = 2 := by
    dsimp only [lv]; rw [if_neg (by omega), if_pos hq.1]
  exact Pipeline.mayWait_of_levAts hc fun g u hg => ⟨(owed_level c hg).1, by rw [e]; exact (owed_level c hg).2.2.2 (le_refl 7)⟩

end Cert.KernelIdealProof

end
-- ==== Proof.OutAsm.lean ====
import proofs.«900964_g7700000000000965_dist_mla_v7x_xyz2x2x2_x_b2_s256_d1024_dc64_f32_1_alg».proof.Proof.SlotDefs
import proofs.«900964_g7700000000000965_dist_mla_v7x_xyz2x2x2_x_b2_s256_d1024_dc64_f32_1_alg».proof.Proof.Mesh
import Idealize.ShloMosaic.Lib.ValueIdx

noncomputable section

namespace Cert.KernelIdealProof

open Cert.KernelIdeal Cert.KernelIdeal.Gen
open Idealize.ShloMosaic Idealize.ShloMosaic.TcCoe Idealize.ShloMosaic.ValueIdx

variable {F : FTy → Type} [FloatOps F]

def inBlk (i : S2x256x1024.Idx) : S1x128x1024.Idx :=
  ix3 (0 : Fin 1) (⟨(i 1).val % 128, Nat.mod_lt _ (by decide)⟩ : Fin 128) (⟨(i 2).val, (i 2).isLt⟩ : Fin 1024)

def outAsm (c : Dev nD) (w2 w3 w4 w5 : Vec F S1x128x1024 .f32) : Vec F S2x256x1024 .f32 := fun i =>
  if (i 0).val = (yOf c).val then
    (if (i 1).val / 128 = (zOf c).val then w2 (inBlk i) else w3 (inBlk i))
  else
    (if (i 1).val / 128 = (zOf c).val then w4 (inBlk i) else w5 (inBlk i))

end Cert.KernelIdealProof

end
-- ==== Proof.Data.lean ====
import proofs.«900964_g7700000000000965_dist_mla_v7x_xyz2x2x2_x_b2_s256_d1024_dc64_f32_1_alg».proof.Proof.Sched
import proofs.«900964_g7700000000000965_dist_mla_v7x_xyz2x2x2_x_b2_s256_d1024_dc64_f32_1_alg».proof.Proof.OutAsm

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def kSend (i : Fin 6) : Fin 13 := ⟨1 + i.val, by have := i.isLt; omega⟩
def kRecv (i : Fin 6) : Fin 13 := ⟨7 + i.val, by have := i.isLt; omega⟩
def csem (k : Fin 13) : SemLoc sig :=
  if h0 : k.val = 0 then .reg barS
  else if h : k.val < 7 then .dma (sendS ⟨k.val - 1, by omega⟩)
  else .dma (recvS ⟨k.val - 7, by have := k.isLt; omega⟩)
abbrev kcell (ck : Dev nD × Fin 13) : GSem nD τ sig := ((ck.1 : Thread nD τ), csem ck.2)
def osem (k : Fin 12) : SemLoc sig := csem ⟨k.val + 1, by have := k.isLt; omega⟩

theorem csem_send (i : Fin 6) : csem (kSend i) = .dma (sendS i) := by
  have := i.isLt
  unfold csem kSend
  rw [dif_neg (by show ¬(1 + i.val = 0); omega), dif_pos (by show 1 + i.val < 7; omega)]
  congr 2; exact Fin.ext (by show 1 + i.val - 1 = i.val; omega)
theorem csem_recv (i : Fin 6) : csem (kRecv i) = .dma (recvS i) := by
  have := i.isLt
  unfold csem kRecv
  rw [dif_neg (by show ¬(7 + i.val = 0); omega), dif_neg (by show ¬(7 + i.val < 7); omega)]
  congr 2; exact Fin.ext (by show 7 + i.val - 7 = i.val; omega)
theorem kcell_send (c : Dev nD) (i : Fin 6) : kcell (c, kSend i) = sendCell i c := by unfold kcell; rw [csem_send]
theorem kcell_recv (c : Dev nD) (i : Fin 6) : kcell (c, kRecv i) = recvCell i c := by unfold kcell; rw [csem_recv]

def records (K : Dev nD × Fin 13 → ℕ) : sProp 𝕄 :=
  iprop((bigSep Finset.univ fun ck : Dev nD × Fin 13 => cellInv ER (Rd m) (K ck) (kcell ck))
    ∗ bigSep Finset.univ fun ck : Dev nD × Fin 13 => reached ER (kcell ck) 0)

instance records_persistent (K : Dev nD × Fin 13 → ℕ) : BI.Persistent (records m K) := by unfold records; infer_instance

def payToks (c : Dev nD) : sProp 𝕄 :=
  iprop((bigSep Finset.univ fun j : Fin 4 => dutyTok ER (barCell (peer j c)) 0 j)
    ∗ (bigSep Finset.univ fun i : Fin 6 => dutyTok ER (recvCell i (xpeer i c)) 0 (0 : Fin 4))
    ∗ bigSep Finset.univ fun i : Fin 6 => dutyTok ER (sendCell i c) 0 (0 : Fin 4))
def linear (c : Dev nD) : sProp 𝕄 :=
  iprop((bigSep Finset.univ fun k : Fin 13 => atPos ER (kcell (c, k)) 0 ∅ 0) ∗ payToks c)

def ghost (K : Dev nD × Fin 13 → ℕ) (c : Dev nD) : sProp 𝕄 := iprop(records m K ∗ linear c)

def creds (c : Dev nD) : sProp 𝕄 :=
  iprop(cred (tallyAt (barCell c) () 4) ∗ bigSep Finset.univ fun i : Fin 6 => cred (tallyAt (recvCell i c) () (Ncr i)))

def start (c : Dev nD) : sProp 𝕄 := iprop((∃ K, ghost m K c) ∗ creds c ∗ levAts L lv)

def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scr c)
def Φ₁ (c : Dev nD) : sProp 𝕄 := iprop(scr c ∗ bigSep Finset.univ fun k : Fin 12 => semVal ((c : Thread nD τ), osem k) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def outFinal (c : Dev nD) : Vec F S2x256x1024 .f32 := outAsm c (blkOwn m c) (blkZ m c) (blkY m c) (blkYZ m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => st0 m c
    | ⟨1, _⟩ => st1 m c
    | ⟨2, _⟩ => st2 m c
    | ⟨3, _⟩ => st3 m c
    | ⟨4, _⟩ => st4 m c
    | ⟨5, _⟩ => st5 m c
    | ⟨6, _⟩ => st6 m c
    | ⟨7, _⟩ => st7 m c
    | ⟨8, _⟩ => outFinal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdealProof

end
-- ==== Proof.LibSep.lean ====
import Idealize.ShloMosaic.Lib.Pipeline.Kit

/-!
Separating conjunctions over a finite type: written out factor by factor, re-indexed along bijections, and
taken under a persistent assertion. Nothing here mentions a particular program.
-/

noncomputable section

namespace Cert

open Idealize.SL Idealize.SL.RA Idealize.SL.BI
open scoped Idealize.SL.BI
open Idealize.SL.BI.BIBase Idealize.SL.BI.Laws Idealize.SL.ProofMode

variable {M : Type} [URA M]

theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_fin6 (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin12 (Φ : Fin 12 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem bigSep_fin13 (Φ : Fin 13 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- A conjunction over `Fin (n+1)`, the first factor apart. -/
theorem bigSep_fin_succ {n : ℕ} (Φ : Fin (n + 1) → sProp M) :
    bigSep Finset.univ Φ = iprop(Φ 0 ∗ bigSep Finset.univ fun k : Fin n => Φ k.succ) := by
  rw [Fin.univ_succ]; unfold bigSep; rw [Finset.fold_cons, Finset.fold_map]; rfl

/-- Dealing along bijections: the conjunction over all `c` and `j` of `Φ j c` is that of `Φ j (e j c)`, both ranging over the same pairs. -/
theorem bigSep_deal {C J : Type} [Fintype C] [Fintype J] (e : J → C ≃ C) (Φ : J → C → sProp M) :
    (bigSep Finset.univ fun c : C => bigSep Finset.univ fun j : J => Φ j c)
      = bigSep Finset.univ fun c : C => bigSep Finset.univ fun j : J => Φ j (e j c) :=
  calc (bigSep Finset.univ fun c : C => bigSep Finset.univ fun j : J => Φ j c)
      = bigSep Finset.univ (fun cj : C × J => Φ cj.2 cj.1) := (bigSep_univ_prod (fun cj : C × J => Φ cj.2 cj.1)).symm
    _ = bigSep Finset.univ (fun cj : C × J => Φ cj.2 (e cj.2 cj.1)) :=
        bigSep_univ_equiv ⟨fun cj => (e cj.2 cj.1, cj.2), fun cj => ((e cj.2).symm cj.1, cj.2),
          fun cj => Prod.ext ((e cj.2).symm_apply_apply cj.1) rfl, fun cj => Prod.ext ((e cj.2).apply_symm_apply cj.1) rfl⟩
          (fun cj : C × J => Φ cj.2 cj.1)
    _ = _ := bigSep_univ_prod (fun cj : C × J => Φ cj.2 (e cj.2 cj.1))

theorem bigSep_with_persistent {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ := by
  exact (sep_mono_left (BI.bigSep_of_persistent S R)).trans (by rw [← bigSep_sep']; exact bigSep_mono h)

end Cert

end
-- ==== Proof.Launch.lean ====
import proofs.«900964_g7700000000000965_dist_mla_v7x_xyz2x2x2_x_b2_s256_d1024_dc64_f32_1_alg».proof.Proof.SchedFacts
import proofs.«900964_g7700000000000965_dist_mla_v7x_xyz2x2x2_x_b2_s256_d1024_dc64_f32_1_alg».proof.Proof.Data
import proofs.«900964_g7700000000000965_dist_mla_v7x_xyz2x2x2_x_b2_s256_d1024_dc64_f32_1_alg».proof.Proof.LibSep
import proofs.«900964_g7700000000000965_dist_mla_v7x_xyz2x2x2_x_b2_s256_d1024_dc64_f32_1_alg».proof.Proof.Gen.KernelIdeal.Launch
import proofs.«900964_g7700000000000965_dist_mla_v7x_xyz2x2x2_x_b2_s256_d1024_dc64_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by
  decide

theorem share_eq (c : Dev nD) (w : Fin cfg0.W) : (dats m ρ 0 c).share w = fullShare := by
  unfold Dat.share; split <;> rfl

theorem csem_injective : Function.Injective csem := by
  decide

theorem kcell_injective : Function.Injective (kcell : Dev nD × Fin 13 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def ringCells : Finset (GSem nD τ sig) := Finset.univ.map ⟨kcell, kcell_injective⟩

abbrev TokIx : Type := Fin 4 ⊕ (Fin 6 ⊕ Fin 6)

def tokSem : TokIx → SemLoc sig × Fin 4
  | .inl j => (.reg barS, j)
  | .inr (.inl i) => (.dma (sendS i), 0)
  | .inr (.inr i) => (.dma (recvS i), 0)

def tokOf (cj : Dev nD × TokIx) : GSem nD τ sig × ℕ × Fin 4 := (((cj.1 : Thread nD τ), (tokSem cj.2).1), 0, (tokSem cj.2).2)

theorem tokSem_injective : Function.Injective tokSem := by
  decide

theorem tokOf_injective : Function.Injective (tokOf : Dev nD × TokIx → GSem nD τ sig × ℕ × Fin 4) := by
  rintro ⟨c, a⟩ ⟨c', a'⟩ h
  have h1 : c = c' := congrArg (fun x : GSem nD τ sig × ℕ × Fin 4 => x.1.1.1) h
  subst h1
  have h2 : tokSem a = tokSem a' :=
    Prod.ext (congrArg (fun x : GSem nD τ sig × ℕ × Fin 4 => x.1.2) h) (congrArg (fun x : GSem nD τ sig × ℕ × Fin 4 => x.2.2) h)
  rw [tokSem_injective h2]

def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun j : Fin 4 => dutyTok ER (barCell c) 0 j)
    ∗ (bigSep Finset.univ fun i : Fin 6 => dutyTok ER (sendCell i c) 0 (0 : Fin 4))
    ∗ bigSep Finset.univ fun i : Fin 6 => dutyTok ER (recvCell i c) 0 (0 : Fin 4))

def G (c : Dev nD) : sProp 𝕄 :=
  iprop((bigSep Finset.univ fun k : Fin 13 => roundState ER (Rd m) (kcell (c, k)) 0)
    ∗ (bigSep Finset.univ fun k : Fin 13 => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : Fin 12 => semVal ((c : Thread nD τ), osem k) 0 := by
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin_succ (fun k : Fin 13 => (semVal (kcell (c, k)) 0 : sProp 𝕄))]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 13 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 13 → ℕ) (c : Dev nD) : iprop(records m K ∗ linear c) ⊢ G' m c := by
  unfold G' ghost
  iintro H
  iexists K
  iexact H

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_deal peerEquiv (fun (j : Fin 4) (c : Dev nD) => (dutyTok ER (barCell c) 0 j : sProp 𝕄)),
    bigSep_deal (fun i : Fin 6 => peerEquiv (xferKind i)) (fun (i : Fin 6) (c : Dev nD) => (dutyTok ER (recvCell i c) 0 (0 : Fin 4) : sProp 𝕄))]
  iintro ⟨H1, H2, H3⟩
  isplitl [H1]; · iexact H1
  isplitl [H3]; · iexact H3
  iexact H2

theorem regroup :
    (bigSep Finset.univ fun c : Dev nD => iprop((bigSep Finset.univ fun k => iprop(∃ κ : ℕ, cellInv ER (Rd m) κ (kcell (c, k))))
          ∗ (bigSep Finset.univ fun k : Fin 13 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (Rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 13 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  exact ((bigSep_mono fun c _ => core_alloc m c).trans (bigSep_fupd _ _)).trans (BI.fupd_mono (regroup m))

theorem launchCred_owesFrom (k : ℕ) (h : k < 10) (c : Dev nD) :
    (Pipeline.launchCred (fun d : Dev nD => owesFrom d k) c : sProp 𝕄)
      = iprop(Pipeline.launchCred (fun d : Dev nD => owesFrom d (k + 1)) c ∗ Pipeline.launchCred (fun d : Dev nD => debt d ⟨k, h⟩) c) := by
  rw [show (fun d : Dev nD => owesFrom d k) = fun d => owesFrom d (k + 1) + debt d ⟨k, h⟩ from funext fun d => owesFrom_step d k h]
  exact Pipeline.launchCred_add _ _ c

theorem launchCred_debt_bar (k : ℕ) (hk : k < 4) (h : k < 10) (c : Dev nD) :
    (Pipeline.launchCred (fun d : Dev nD => debt d ⟨k, h⟩) c : sProp 𝕄) ⊢ cred (tallyAt (barCell c) () 1) := by
  rw [show (fun d : Dev nD => debt d ⟨k, h⟩) = fun d => tallyAt (barCell (peer ⟨k, hk⟩ d)) () 1 from funext fun d => debt_bar d ⟨k, hk⟩]
  exact Pipeline.launchCred_tallyAt (.reg barS) (peer ⟨k, hk⟩) (peer ⟨k, hk⟩) (peer_peer _) (peer_peer _) () 1 c

theorem launchCred_debt_recv (i : ℕ) (hi : i < 6) (h : 4 + i < 10) (c : Dev nD) :
    (Pipeline.launchCred (fun d : Dev nD => debt d ⟨4 + i, h⟩) c : sProp 𝕄) ⊢ cred (tallyAt (recvCell ⟨i, hi⟩ c) () (Ncr ⟨i, hi⟩)) := by
  rw [show (fun d : Dev nD => debt d ⟨4 + i, h⟩) = fun d => tallyAt (recvCell ⟨i, hi⟩ (xpeer ⟨i, hi⟩ d)) () (Ncr ⟨i, hi⟩) from
    funext fun d => debt_recv d ⟨i, hi⟩]
  exact Pipeline.launchCred_tallyAt (.dma (recvS ⟨i, hi⟩)) (xpeer ⟨i, hi⟩) (xpeer ⟨i, hi⟩) (xpeer_xpeer _) (xpeer_xpeer _) () (Ncr ⟨i, hi⟩) c

theorem cred_four (g : GSem nD τ sig) :
    iprop(cred (tallyAt g () 1) ∗ cred (tallyAt g () 1) ∗ cred (tallyAt g () 1) ∗ cred (tallyAt g () 1)) ⊢ (cred (tallyAt g () 4) : sProp 𝕄) := by
  have h : (tallyAt g () 4 : CellTallies nD τ sig Unit) = tallyAt g () 1 + (tallyAt g () 1 + (tallyAt g () 1 + tallyAt g () 1)) := by
    rw [tallyAt_add, tallyAt_add, tallyAt_add]
  rw [h]
  exact (sep_mono_right ((sep_mono_right (cred_add _ _).2).trans (cred_add _ _).2)).trans (cred_add _ _).2

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem creds' (c : Dev nD) : (Pipeline.launchCred O₀ c : sProp 𝕄) ⊢ creds c := by
  show (Pipeline.launchCred (fun d : Dev nD => owesFrom d 0) c : sProp 𝕄) ⊢ creds c
  rw [launchCred_owesFrom 0 (by decide), launchCred_owesFrom 1 (by decide), launchCred_owesFrom 2 (by decide), launchCred_owesFrom 3 (by decide),
    launchCred_owesFrom 4 (by decide), launchCred_owesFrom 5 (by decide), launchCred_owesFrom 6 (by decide), launchCred_owesFrom 7 (by decide),
    launchCred_owesFrom 8 (by decide), launchCred_owesFrom 9 (by decide)]
  iintro ⟨⟨⟨⟨⟨⟨⟨⟨⟨⟨-, H9⟩, H8⟩, H7⟩, H6⟩, H5⟩, H4⟩, H3⟩, H2⟩, H1⟩, H0⟩
  ihave C0 := (launchCred_debt_bar (F := F) 0 (by decide) _ c) $$ H0
  ihave C1 := (launchCred_debt_bar (F := F) 1 (by decide) _ c) $$ H1
  ihave C2 := (launchCred_debt_bar (F := F) 2 (by decide) _ c) $$ H2
  ihave C3 := (launchCred_debt_bar (F := F) 3 (by decide) _ c) $$ H3
  ihave C4 := (launchCred_debt_recv (F := F) 0 (by decide) _ c) $$ H4
  ihave C5 := (launchCred_debt_recv (F := F) 1 (by decide) _ c) $$ H5
  ihave C6 := (launchCred_debt_recv (F := F) 2 (by decide) _ c) $$ H6
  ihave C7 := (launchCred_debt_recv (F := F) 3 (by decide) _ c) $$ H7
  ihave C8 := (launchCred_debt_recv (F := F) 4 (by decide) _ c) $$ H8
  ihave C9 := (launchCred_debt_recv (F := F) 5 (by decide) _ c) $$ H9
  unfold creds; rw [bigSep_fin6]
  isplitl [C0 C1 C2 C3]
  · iapply (cred_four (F := F) (barCell c))
    isplitl [C0]; · iexact C0
    isplitl [C1]; · iexact C1
    isplitl [C2]; · iexact C2
    iexact C3
  isplitl [C4]; · iexact C4
  isplitl [C5]; · iexact C5
  isplitl [C6]; · iexact C6
  isplitl [C7]; · iexact C7
  isplitl [C8]; · iexact C8
  iexact C9

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds' (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scr
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c := by
  exact Pipeline.cellsWaits_intro cfgs (dats m ρ) () 0 c fun w s t =>
    mayWait_stage (F := F) c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_in (c : Dev nD) (w : Fin 9) (hw : w.val < 8) : finalA m ρ c w = (s₀ m ρ).mem ((cfg0.win w).arr.view.loc (c : Thread nD τ)) := by
  exact (dats (F := F) m ρ 0 c).arrAt_in w (by fin_cases w <;> first | rfl | exact absurd hw (by decide)) _

theorem finalA_out (c : Dev nD) : finalA m ρ c (8 : Fin 9) = outFinal m c := by
  have h := (dats (F := F) m ρ 0 c).arrAt_succ (8 : Fin 9) t₀
  rw [flush0_8 t₀, if_pos rfl] at h
  refine (show finalA m ρ c (8 : Fin 9) = (dats (F := F) m ρ 0 c).arrAt (8 : Fin 9) (t₀.val + 1) from rfl).trans (h.trans ?_)
  exact Memref.write_access_unit_zero_univ (Elt F) main_v1 (funext fun a => Nat.zero_mul _) _ _ _

/-- info: 'Cert.KernelIdealProof.run_main' depends on axioms: [propext, Classical.choice, Quot.sound] -/
#guard_msgs in #print axioms run_main

end Cert.KernelIdealProof

end
-- ==== Proof.LibSlots.lean ====
import Idealize.ShloMosaic.Lib.Pipeline.Value
import Idealize.ShloMosaic.Lib.Exec

/-!
General facts about views, slots of a stacked buffer, and ownership of a buffer cut along one coordinate.
Nothing here mentions a particular program.
-/

noncomputable section

namespace Cert

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section ViewFacts
variable {sg : RefSig} {κ : Kind} {sp : Space} {s s' : Shape} {e : EltTy} {Val : EltTy → Type}

theorem read_reshape_write (v : View sg κ sp s e) (h : s'.numel = s.numel) (f : v.ty.Contents Val) (w : s.Idx → Val e) :
    (v.reshape s' h).read Val (v.write Val f w Finset.univ) = fun y => w (Shape.reshapeEquiv h y) := by
  funext y
  exact View.read_write_of_mem (v := v) f w (Finset.mem_univ (Shape.reshapeEquiv h y))

theorem read_write_reshape (v : View sg κ sp s e) (h : s'.numel = s.numel) (f : v.ty.Contents Val) (w : s'.Idx → Val e) :
    v.read Val ((v.reshape s' h).write Val f w Finset.univ) = fun x => w (Shape.reshapeEquiv h.symm x) := by
  funext x
  have hx : v.emb x = (v.reshape s' h).emb (Shape.reshapeEquiv h.symm x) := by
    show v.emb x = v.emb (Shape.reshapeEquiv h (Shape.reshapeEquiv h.symm x))
    rw [Shape.reshapeEquiv_reshapeEquiv, Shape.reshapeEquiv_self]
  rw [View.read_apply, hx, View.write_emb_of_mem _ _ (Finset.mem_univ _), cast_cast, cast_eq]

/-- Re-indexing out of a stored view and back into a view of the same shape is the identity on the value. -/
theorem read_land_store (u u' : View sg κ sp s e) (h : s'.numel = s.numel) (fd : u.ty.Contents Val) (f : u'.ty.Contents Val)
    (w : s.Idx → Val e) :
    u.read Val ((u.reshape s' h).write Val fd ((u'.reshape s' h).read Val (u'.write Val f w Finset.univ)) Finset.univ) = w := by
  rw [read_reshape_write, read_write_reshape]
  funext x
  show w (Shape.reshapeEquiv h (Shape.reshapeEquiv h.symm x)) = w x
  rw [Shape.reshapeEquiv_reshapeEquiv, Shape.reshapeEquiv_self]

/-- Where an unmasked write lands, the old contents do not matter. -/
theorem write_univ_congr (v : View sg κ sp s e) (f f' : v.ty.Contents Val) (w : s.Idx → Val e) :
    ∀ i ∈ v.set, v.write Val f w Finset.univ i = v.write Val f' w Finset.univ i := fun i hi =>
  View.write_congr (fun _ _ _ => rfl) fun hn => absurd hi hn

variable (v : View sg κ sp s e) (r : Rect s) (h : s'.numel = r.shape.numel)

theorem load_sub : v.setOn r.toLoadRect.set ⊆ ((v.slice r).reshape s' h).set := by
  have e : v.setOn r.toLoadRect.set = ((v.slice r).reshape s' h).set :=
    (v.set_slice r).symm.trans (View.set_reshape (v.slice r) h).symm
  exact fun i hi => e ▸ hi

theorem store_sub : (v.slice r).setOn Finset.univ ⊆ ((v.slice r).reshape s' h).set := by
  have e : (v.slice r).setOn Finset.univ = ((v.slice r).reshape s' h).set := (View.set_reshape (v.slice r) h).symm
  exact fun i hi => e ▸ hi

theorem store_congr (f f' : v.ty.Contents Val) (w : r.shape.Idx → Val e) :
    ∀ i ∈ ((v.slice r).reshape s' h).set, (v.slice r).write Val f w Finset.univ i = (v.slice r).write Val f' w Finset.univ i :=
  fun i hi => write_univ_congr (v.slice r) f f' w i (View.set_reshape (v.slice r) h ▸ hi)

theorem slot_set_whole (b : Ref sg κ) (r : Rect b.ty.shape) (h : s'.numel = r.shape.numel) :
    (((View.whole b).slice r).reshape s' h).set = r.set :=
  (View.set_reshape ((View.whole b).slice r) h).trans (View.set_slice_whole b r)

end ViewFacts

/-- The rectangle of slot `k` of a stack is cut out by the first coordinate alone. -/
theorem mem_slot {K R C k : ℕ} {inb : ∀ a, (![k, 0, 0] : Fin 3 → ℕ) a + (![1, R, C] : Fin 3 → ℕ) a ≤ (⟨3, ![K, R, C]⟩ : Shape).size a}
    {i : (⟨3, ![K, R, C]⟩ : Shape).Idx} :
    i ∈ (Rect.unit (s := ⟨3, ![K, R, C]⟩) ![k, 0, 0] ![1, R, C] inb).set ↔ (i 0 : ℕ) = k := by
  have h1 : ((i 1 : Fin _) : ℕ) < R := (i 1).isLt
  have h2 : ((i 2 : Fin _) : ℕ) < C := (i 2).isLt
  rw [Rect.mem_set_unit, Fin.forall_fin_succ, Fin.forall_fin_succ, Fin.forall_fin_succ]
  simp only [Matrix.cons_val_zero, Matrix.cons_val_succ, Fin.succ_zero_eq_one, Fin.succ_one_eq_two, Matrix.cons_val_one, Matrix.cons_val_two,
    Matrix.tail_cons, Matrix.head_cons, IsEmpty.forall_iff, and_true]
  omega

section Cut
variable {nD : ℕ} {τ : Topo} {sig : RefSig} {Val : EltTy → Type}
variable {Ix : Type} [DecidableEq Ix] {Name : Type} [DecidableEq Name] {U : Type} [URA U] {Lvl : Type}
local notation "𝕄" => MT nD τ sig Ix Val Name U Lvl

variable {ℓ : Loc nD τ sig} (φ : Idx ℓ → ℕ) (q : PosShare TreeShare)

/-- Index sets cut out by different values of one coordinate are disjoint. -/
theorem disj_of {I J : Finset (Idx ℓ)} {a b : ℕ} (hab : a ≠ b) (hI : ∀ {i}, i ∈ I ↔ φ i = a) (hJ : ∀ {i}, i ∈ J ↔ φ i = b) :
    Disjoint I J :=
  Finset.disjoint_left.mpr fun i ha hb => hab ((hI.mp ha).symm.trans (hJ.mp hb))

/-- A buffer whose indices fall into two classes is owned as the two parts. -/
theorem cut2 {I J : Finset (Idx ℓ)} (hI : ∀ {i}, i ∈ I ↔ φ i = 0) (hJ : ∀ {i}, i ∈ J ↔ φ i = 1) (hφ : ∀ i, φ i < 2)
    (f : Buf Val ℓ) : (ℓ ↦{q} f : sProp 𝕄) ⊣⊢ iprop((ℓ ↦[I]{q} f) ∗ (ℓ ↦[J]{q} f)) := by
  have hC : I ∪ J = Finset.univ := Finset.eq_univ_iff_forall.mpr fun i => by
    have := hφ i; rw [Finset.mem_union, hI, hJ]; omega
  have h : (ℓ ↦[I ∪ J]{q} f : sProp 𝕄) ⊣⊢ iprop((ℓ ↦[I]{q} f) ∗ (ℓ ↦[J]{q} f)) :=
    Region.is_union (disj_of φ (by decide) hI hJ)
  rwa [hC] at h

/-- Conversely, owning the two parts at whatever contents is owning the buffer at some contents. -/
theorem join2 {I J : Finset (Idx ℓ)} (hI : ∀ {i}, i ∈ I ↔ φ i = 0) (hJ : ∀ {i}, i ∈ J ↔ φ i = 1) (hφ : ∀ i, φ i < 2)
    (f g : Buf Val ℓ) : iprop((ℓ ↦[I]{q} f) ∗ (ℓ ↦[J]{q} g)) ⊢ (iprop(∃ h, ℓ ↦{q} h) : sProp 𝕄) := by
  have hC : I ∪ J = Finset.univ := Finset.eq_univ_iff_forall.mpr fun i => by
    have := hφ i; rw [Finset.mem_union, hI, hJ]; omega
  have h : iprop((ℓ ↦[I]{q} f) ∗ (ℓ ↦[J]{q} g)) ⊢ (ℓ ↦[I ∪ J]{q} (J.piecewise g f) : sProp 𝕄) :=
    Region.is_join (disj_of φ (by decide) hI hJ)
  rw [hC] at h
  exact h.trans (exists_intro (Φ := fun h => (ℓ ↦{q} h : sProp 𝕄)) _)

section Four
variable {I0 I1 I2 I3 : Finset (Idx ℓ)} (h0 : ∀ {i}, i ∈ I0 ↔ φ i = 0) (h1 : ∀ {i}, i ∈ I1 ↔ φ i = 1)
  (h2 : ∀ {i}, i ∈ I2 ↔ φ i = 2) (h3 : ∀ {i}, i ∈ I3 ↔ φ i = 3) (hφ : ∀ i, φ i < 4)
include h0 h1 h2 h3 hφ

theorem four_facts : Disjoint I2 I3 ∧ Disjoint I1 (I2 ∪ I3) ∧ Disjoint I0 (I1 ∪ (I2 ∪ I3)) ∧ I0 ∪ (I1 ∪ (I2 ∪ I3)) = Finset.univ := by
  refine ⟨disj_of φ (by decide) h2 h3, ?_, ?_, ?_⟩
  · exact Finset.disjoint_union_right.mpr ⟨disj_of φ (by decide) h1 h2, disj_of φ (by decide) h1 h3⟩
  · exact Finset.disjoint_union_right.mpr ⟨disj_of φ (by decide) h0 h1,
      Finset.disjoint_union_right.mpr ⟨disj_of φ (by decide) h0 h2, disj_of φ (by decide) h0 h3⟩⟩
  · exact Finset.eq_univ_iff_forall.mpr fun i => by
      have := hφ i; rw [Finset.mem_union, Finset.mem_union, Finset.mem_union, h0, h1, h2, h3]; omega

/-- A buffer whose indices fall into four classes is owned as the four parts. -/
theorem cut4 (f : Buf Val ℓ) :
    (ℓ ↦{q} f : sProp 𝕄) ⊣⊢ iprop((ℓ ↦[I0]{q} f) ∗ (ℓ ↦[I1]{q} f) ∗ (ℓ ↦[I2]{q} f) ∗ (ℓ ↦[I3]{q} f)) := by
  obtain ⟨d23, d1, d0, hC⟩ := four_facts φ h0 h1 h2 h3 hφ
  have a : (ℓ ↦[I0 ∪ (I1 ∪ (I2 ∪ I3))]{q} f : sProp 𝕄) ⊣⊢ iprop((ℓ ↦[I0]{q} f) ∗ (ℓ ↦[I1 ∪ (I2 ∪ I3)]{q} f)) :=
    Region.is_union d0
  have b : (ℓ ↦[I1 ∪ (I2 ∪ I3)]{q} f : sProp 𝕄) ⊣⊢ iprop((ℓ ↦[I1]{q} f) ∗ (ℓ ↦[I2 ∪ I3]{q} f)) := Region.is_union d1
  have c : (ℓ ↦[I2 ∪ I3]{q} f : sProp 𝕄) ⊣⊢ iprop((ℓ ↦[I2]{q} f) ∗ (ℓ ↦[I3]{q} f)) := Region.is_union d23
  rw [hC] at a
  exact a.trans (sep_congr_right (b.trans (sep_congr_right c)))

/-- Conversely for four parts. -/
theorem join4 (f0 f1 f2 f3 : Buf Val ℓ) :
    iprop((ℓ ↦[I0]{q} f0) ∗ (ℓ ↦[I1]{q} f1) ∗ (ℓ ↦[I2]{q} f2) ∗ (ℓ ↦[I3]{q} f3)) ⊢ (iprop(∃ h, ℓ ↦{q} h) : sProp 𝕄) := by
  obtain ⟨d23, d1, d0, hC⟩ := four_facts φ h0 h1 h2 h3 hφ
  have c : iprop((ℓ ↦[I2]{q} f2) ∗ (ℓ ↦[I3]{q} f3)) ⊢ (ℓ ↦[I2 ∪ I3]{q} (I3.piecewise f3 f2) : sProp 𝕄) := Region.is_join d23
  have b : iprop((ℓ ↦[I1]{q} f1) ∗ (ℓ ↦[I2 ∪ I3]{q} (I3.piecewise f3 f2)))
      ⊢ (ℓ ↦[I1 ∪ (I2 ∪ I3)]{q} ((I2 ∪ I3).piecewise (I3.piecewise f3 f2) f1) : sProp 𝕄) := Region.is_join d1
  have a : iprop((ℓ ↦[I0]{q} f0) ∗ (ℓ ↦[I1 ∪ (I2 ∪ I3)]{q} ((I2 ∪ I3).piecewise (I3.piecewise f3 f2) f1)))
      ⊢ (ℓ ↦[I0 ∪ (I1 ∪ (I2 ∪ I3))]{q} ((I1 ∪ (I2 ∪ I3)).piecewise ((I2 ∪ I3).piecewise (I3.piecewise f3 f2) f1) f0) : sProp 𝕄) :=
    Region.is_join d0
  rw [hC] at a
  exact (sep_mono_right ((sep_mono_right c).trans b)).trans (a.trans (exists_intro (Φ := fun h => (ℓ ↦{q} h : sProp 𝕄)) _))

end Four

end Cut

end Cert

end
-- ==== Proof.Slots.lean ====
import proofs.«900964_g7700000000000965_dist_mla_v7x_xyz2x2x2_x_b2_s256_d1024_dc64_f32_1_alg».proof.Proof.SlotDefs
import proofs.«900964_g7700000000000965_dist_mla_v7x_xyz2x2x2_x_b2_s256_d1024_dc64_f32_1_alg».proof.Proof.OutAsm
import proofs.«900964_g7700000000000965_dist_mla_v7x_xyz2x2x2_x_b2_s256_d1024_dc64_f32_1_alg».proof.Proof.LibSlots
import Idealize.ShloMosaic.Lib.Pipeline.Value
import Idealize.ShloMosaic.Lib.ValueIdx

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Instances

theorem mem_setC0 {i : S2x256x64.Idx} : i ∈ setC0 ↔ (i 0 : ℕ) = 0 := by
  rw [show setC0 = rC0.set from slot_set_whole cc0_scratch0 rC0 _]; exact mem_slot
theorem mem_setC1 {i : S2x256x64.Idx} : i ∈ setC1 ↔ (i 0 : ℕ) = 1 := by
  rw [show setC1 = rC1.set from slot_set_whole cc0_scratch0 rC1 _]; exact mem_slot
theorem mem_setK0 {i : S2x64x1024.Idx} : i ∈ setK0 ↔ (i 0 : ℕ) = 0 := by
  rw [show setK0 = rU0.set from slot_set_whole cc0_scratch1 rU0 _]; exact mem_slot
theorem mem_setK1 {i : S2x64x1024.Idx} : i ∈ setK1 ↔ (i 0 : ℕ) = 1 := by
  rw [show setK1 = rU1.set from slot_set_whole cc0_scratch1 rU1 _]; exact mem_slot
theorem mem_setV0 {i : S2x64x1024.Idx} : i ∈ setV0 ↔ (i 0 : ℕ) = 0 := by
  rw [show setV0 = rU0.set from slot_set_whole cc0_scratch2 rU0 _]; exact mem_slot
theorem mem_setV1 {i : S2x64x1024.Idx} : i ∈ setV1 ↔ (i 0 : ℕ) = 1 := by
  rw [show setV1 = rU1.set from slot_set_whole cc0_scratch2 rU1 _]; exact mem_slot
theorem mem_setO0 {i : S4x128x1024.Idx} : i ∈ setO0 ↔ (i 0 : ℕ) = 0 := by
  rw [show setO0 = rO0.set from slot_set_whole cc0_scratch3 rO0 _]; exact mem_slot
theorem mem_setO1 {i : S4x128x1024.Idx} : i ∈ setO1 ↔ (i 0 : ℕ) = 1 := by
  rw [show setO1 = rO1.set from slot_set_whole cc0_scratch3 rO1 _]; exact mem_slot
theorem mem_setO2 {i : S4x128x1024.Idx} : i ∈ setO2 ↔ (i 0 : ℕ) = 2 := by
  rw [show setO2 = rO2.set from slot_set_whole cc0_scratch3 rO2 _]; exact mem_slot
theorem mem_setO3 {i : S4x128x1024.Idx} : i ∈ setO3 ↔ (i 0 : ℕ) = 3 := by
  rw [show setO3 = rO3.set from slot_set_whole cc0_scratch3 rO3 _]; exact mem_slot

theorem loadSub_C0 : (M9).view.setOn rC0.toLoadRect.set ⊆ setC0 := load_sub _ _ _
theorem loadSub_C1 : (M9).view.setOn rC1.toLoadRect.set ⊆ setC1 := load_sub _ _ _
theorem loadSub_K0 : (M10).view.setOn rU0.toLoadRect.set ⊆ setK0 := load_sub _ _ _
theorem loadSub_K1 : (M10).view.setOn rU1.toLoadRect.set ⊆ setK1 := load_sub _ _ _
theorem loadSub_V0 : (M11).view.setOn rU0.toLoadRect.set ⊆ setV0 := load_sub _ _ _
theorem loadSub_V1 : (M11).view.setOn rU1.toLoadRect.set ⊆ setV1 := load_sub _ _ _
theorem loadSub_O0 : (M12).view.setOn rO0.toLoadRect.set ⊆ setO0 := load_sub _ _ _
theorem loadSub_O1 : (M12).view.setOn rO1.toLoadRect.set ⊆ setO1 := load_sub _ _ _
theorem loadSub_O2 : (M12).view.setOn rO2.toLoadRect.set ⊆ setO2 := load_sub _ _ _
theorem loadSub_O3 : (M12).view.setOn rO3.toLoadRect.set ⊆ setO3 := load_sub _ _ _

theorem storeSub_C0 : ((M9).access rC0).setOn Finset.univ ⊆ setC0 := store_sub _ _ _
theorem storeSub_K0 : ((M10).access rU0).setOn Finset.univ ⊆ setK0 := store_sub _ _ _
theorem storeSub_V0 : ((M11).access rU0).setOn Finset.univ ⊆ setV0 := store_sub _ _ _
theorem storeSub_O0 : ((M12).access rO0).setOn Finset.univ ⊆ setO0 := store_sub _ _ _

end Instances

section Out

theorem write_out_hit (off : Fin 3 → ℕ) (inb : ∀ a, off a + S1x128x1024.size a ≤ S2x256x1024.size a)
    (f : (M8).view.ty.Contents (Elt F)) (w : Vec F S1x128x1024 .f32) (i : S2x256x1024.Idx) (x : S1x128x1024.Idx)
    (h0 : (i 0 : ℕ) = off 0) (h1 : (i 1 : ℕ) = off 1 + (x 1 : ℕ)) (h2 : (i 2 : ℕ) = off 2 + (x 2 : ℕ)) :
    ((M8).access (Rect.unit (s := S2x256x1024) off S1x128x1024.size inb)).write (Elt F) f w Finset.univ i = w x := by
  have hx0 : ((x 0 : Fin _) : ℕ) = 0 := Nat.lt_one_iff.mp (x 0).isLt
  have hi : i = (Rect.unit (s := S2x256x1024) off S1x128x1024.size inb).emb x := by
    funext a
    apply Fin.ext
    match a with
    | ⟨0, _⟩ => show (i 0 : ℕ) = off 0 + 1 * (x 0 : ℕ); omega
    | ⟨1, _⟩ => show (i 1 : ℕ) = off 1 + 1 * (x 1 : ℕ); omega
    | ⟨2, _⟩ => show (i 2 : ℕ) = off 2 + 1 * (x 2 : ℕ); omega
  have h := View.write_emb_of_mem (v := (M8).access (Rect.unit (s := S2x256x1024) off S1x128x1024.size inb))
    (Val := Elt F) f w (M := Finset.univ) (x := x) (Finset.mem_univ x)
  rw [cast_eq] at h
  rw [hi]
  exact h

theorem write_out_miss (off : Fin 3 → ℕ) (inb : ∀ a, off a + S1x128x1024.size a ≤ S2x256x1024.size a)
    (f : (M8).view.ty.Contents (Elt F)) (w : Vec F S1x128x1024 .f32) (i : S2x256x1024.Idx)
    (h : (i 0 : ℕ) ≠ off 0 ∨ (i 1 : ℕ) < off 1 ∨ off 1 + 128 ≤ (i 1 : ℕ)) :
    ((M8).access (Rect.unit (s := S2x256x1024) off S1x128x1024.size inb)).write (Elt F) f w Finset.univ i = f i := by
  refine View.write_of_not_mem (v := (M8).access (Rect.unit (s := S2x256x1024) off S1x128x1024.size inb)) (Val := Elt F) f w Finset.univ
    (i := i) fun hm => ?_
  have hm' : i ∈ (Rect.unit (s := S2x256x1024) off S1x128x1024.size inb).set :=
    (View.set_slice_whole cc0_stg8_0 (Rect.unit (s := S2x256x1024) off S1x128x1024.size inb)) ▸ hm
  have a0 : off 0 ≤ (i 0 : ℕ) ∧ (i 0 : ℕ) < off 0 + 1 := (Rect.mem_set_unit.mp hm') 0
  have a1 : off 1 ≤ (i 1 : ℕ) ∧ (i 1 : ℕ) < off 1 + 128 := (Rect.mem_set_unit.mp hm') 1
  omega

theorem cover_out (c : Dev nD) (o0 : (M8).view.ty.Contents (Elt F)) (w2 w3 w4 w5 : Vec F S1x128x1024 .f32) :
    ((M8).access (Rect.unit (s := S2x256x1024) (k0_off5 c) S1x128x1024.size (k0_off5_inb c))).write (Elt F)
      (((M8).access (Rect.unit (s := S2x256x1024) (k0_off4 c) S1x128x1024.size (k0_off4_inb c))).write (Elt F)
        (((M8).access (Rect.unit (s := S2x256x1024) (k0_off3 c) S1x128x1024.size (k0_off3_inb c))).write (Elt F)
          (((M8).access (Rect.unit (s := S2x256x1024) (k0_off2 c) S1x128x1024.size (k0_off2_inb c))).write (Elt F) o0 w2 Finset.univ)
          w3 Finset.univ)
        w4 Finset.univ)
      w5 Finset.univ = outAsm c w2 w3 w4 w5 := by
  funext i
  have a20 : k0_off2 c 0 = (c.val / 2) % 2 := by rw [k0_off2_eq c]; rfl
  have a21 : k0_off2 c 1 = 128 * (c.val % 2) := by rw [k0_off2_eq c]; rfl
  have a22 : k0_off2 c 2 = 0 := by rw [k0_off2_eq c]; rfl
  have a30 : k0_off3 c 0 = (c.val / 2) % 2 := by rw [k0_off3_eq c]; rfl
  have a31 : k0_off3 c 1 = 128 - 128 * (c.val % 2) := by rw [k0_off3_eq c]; rfl
  have a32 : k0_off3 c 2 = 0 := by rw [k0_off3_eq c]; rfl
  have a40 : k0_off4 c 0 = 1 - (c.val / 2) % 2 := by rw [k0_off4_eq c]; rfl
  have a41 : k0_off4 c 1 = 128 * (c.val % 2) := by rw [k0_off4_eq c]; rfl
  have a42 : k0_off4 c 2 = 0 := by rw [k0_off4_eq c]; rfl
  have a50 : k0_off5 c 0 = 1 - (c.val / 2) % 2 := by rw [k0_off5_eq c]; rfl
  have a51 : k0_off5 c 1 = 128 - 128 * (c.val % 2) := by rw [k0_off5_eq c]; rfl
  have a52 : k0_off5 c 2 = 0 := by rw [k0_off5_eq c]; rfl
  have hi0 : ((i 0 : Fin _) : ℕ) < 2 := (i 0).isLt
  have hi1 : ((i 1 : Fin _) : ℕ) < 256 := (i 1).isLt
  have hz : c.val % 2 < 2 := Nat.mod_lt _ (by decide)
  have hy : (c.val / 2) % 2 < 2 := Nat.mod_lt _ (by decide)
  have hyc : (yOf c).val = (c.val / 2) % 2 := rfl
  have hzc : (zOf c).val = c.val % 2 := rfl
  have b1 : ((inBlk i 1 : Fin _) : ℕ) = ((i 1 : Fin _) : ℕ) % 128 := rfl
  have b2 : ((inBlk i 2 : Fin _) : ℕ) = ((i 2 : Fin _) : ℕ) := rfl
  unfold outAsm
  by_cases h0 : (i 0).val = (yOf c).val
  · by_cases h1 : (i 1).val / 128 = (zOf c).val
    · rw [if_pos h0, if_pos h1]
      refine (write_out_miss (k0_off5 c) (k0_off5_inb c) _ w5 i (.inl (by omega))).trans ?_
      refine (write_out_miss (k0_off4 c) (k0_off4_inb c) _ w4 i (.inl (by omega))).trans ?_
      refine (write_out_miss (k0_off3 c) (k0_off3_inb c) _ w3 i (.inr (by omega))).trans ?_
      exact write_out_hit (k0_off2 c) (k0_off2_inb c) o0 w2 i (inBlk i) (by omega) (by omega) (by omega)
    · rw [if_pos h0, if_neg h1]
      refine (write_out_miss (k0_off5 c) (k0_off5_inb c) _ w5 i (.inl (by omega))).trans ?_
      refine (write_out_miss (k0_off4 c) (k0_off4_inb c) _ w4 i (.inl (by omega))).trans ?_
      exact write_out_hit (k0_off3 c) (k0_off3_inb c) _ w3 i (inBlk i) (by omega) (by omega) (by omega)
  · by_cases h1 : (i 1).val / 128 = (zOf c).val
    · rw [if_neg h0, if_pos h1]
      refine (write_out_miss (k0_off5 c) (k0_off5_inb c) _ w5 i (.inr (by omega))).trans ?_
      exact write_out_hit (k0_off4 c) (k0_off4_inb c) _ w4 i (inBlk i) (by omega) (by omega) (by omega)
    · rw [if_neg h0, if_neg h1]
      exact write_out_hit (k0_off5 c) (k0_off5_inb c) _ w5 i (inBlk i) (by omega) (by omega) (by omega)

end Out

end Cert.KernelIdealProof

end
-- ==== Proof.Body.lean ====
import proofs.«900964_g7700000000000965_dist_mla_v7x_xyz2x2x2_x_b2_s256_d1024_dc64_f32_1_alg».proof.Proof.Data
import proofs.«900964_g7700000000000965_dist_mla_v7x_xyz2x2x2_x_b2_s256_d1024_dc64_f32_1_alg».proof.Proof.SchedFacts
import proofs.«900964_g7700000000000965_dist_mla_v7x_xyz2x2x2_x_b2_s256_d1024_dc64_f32_1_alg».proof.Proof.Slots
import proofs.«900964_g7700000000000965_dist_mla_v7x_xyz2x2x2_x_b2_s256_d1024_dc64_f32_1_alg».proof.Proof.LibSep

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem owes_sig (c : Dev nD) (j : Fin 4) :
    owesFrom c j.val = owesFrom c (j.val + 1) + tallyAt (barCell (peer j c)) () 1 := by
  rw [owesFrom_step c j.val (by have := j.isLt; omega), debt_bar]
theorem owes_xfer (c : Dev nD) (i : Fin 6) :
    owesFrom c (4 + i.val) = owesFrom c (4 + i.val + 1) + tallyAt (recvCell i (xpeer i c)) () (Ncr i) := by
  rw [owesFrom_step c (4 + i.val) (by have := i.isLt; omega), debt_recv]

theorem inv_at (K : Dev nD × Fin 13 → ℕ) (ck : Dev nD × Fin 13) :
    (bigSep Finset.univ fun ck : Dev nD × Fin 13 => (cellInv ER (Rd m) (K ck) (kcell ck) : sProp 𝕄)) ⊢ cellInv ER (Rd m) (K ck) (kcell ck) :=
  bigSep_elim (Finset.mem_univ ck)
theorem reached_at (ck : Dev nD × Fin 13) :
    (bigSep Finset.univ fun ck : Dev nD × Fin 13 => (reached ER (kcell ck) 0 : sProp 𝕄)) ⊢ reached ER (kcell ck) 0 :=
  bigSep_elim (Finset.mem_univ ck)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 13 → ℕ)

theorem inv_send (c : Dev nD) (i : Fin 6) :
    (bigSep Finset.univ fun ck : Dev nD × Fin 13 => (cellInv ER (Rd m) (K ck) (kcell ck) : sProp 𝕄)) ⊢ cellInv ER (Rd m) (K (c, kSend i)) (sendCell i c) := by
  rw [← kcell_send]; exact inv_at m K (c, kSend i)
theorem inv_recv (c : Dev nD) (i : Fin 6) :
    (bigSep Finset.univ fun ck : Dev nD × Fin 13 => (cellInv ER (Rd m) (K ck) (kcell ck) : sProp 𝕄)) ⊢ cellInv ER (Rd m) (K (c, kRecv i)) (recvCell i c) := by
  rw [← kcell_recv]; exact inv_at m K (c, kRecv i)
theorem reached_send (c : Dev nD) (i : Fin 6) :
    (bigSep Finset.univ fun ck : Dev nD × Fin 13 => (reached ER (kcell ck) 0 : sProp 𝕄)) ⊢ reached ER (sendCell i c) 0 := by
  rw [← kcell_send]; exact reached_at (F := F) (c, kSend i)
theorem reached_recv (c : Dev nD) (i : Fin 6) :
    (bigSep Finset.univ fun ck : Dev nD × Fin 13 => (reached ER (kcell ck) 0 : sProp 𝕄)) ⊢ reached ER (recvCell i c) 0 := by
  rw [← kcell_recv]; exact reached_at (F := F) (c, kRecv i)

def bodyPre (c : Dev nD) : sProp 𝕄 :=
  iprop((ghost m K c ∗ creds c ∗ levAts L lv ∗ scr c)
    ∗ (dats m ρ 0 c).owesAt () t₀.castSucc
    ∗ (∃ d, stg c cc0_stg0_0 ((dats m ρ 0 c).before (0 : Fin 9) t₀ d))
    ∗ (∃ d, stg c cc0_stg1_0 ((dats m ρ 0 c).before (1 : Fin 9) t₀ d))
    ∗ (∃ d, stg c cc0_stg2_0 ((dats m ρ 0 c).before (2 : Fin 9) t₀ d))
    ∗ (∃ d, stg c cc0_stg3_0 ((dats m ρ 0 c).before (3 : Fin 9) t₀ d))
    ∗ (∃ d, stg c cc0_stg4_0 ((dats m ρ 0 c).before (4 : Fin 9) t₀ d))
    ∗ (∃ d, stg c cc0_stg5_0 ((dats m ρ 0 c).before (5 : Fin 9) t₀ d))
    ∗ (∃ d, stg c cc0_stg6_0 ((dats m ρ 0 c).before (6 : Fin 9) t₀ d))
    ∗ (∃ d, stg c cc0_stg7_0 ((dats m ρ 0 c).before (7 : Fin 9) t₀ d))
    ∗ (∃ d, stg c cc0_stg8_0 ((dats m ρ 0 c).before (8 : Fin 9) t₀ d)))

def bodyPost (c : Dev nD) : sProp 𝕄 :=
  iprop(Φ₁ c ∗ (dats m ρ 0 c).owesAt () t₀.succ
    ∗ stg c cc0_stg0_0 (st0 m c) ∗ stg c cc0_stg1_0 (st1 m c) ∗ stg c cc0_stg2_0 (st2 m c) ∗ stg c cc0_stg3_0 (st3 m c)
    ∗ stg c cc0_stg4_0 (st4 m c) ∗ stg c cc0_stg5_0 (st5 m c) ∗ stg c cc0_stg6_0 (st6 m c) ∗ stg c cc0_stg7_0 (st7 m c)
    ∗ stg c cc0_stg8_0 (outFinal m c))

theorem before_in0 (c : Dev nD) (d) : (dats m ρ 0 c).before (0 : Fin 9) t₀ d = st0 m c := by
  unfold Dat.before; rw [if_pos (fetch0_0 t₀)]; rfl
theorem before_in1 (c : Dev nD) (d) : (dats m ρ 0 c).before (1 : Fin 9) t₀ d = st1 m c := by
  unfold Dat.before; rw [if_pos (fetch0_1 t₀)]; rfl
theorem before_in2 (c : Dev nD) (d) : (dats m ρ 0 c).before (2 : Fin 9) t₀ d = st2 m c := by
  unfold Dat.before; rw [if_pos (fetch0_2 t₀)]; rfl
theorem before_in3 (c : Dev nD) (d) : (dats m ρ 0 c).before (3 : Fin 9) t₀ d = st3 m c := by
  unfold Dat.before; rw [if_pos (fetch0_3 t₀)]; rfl
theorem before_in4 (c : Dev nD) (d) : (dats m ρ 0 c).before (4 : Fin 9) t₀ d = st4 m c := by
  unfold Dat.before; rw [if_pos (fetch0_4 t₀)]; rfl
theorem before_in5 (c : Dev nD) (d) : (dats m ρ 0 c).before (5 : Fin 9) t₀ d = st5 m c := by
  unfold Dat.before; rw [if_pos (fetch0_5 t₀)]; rfl
theorem before_in6 (c : Dev nD) (d) : (dats m ρ 0 c).before (6 : Fin 9) t₀ d = st6 m c := by
  unfold Dat.before; rw [if_pos (fetch0_6 t₀)]; rfl
theorem before_in7 (c : Dev nD) (d) : (dats m ρ 0 c).before (7 : Fin 9) t₀ d = st7 m c := by
  unfold Dat.before; rw [if_pos (fetch0_7 t₀)]; rfl

theorem rdC0 (c : Dev nD) : (M9).view.readAt (Elt F) rC0.toLoadRect (bufC0 m c) = cNew m c := View.read_write_univ (v := (M9).view.slice rC0) _ _
theorem rdK0 (c : Dev nD) : (M10).view.readAt (Elt F) rU0.toLoadRect (bufK0 m c) = ukNew m c := View.read_write_univ (v := (M10).view.slice rU0) _ _
theorem rdV0 (c : Dev nD) : (M11).view.readAt (Elt F) rU0.toLoadRect (bufV0 m c) = uvNew m c := View.read_write_univ (v := (M11).view.slice rU0) _ _
theorem rdC1 (c : Dev nD) : (M9).view.readAt (Elt F) rC1.toLoadRect (bufC1 m c) = cNew m (peer 0 c) :=
  read_land_store ((M9).view.slice rC1) ((M9).view.slice rC0) _ _ _ _
theorem rdK1 (c : Dev nD) : (M10).view.readAt (Elt F) rU1.toLoadRect (bufK1 m c) = ukNew m (peer 0 c) :=
  read_land_store ((M10).view.slice rU1) ((M10).view.slice rU0) _ _ _ _
theorem rdV1 (c : Dev nD) : (M11).view.readAt (Elt F) rU1.toLoadRect (bufV1 m c) = uvNew m (peer 0 c) :=
  read_land_store ((M11).view.slice rU1) ((M11).view.slice rU0) _ _ _ _
theorem rdO1 (c : Dev nD) : (M12).view.readAt (Elt F) rO1.toLoadRect (bufO1 m c) = outB m (peer 1 c) :=
  read_land_store ((M12).view.slice rO1) ((M12).view.slice rO0) _ _ _ _
theorem rdO2 (c : Dev nD) : (M12).view.readAt (Elt F) rO2.toLoadRect (bufO2 m c) = outB m (peer 2 c) :=
  read_land_store ((M12).view.slice rO2) ((M12).view.slice rO0) _ _ _ _
theorem rdO3 (c : Dev nD) : (M12).view.readAt (Elt F) rO3.toLoadRect (bufO3 m c) = outB m (peer 3 c) :=
  read_land_store ((M12).view.slice rO3) ((M12).view.slice rO0) _ _ _ _

theorem hz2 : (![0, 0] : Fin 2 → Nat) = fun _ => 0 := funext fun a => by fin_cases a <;> rfl
theorem rdW1 (f : (cc0_stg1_0 : Ref sig .tc).ty.Contents (Elt F)) :
    (Memref.whole cc0_stg1_0 : Memref sig .tc .vmem S1024x64 .f32).view.readAt (Elt F) (Rect.unit (s := S1024x64) ![0, 0] S1024x64.size inb_S1024x64_S1024x64_0_0).toLoadRect f = f :=
  Memref.readAt_unit_zero (Elt F) cc0_stg1_0 hz2 _ f
theorem rdW2 (f : (cc0_stg2_0 : Ref sig .tc).ty.Contents (Elt F)) :
    (Memref.whole cc0_stg2_0 : Memref sig .tc .vmem S64x1024 .f32).view.readAt (Elt F) (Rect.unit (s := S64x1024) ![0, 0] S64x1024.size inb_S64x1024_S64x1024_0_0).toLoadRect f = f :=
  Memref.readAt_unit_zero (Elt F) cc0_stg2_0 hz2 _ f
theorem rdW3 (f : (cc0_stg3_0 : Ref sig .tc).ty.Contents (Elt F)) :
    (Memref.whole cc0_stg3_0 : Memref sig .tc .vmem S64x1024 .f32).view.readAt (Elt F) (Rect.unit (s := S64x1024) ![0, 0] S64x1024.size inb_S64x1024_S64x1024_0_0).toLoadRect f = f :=
  Memref.readAt_unit_zero (Elt F) cc0_stg3_0 hz2 _ f
theorem rdW4 (f : (cc0_stg4_0 : Ref sig .tc).ty.Contents (Elt F)) :
    (Memref.whole cc0_stg4_0 : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg4_0 hz2 _ f
theorem rdW5 (f : (cc0_stg5_0 : Ref sig .tc).ty.Contents (Elt F)) :
    (Memref.whole cc0_stg5_0 : Memref sig .tc .vmem S1024x512 .f32).view.readAt (Elt F) (Rect.unit (s := S1024x512) ![0, 0] S1024x512.size inb_S1024x512_S1024x512_0_0).toLoadRect f = f :=
  Memref.readAt_unit_zero (Elt F) cc0_stg5_0 hz2 _ f
theorem rdW6 (f : (cc0_stg6_0 : Ref sig .tc).ty.Contents (Elt F)) :
    (Memref.whole cc0_stg6_0 : Memref sig .tc .vmem S1024x32 .f32).view.readAt (Elt F) (Rect.unit (s := S1024x32) ![0, 0] S1024x32.size inb_S1024x32_S1024x32_0_0).toLoadRect f = f :=
  Memref.readAt_unit_zero (Elt F) cc0_stg6_0 hz2 _ f
theorem rdW7 (f : (cc0_stg7_0 : Ref sig .tc).ty.Contents (Elt F)) :
    (Memref.whole cc0_stg7_0 : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg7_0 hz2 _ f

/-- An own cell whose one round is over closes with its counter at zero. -/
theorem close_cell (c : Dev nD) (k : Fin 13) {g : GSem nD τ sig} (hg : kcell (c, k) = g) :
    iprop((bigSep Finset.univ fun ck : Dev nD × Fin 13 => (cellInv ER (Rd m) (K ck) (kcell ck) : sProp 𝕄)) ∗ atPos ER g (0 + 1) ∅ 0) ⊢ (iprop(|={Set.univ}=> semVal g 0) : sProp 𝕄) := by
  subst hg
  exact (sep_mono_left (inv_at m K (c, k))).trans
    (Rounds.cell_close ER (Rd m) (Set.mem_univ (K (c, k))) (fun h => h) (R := 0 + 1) (duties_later m _))

/-- Owing nothing, a device may wait anywhere. -/
theorem mayWait_none (c : Dev nD) (sm : SemLoc sig) : (levAts L lv : sProp 𝕄) ⊢ MayWait (c : Thread nD τ) sm () 0 := by
  rw [MayWait_zero]; iintro #H; iempintro

/-- The wait for all of round 0 on one of the device's own transfer cells: what the round's duties carried comes with it. -/
theorem wp_wait (c : Dev nD) (k : Fin 13) (q : DmaSem sig) (hq : kcell (c, k) = ((c : Thread nD τ), SemLoc.dma q))
    (N' : ℕ) {N : ℕ} (hNN : N' = N) (hN : N' = (Rd (F := F) m).expect ((c : Thread nD τ), SemLoc.dma q) 0)
    (O : CellTallies nD τ sig Unit) (hO : (levAts L lv : sProp 𝕄) ⊢ MayWait (c : Thread nD τ) (SemLoc.dma q) () O)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (SemLoc.dma q) N Kt)
    {W : Waits sig Unit} {α : Type} {Q : α → sProp 𝕄} {kk : PUnit → Prog (TpuEff nD τ sig (Elt F) Λ₀ .tc) α} :
    iprop((bigSep Finset.univ fun ck : Dev nD × Fin 13 => (cellInv ER (Rd m) (K ck) (kcell ck) : sProp 𝕄)) ∗ levAts L lv
        ∗ cred (tallyAt ((c : Thread nD τ), SemLoc.dma q) () N') ∗ owes (c : Thread nD τ) O W ∗ atPos ER (kcell (c, k)) 0 ∅ 0)
      ⊢ iprop(((owes (c : Thread nD τ) O (insert (SemLoc.dma q, ()) W) ∗ atPos ER ((c : Thread nD τ), SemLoc.dma q) (0 + 1) ∅ 0
              ∗ bigSep ((Rd m).duties ((c : Thread nD τ), SemLoc.dma q) 0 \ ∅) (fun d => (Rd m).payload ((c : Thread nD τ), SemLoc.dma q) 0 d))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hNN
  rw [hq]
  iintro ⟨#HI, #Hlev, Hc, HO, Hat⟩ Hk
  iapply (Rounds.wp_wait_rest_token 𝒱₀ ER (Rd m) (c : Thread nD τ) none (κ := K (c, k)) (sm := SemLoc.dma q) hw (Set.mem_univ _) ()
      (O := O) (W := W) (R := 0) (m := 0) (T := ∅) (by rw [Nat.zero_add]; exact hN)) $$ [Hc HO Hat]
  · isplitr; · rw [← hq]; iapply (inv_at m K (c, k)); iexact HI
    isplitl [Hc]; · iexact Hc
    isplitl [HO]; · iexact HO
    isplitr; · iapply hO; iexact Hlev
    iexact Hat
  iintro ⟨HO, Hat, -, Hpay⟩
  iapply Hk
  isplitl [HO]; · iexact HO
  isplitl [Hat]; · iexact Hat
  iexact Hpay

/-- Transfer `i` to the peer of kind `j`: the source slot is the send cell's payload, the landed slot the peer's receive cell's. -/
theorem wp_send (c n : Dev nD) (i : Fin 6) (j : PeerKind) (hn : n = peer j c) {s2 : Shape}
    {src : Memref sig .tc .vmem s2 .bf16} {dst : Memref sig (Dev.tc n : Thread nD τ).2.kind .vmem s2 .bf16}
    {hsc : dst.view.ref.isScScratch = false} {hsrc : src.view.WordExact} {hdst : dst.view.WordExact}
    {hsem : DmaTarget.Typed .vmem (.dma (recvS i)) (.remote (Dev.tc n : Thread nD τ) dst (.dma (sendS i)) hsc)}
    {α : Type} {Q : α → sProp 𝕄} {k : PUnit → Prog (TpuEff nD τ sig (Elt F) Λ₀ .tc) α}
    (q : PosShare TreeShare) (fs : Buf (Elt F) (src.view.loc (c : Thread nD τ))) (fn : Buf (Elt F) (dst.view.loc (peer j c : Thread nD τ)))
    (hN : dst.view.amount (.dma (recvS i)) = Ncr i)
    (hO : owesFrom c (4 + i.val) = owesFrom c (4 + i.val + 1) + tallyAt (recvCell i (peer j c)) () (Ncr i))
    (hs : sendPay m i c = (src.view.loc (c : Thread nD τ) ↦[src.view.set]{q} fs))
    (hr : recvPay m i (peer j c)
      = (dst.view.loc (peer j c : Thread nD τ) ↦[dst.view.set]{fullShare} dst.view.write (Elt F) junk (src.view.read (Elt F) fs) Finset.univ))
    (W : Waits sig Unit) :
    iprop((bigSep Finset.univ fun ck : Dev nD × Fin 13 => (cellInv ER (Rd m) (K ck) (kcell ck) : sProp 𝕄)) ∗ (bigSep Finset.univ fun ck : Dev nD × Fin 13 => (reached ER (kcell ck) 0 : sProp 𝕄))
        ∗ (src.view.loc (c : Thread nD τ) ↦[src.view.set]{q} fs) ∗ (dst.view.loc (peer j c : Thread nD τ) ↦[dst.view.set]{fullShare} fn)
        ∗ owes (c : Thread nD τ) (owesFrom c (4 + i.val)) W
        ∗ dutyTok ER (sendCell i c) 0 (0 : Fin 4) ∗ dutyTok ER (recvCell i (peer j c)) 0 (0 : Fin 4))
      ⊢ iprop(((cred (tallyAt (sendCell i c) () (Ncr i)) ∗ owes (c : Thread nD τ) (owesFrom c (4 + i.val + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sendS i)) hsc) (.dma (recvS i)) hsrc hdst hsem) k) Q) := by
  subst hn
  iintro ⟨#HI, #HR, Hs, Hd, HO, Ht1, Ht2⟩ Hk
  iapply (Rounds.wp_send_pointsTo 𝒱₀ ER (Rd m) (c : Thread nD τ) none (c' := (peer j c : Thread nD τ)) (src := src) (dst := dst)
    (q := q) (fs := fs) (κ₁ := K (c, kSend i)) (κ₂ := K (peer j c, kRecv i))
    (r₁ := 0) (r₂ := 0) (d₁ := (0 : Fin 4)) (d₂ := (0 : Fin 4)) (fd := fn)
    (by rw [duties_send]; exact Finset.mem_singleton_self _) (by rw [duties_recv]; exact Finset.mem_singleton_self _)
    () () (Ncr i) hN (amount_send m c i 0) (amount_recv m (peer j c) i 0) (owesFrom c (4 + i.val + 1)) hO (W := W)
    (by rw [payload_send, hs]) (by rw [payload_recv, hr]; exact Entails.of_eq (Region.is_congr (write_univ_congr dst.view fn junk _)))) $$ [Hs Hd HO Ht1 Ht2]
  · isplitr; · iapply (inv_send m K c i); iexact HI
    isplitr; · iapply (inv_recv m K (peer j c) i); iexact HI
    isplitl [Hs]; · iexact Hs
    isplitl [Hd]; · iexact Hd
    isplitl [HO]; · iexact HO
    isplitl [Ht1]; · iexact Ht1
    isplitr; · iapply (reached_send (F := F) c i); iexact HR
    isplitl [Ht2]; · iexact Ht2
    iapply (reached_recv (F := F) (peer j c) i); iexact HR
  iexact Hk

set_option maxRecDepth 65536 in
set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) Kt := by
  simp only [cc0_body_eq_skeleton]; unfold cc0_body_skel
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  simp only [dev1_eq c, dev2_eq c, dev3_eq c, dev4_eq c]
  unfold bodyPre ghost records linear payToks creds scr
  rw [bigSep_fin13, bigSep_fin4, bigSep_fin6, bigSep_fin6, bigSep_fin6]
  iintro ⟨⟨⟨⟨⟨#HI, #HR⟩, ⟨Hat0, HatS0, HatS1, HatS2, HatS3, HatS4, HatS5, HatR0, HatR1, HatR2, HatR3, HatR4, HatR5⟩,
      ⟨HtB0, HtB1, HtB2, HtB3⟩, ⟨HtR0, HtR1, HtR2, HtR3, HtR4, HtR5⟩, ⟨HtS0, HtS1, HtS2, HtS3, HtS4, HtS5⟩⟩,
      ⟨HcB, HcR0, HcR1, HcR2, HcR3, HcR4, HcR5⟩, #Hlev, ⟨%f9, H9⟩, ⟨%f10, H10⟩, ⟨%f11, H11⟩, ⟨%f12, H12⟩⟩,
    Ho, ⟨%d0, %g0, %hg0, Hx0⟩, ⟨%d1, %g1, %hg1, Hx1⟩, ⟨%d2, %g2, %hg2, Hx2⟩, ⟨%d3, %g3, %hg3, Hx3⟩, ⟨%d4, %g4, %hg4, Hx4⟩,
    ⟨%d5, %g5, %hg5, Hx5⟩, ⟨%d6, %g6, %hg6, Hx6⟩, ⟨%d7, %g7, %hg7, Hx7⟩, ⟨%d8, %g8, %hg8, Hx8⟩⟩, Hk⟩
  rw [before_in0 m ρ c] at hg0; subst hg0
  rw [before_in1 m ρ c] at hg1; subst hg1
  rw [before_in2 m ρ c] at hg2; subst hg2
  rw [before_in3 m ρ c] at hg3; subst hg3
  rw [before_in4 m ρ c] at hg4; subst hg4
  rw [before_in5 m ρ c] at hg5; subst hg5
  rw [before_in6 m ρ c] at hg6; subst hg6
  rw [before_in7 m ρ c] at hg7; subst hg7
  unfold Dat.owesAt Pipeline.owesWithin
  icases Ho with ⟨%W, %hW, HO⟩
  rw [show (dats m ρ 0 c).owed t₀.castSucc = owesFrom c 0 from rfl]
  ihave HC := (cut2 (Val := Elt F) (ℓ := (c : Thread nD τ).loc cc0_scratch0) (fun i : S2x256x64.Idx => (i 0 : ℕ)) fullShare mem_setC0 mem_setC1 (fun i => (i 0).isLt) f9).mp $$ H9
  icases HC with ⟨HC0, HC1⟩
  ihave HK := (cut2 (Val := Elt F) (ℓ := (c : Thread nD τ).loc cc0_scratch1) (fun i : S2x64x1024.Idx => (i 0 : ℕ)) fullShare mem_setK0 mem_setK1 (fun i => (i 0).isLt) f10).mp $$ H10
  icases HK with ⟨HK0, HK1⟩
  ihave HV := (cut2 (Val := Elt F) (ℓ := (c : Thread nD τ).loc cc0_scratch2) (fun i : S2x64x1024.Idx => (i 0 : ℕ)) fullShare mem_setV0 mem_setV1 (fun i => (i 0).isLt) f11).mp $$ H11
  icases HV with ⟨HV0, HV1⟩
  ihave HOo := (cut4 (Val := Elt F) (ℓ := (c : Thread nD τ).loc cc0_scratch3) (fun i : S4x128x1024.Idx => (i 0 : ℕ)) fullShare mem_setO0 mem_setO1 mem_setO2 mem_setO3 (fun i => (i 0).isLt) f12).mp $$ H12
  icases HOo with ⟨HO0, HO1, HO2, HO3⟩
  iapply (Rounds.wp_signal 𝒱₀ ER (Rd m) (c : Thread nD τ) none (dst := (peer 0 c : Thread nD τ)) (κ := K (peer 0 c, 0))
      (d := (0 : Fin 4)) (by rw [duties_bar]; exact Finset.mem_univ _) ((amount_bar m (peer 0 c) 0).trans (by decide)) () (owesFrom c 1) (owes_sig c 0))
    $$ [HO HtB0 HC1 HK1 HV1]
  · isplitr; · iapply (inv_at m K (peer 0 c, 0)); iexact HI
    isplitl [HO]; · iexact HO
    isplitl [HtB0]; · iexact HtB0
    isplitl [HC1 HK1 HV1]
    · rw [payload_bar]; unfold barPay; dsimp only; rw [peer_peer]
      isplitl [HC1]; · iexists f9; iexact HC1
      isplitl [HK1]; · iexists f10; iexact HK1
      iexists f11; iexact HV1
    · iapply (reached_at (F := F) (peer 0 c, 0)); iexact HR
  iintro HO
  iapply (Rounds.wp_signal 𝒱₀ ER (Rd m) (c : Thread nD τ) none (dst := (peer 1 c : Thread nD τ)) (κ := K (peer 1 c, 0))
      (d := (1 : Fin 4)) (by rw [duties_bar]; exact Finset.mem_univ _) ((amount_bar m (peer 1 c) 1).trans (by decide)) () (owesFrom c 2) (owes_sig c 1))
    $$ [HO HtB1 HO1]
  · isplitr; · iapply (inv_at m K (peer 1 c, 0)); iexact HI
    isplitl [HO]; · iexact HO
    isplitl [HtB1]; · iexact HtB1
    isplitl [HO1]
    · rw [payload_bar]; unfold barPay; dsimp only; rw [peer_peer]
      iexists f12; iexact HO1
    · iapply (reached_at (F := F) (peer 1 c, 0)); iexact HR
  iintro HO
  iapply (Rounds.wp_signal 𝒱₀ ER (Rd m) (c : Thread nD τ) none (dst := (peer 2 c : Thread nD τ)) (κ := K (peer 2 c, 0))
      (d := (2 : Fin 4)) (by rw [duties_bar]; exact Finset.mem_univ _) ((amount_bar m (peer 2 c) 2).trans (by decide)) () (owesFrom c 3) (owes_sig c 2))
    $$ [HO HtB2 HO2]
  · isplitr; · iapply (inv_at m K (peer 2 c, 0)); iexact HI
    isplitl [HO]; · iexact HO
    isplitl [HtB2]; · iexact HtB2
    isplitl [HO2]
    · rw [payload_bar]; unfold barPay; dsimp only; rw [peer_peer]
      iexists f12; iexact HO2
    · iapply (reached_at (F := F) (peer 2 c, 0)); iexact HR
  iintro HO
  iapply (Rounds.wp_signal 𝒱₀ ER (Rd m) (c : Thread nD τ) none (dst := (peer 3 c : Thread nD τ)) (κ := K (peer 3 c, 0))
      (d := (3 : Fin 4)) (by rw [duties_bar]; exact Finset.mem_univ _) ((amount_bar m (peer 3 c) 3).trans (by decide)) () (owesFrom c 4) (owes_sig c 3))
    $$ [HO HtB3 HO3]
  · isplitr; · iapply (inv_at m K (peer 3 c, 0)); iexact HI
    isplitl [HO]; · iexact HO
    isplitl [HtB3]; · iexact HtB3
    isplitl [HO3]
    · rw [payload_bar]; unfold barPay; dsimp only; rw [peer_peer]
      iexists f12; iexact HO3
    · iapply (reached_at (F := F) (peer 3 c, 0)); iexact HR
  iintro HO
  iapply (Rounds.wp_wait_rest_token 𝒱₀ ER (Rd m) (c : Thread nD τ) none (κ := K (c, 0))
      (wpE_semWait_eq 𝒱₀ (c : Thread nD τ) none Set.univ) (Set.mem_univ _) () (O := owesFrom c 4) (W := W) (R := 0) (m := 0) (T := ∅)
      (by rw [expect_bar]; decide)) $$ [HcB HO Hat0]
  · isplitr; · iapply (inv_at m K (c, 0)); iexact HI
    isplitl [HcB]; · iexact HcB
    isplitl [HO]; · iexact HO
    isplitr; · iapply (mayWait_bar (F := F) c); iexact Hlev
    iexact Hat0
  iintro ⟨HO, Hat0, -, Hpay⟩
  ihave Hp := (Entails.of_eq (rest_bar m c)) $$ Hpay
  unfold barPay
  icases Hp with ⟨⟨⟨%fc1, HPC1⟩, ⟨%fk1, HPK1⟩, ⟨%fv1, HPV1⟩⟩, ⟨%fo1, HPO1⟩, ⟨%fo2, HPO2⟩, ⟨%fo3, HPO3⟩⟩
  iapply (wp_load 𝒱₀ (c : Thread nD τ) none Set.univ (m := M0) (Finset.subset_univ _)) $$ Hx0; iintro Hx0
  iapply (wp_load 𝒱₀ (c : Thread nD τ) none Set.univ (m := (Memref.whole cc0_stg2_0)) (Finset.subset_univ _)) $$ Hx2; iintro Hx2
  rw [rdW2]
  iapply (wp_load 𝒱₀ (c : Thread nD τ) none Set.univ (m := M10) loadSub_K0) $$ HK0; iintro HK0
  iapply (wp_store 𝒱₀ (c : Thread nD τ) none Set.univ (m := M10) (r := rU0) (Mk := Finset.univ) storeSub_K0) $$ HK0; iintro HK0
  ihave HK0 := (Entails.of_eq (Region.is_congr (store_congr (Val := Elt F) (M10).view rU0 squeezes_S1x64x1024_S64x1024.numel_eq f10 junk _))) $$ HK0
  iapply (wp_load 𝒱₀ (c : Thread nD τ) none Set.univ (m := (Memref.whole cc0_stg3_0)) (Finset.subset_univ _)) $$ Hx3; iintro Hx3
  rw [rdW3]
  iapply (wp_load 𝒱₀ (c : Thread nD τ) none Set.univ (m := M11) loadSub_V0) $$ HV0; iintro HV0
  iapply (wp_store 𝒱₀ (c : Thread nD τ) none Set.univ (m := M11) (r := rU0) (Mk := Finset.univ) storeSub_V0) $$ HV0; iintro HV0
  ihave HV0 := (Entails.of_eq (Region.is_congr (store_congr (Val := Elt F) (M11).view rU0 squeezes_S1x64x1024_S64x1024.numel_eq f11 junk _))) $$ HV0
  iapply (wp_load 𝒱₀ (c : Thread nD τ) none Set.univ (m := (Memref.whole cc0_stg1_0)) (Finset.subset_univ _)) $$ Hx1; iintro Hx1
  rw [rdW1]
  iapply (wp_load 𝒱₀ (c : Thread nD τ) none Set.univ (m := M9) loadSub_C0) $$ HC0; iintro HC0
  iapply (wp_store 𝒱₀ (c : Thread nD τ) none Set.univ (m := M9) (r := rC0) (Mk := Finset.univ) storeSub_C0) $$ HC0; iintro HC0
  ihave HC0 := (Entails.of_eq (Region.is_congr (store_congr (Val := Elt F) (M9).view rC0 squeezes_S1x256x64_S256x64.numel_eq f9 junk _))) $$ HC0
  iapply (wp_send m K c _ 0 0 (dev5_eq c) (src := sC0) (dst := sC1) fullShare (bufC0 m c) fc1 rfl (owes_xfer c 0) rfl
      (by unfold recvPay bufC1; dsimp only; rw [peer_peer]) _) $$ [HC0 HPC1 HO HtS0 HtR0]
  · iframe HI HR HO HtS0
    isplitl [HC0]; · iexact HC0
    isplitl [HPC1]; · iexact HPC1
    iexact HtR0
  iintro ⟨HcS0, HO⟩
  iapply (wp_send m K c _ 1 0 (dev6_eq c) (src := sK0) (dst := sK1) fullShare (bufK0 m c) fk1 rfl (owes_xfer c 1) rfl
      (by unfold recvPay bufK1; dsimp only; rw [peer_peer]) _) $$ [HK0 HPK1 HO HtS1 HtR1]
  · iframe HI HR HO HtS1
    isplitl [HK0]; · iexact HK0
    isplitl [HPK1]; · iexact HPK1
    iexact HtR1
  iintro ⟨HcS1, HO⟩
  iapply (wp_send m K c _ 2 0 (dev7_eq c) (src := sV0) (dst := sV1) fullShare (bufV0 m c) fv1 rfl (owes_xfer c 2) rfl
      (by unfold recvPay bufV1; dsimp only; rw [peer_peer]) _) $$ [HV0 HPV1 HO HtS2 HtR2]
  · iframe HI HR HO HtS2
    isplitl [HV0]; · iexact HV0
    isplitl [HPV1]; · iexact HPV1
    iexact HtR2
  iintro ⟨HcS2, HO⟩
  iapply (wp_load 𝒱₀ (c : Thread nD τ) none Set.univ (m := M0) (Finset.subset_univ _)) $$ Hx0; iintro Hx0
  iapply (wp_load 𝒱₀ (c : Thread nD τ) none Set.univ (m := (Memref.whole cc0_stg4_0)) (Finset.subset_univ _)) $$ Hx4; iintro Hx4
  rw [rdW4]
  iapply (wp_load 𝒱₀ (c : Thread nD τ) none Set.univ (m := (Memref.whole cc0_stg5_0)) (Finset.subset_univ _)) $$ Hx5; iintro Hx5
  rw [rdW5]
  iapply (wp_load 𝒱₀ (c : Thread nD τ) none Set.univ (m := (Memref.whole cc0_stg6_0)) (Finset.subset_univ _)) $$ Hx6; iintro Hx6
  rw [rdW6]
  iapply (wp_wait m K c 1 (sendS 0) (kcell_send c 0) (Ncr 0) (by exact rfl) (expect_send m c 0).symm (owesFrom c 7) (mayWait_early (F := F) c (sendS 0) (by decide))
      (wpE_waitDma2_eq 𝒱₀ (c : Thread nD τ) none Set.univ)) $$ [HcS0 HO HatS0]
  · iframe HI Hlev HcS0 HO HatS0
  iintro ⟨HO, HatS0, Hpay⟩
  ihave HC0 := (Entails.of_eq ((rest_send m c 0).trans (show sendPay m 0 c = ((c : Thread nD τ).loc cc0_scratch0 ↦[setC0]{fullShare} bufC0 m c : sProp 𝕄) from rfl))) $$ Hpay
  iapply (wp_wait m K c 7 (recvS 0) (kcell_recv c 0) (Ncr 0) (by exact rfl) (expect_recv m c 0).symm (owesFrom c 7) (mayWait_early (F := F) c (recvS 0) (by decide))
      (wpE_waitDma2_eq 𝒱₀ (c : Thread nD τ) none Set.univ)) $$ [HcR0 HO HatR0]
  · iframe HI Hlev HcR0 HO HatR0
  iintro ⟨HO, HatR0, Hpay⟩
  ihave HC1 := (Entails.of_eq ((rest_recv m c 0).trans (show recvPay m 0 c = ((c : Thread nD τ).loc cc0_scratch0 ↦[setC1]{fullShare} bufC1 m c : sProp 𝕄) from rfl))) $$ Hpay
  iapply (wp_wait m K c 2 (sendS 1) (kcell_send c 1) (Ncr 1) (by exact rfl) (expect_send m c 1).symm (owesFrom c 7) (mayWait_early (F := F) c (sendS 1) (by decide))
      (wpE_waitDma2_eq 𝒱₀ (c : Thread nD τ) none Set.univ)) $$ [HcS1 HO HatS1]
  · iframe HI Hlev HcS1 HO HatS1
  iintro ⟨HO, HatS1, Hpay⟩
  ihave HK0 := (Entails.of_eq ((rest_send m c 1).trans (show sendPay m 1 c = ((c : Thread nD τ).loc cc0_scratch1 ↦[setK0]{fullShare} bufK0 m c : sProp 𝕄) from rfl))) $$ Hpay
  iapply (wp_wait m K c 8 (recvS 1) (kcell_recv c 1) (Ncr 1) (by exact rfl) (expect_recv m c 1).symm (owesFrom c 7) (mayWait_early (F := F) c (recvS 1) (by decide))
      (wpE_waitDma2_eq 𝒱₀ (c : Thread nD τ) none Set.univ)) $$ [HcR1 HO HatR1]
  · iframe HI Hlev HcR1 HO HatR1
  iintro ⟨HO, HatR1, Hpay⟩
  ihave HK1 := (Entails.of_eq ((rest_recv m c 1).trans (show recvPay m 1 c = ((c : Thread nD τ).loc cc0_scratch1 ↦[setK1]{fullShare} bufK1 m c : sProp 𝕄) from rfl))) $$ Hpay
  iapply (wp_wait m K c 3 (sendS 2) (kcell_send c 2) (Ncr 2) (by exact rfl) (expect_send m c 2).symm (owesFrom c 7) (mayWait_early (F := F) c (sendS 2) (by decide))
      (wpE_waitDma2_eq 𝒱₀ (c : Thread nD τ) none Set.univ)) $$ [HcS2 HO HatS2]
  · iframe HI Hlev HcS2 HO HatS2
  iintro ⟨HO, HatS2, Hpay⟩
  ihave HV0 := (Entails.of_eq ((rest_send m c 2).trans (show sendPay m 2 c = ((c : Thread nD τ).loc cc0_scratch2 ↦[setV0]{fullShare} bufV0 m c : sProp 𝕄) from rfl))) $$ Hpay
  iapply (wp_wait m K c 9 (recvS 2) (kcell_recv c 2) (Ncr 2) (by exact rfl) (expect_recv m c 2).symm (owesFrom c 7) (mayWait_early (F := F) c (recvS 2) (by decide))
      (wpE_waitDma2_eq 𝒱₀ (c : Thread nD τ) none Set.univ)) $$ [HcR2 HO HatR2]
  · iframe HI Hlev HcR2 HO HatR2
  iintro ⟨HO, HatR2, Hpay⟩
  ihave HV1 := (Entails.of_eq ((rest_recv m c 2).trans (show recvPay m 2 c = ((c : Thread nD τ).loc cc0_scratch2 ↦[setV1]{fullShare} bufV1 m c : sProp 𝕄) from rfl))) $$ Hpay
  iapply (wp_load 𝒱₀ (c : Thread nD τ) none Set.univ (m := M9) loadSub_C0) $$ HC0; iintro HC0
  rw [rdC0]
  iapply (wp_load 𝒱₀ (c : Thread nD τ) none Set.univ (m := M10) loadSub_K0) $$ HK0; iintro HK0
  rw [rdK0]
  iapply (wp_load 𝒱₀ (c : Thread nD τ) none Set.univ (m := M9) loadSub_C1) $$ HC1; iintro HC1
  rw [rdC1]
  iapply (wp_load 𝒱₀ (c : Thread nD τ) none Set.univ (m := M10) loadSub_K1) $$ HK1; iintro HK1
  rw [rdK1]
  iapply (wp_load 𝒱₀ (c : Thread nD τ) none Set.univ (m := M9) loadSub_C0) $$ HC0; iintro HC0
  rw [rdC0]
  iapply (wp_load 𝒱₀ (c : Thread nD τ) none Set.univ (m := M11) loadSub_V0) $$ HV0; iintro HV0
  rw [rdV0]
  iapply (wp_load 𝒱₀ (c : Thread nD τ) none Set.univ (m := M9) loadSub_C1) $$ HC1; iintro HC1
  rw [rdC1]
  iapply (wp_load 𝒱₀ (c : Thread nD τ) none Set.univ (m := M11) loadSub_V1) $$ HV1; iintro HV1
  rw [rdV1]
  iapply (wp_load 𝒱₀ (c : Thread nD τ) none Set.univ (m := (Memref.whole cc0_stg7_0)) (Finset.subset_univ _)) $$ Hx7; iintro Hx7
  rw [rdW7]
  iapply (wp_load 𝒱₀ (c : Thread nD τ) none Set.univ (m := M12) loadSub_O0) $$ HO0; iintro HO0
  iapply (wp_store 𝒱₀ (c : Thread nD τ) none Set.univ (m := M12) (r := rO0) (Mk := Finset.univ) storeSub_O0) $$ HO0; iintro HO0
  ihave HO0 := (Entails.of_eq (Region.is_congr (store_congr (Val := Elt F) (M12).view rO0 squeezes_S1x128x1024_S128x1024.numel_eq f12 junk _))) $$ HO0
  ihave Hs := (Region.is_share (PosShare.mem_left_op_right fullShare)).mp $$ HO0
  icases Hs with ⟨HOa, HOr⟩
  ihave Hs := (Region.is_share (PosShare.mem_left_op_right fullShare.right)).mp $$ HOr
  icases Hs with ⟨HOb, HOc⟩
  iapply (wp_send m K c _ 3 1 (dev8_eq c) (src := sO0) (dst := sO1) qA (bufO0 m c) fo1 rfl (owes_xfer c 3) rfl
      (by unfold recvPay bufO1; dsimp only; rw [peer_peer]) _) $$ [HOa HPO1 HO HtS3 HtR3]
  · iframe HI HR HO HtS3
    isplitl [HOa]; · iexact HOa
    isplitl [HPO1]; · iexact HPO1
    iexact HtR3
  iintro ⟨HcS3, HO⟩
  iapply (wp_send m K c _ 4 2 (dev9_eq c) (src := sO0) (dst := sO2) qB (bufO0 m c) fo2 rfl (owes_xfer c 4) rfl
      (by unfold recvPay bufO2; dsimp only; rw [peer_peer]) _) $$ [HOb HPO2 HO HtS4 HtR4]
  · iframe HI HR HO HtS4
    isplitl [HOb]; · iexact HOb
    isplitl [HPO2]; · iexact HPO2
    iexact HtR4
  iintro ⟨HcS4, HO⟩
  iapply (wp_send m K c _ 5 3 (dev10_eq c) (src := sO0) (dst := sO3) qC (bufO0 m c) fo3 rfl (owes_xfer c 5) rfl
      (by unfold recvPay bufO3; dsimp only; rw [peer_peer]) _) $$ [HOc HPO3 HO HtS5 HtR5]
  · iframe HI HR HO HtS5
    isplitl [HOc]; · iexact HOc
    isplitl [HPO3]; · iexact HPO3
    iexact HtR5
  rw [show owesFrom c (4 + ((5 : Fin 6) : ℕ) + 1) = 0 from owesFrom_ten c]
  iintro ⟨HcS5, HO⟩
  iapply (wp_load 𝒱₀ (c : Thread nD τ) none Set.univ (m := M8) (Finset.subset_univ _)) $$ Hx8; iintro Hx8
  iapply (wp_store 𝒱₀ (c : Thread nD τ) none Set.univ (m := M8) (r := (Rect.unit (s := S2x256x1024) (k0_off2 c) S1x128x1024.size (k0_off2_inb c))) (Mk := Finset.univ) (Finset.subset_univ _)) $$ Hx8; iintro Hx8
  iapply (wp_wait m K c 4 (sendS 3) (kcell_send c 3) (Ncr 3) (by exact rfl) (expect_send m c 3).symm (0) (mayWait_none (F := F) c _)
      (wpE_waitDma2_eq 𝒱₀ (c : Thread nD τ) none Set.univ)) $$ [HcS3 HO HatS3]
  · iframe HI Hlev HcS3 HO HatS3
  iintro ⟨HO, HatS3, Hpay⟩
  ihave HOa := (Entails.of_eq ((rest_send m c 3).trans (show sendPay m 3 c = ((c : Thread nD τ).loc cc0_scratch3 ↦[setO0]{qA} bufO0 m c : sProp 𝕄) from rfl))) $$ Hpay
  iapply (wp_wait m K c 10 (recvS 3) (kcell_recv c 3) (Ncr 3) (by exact rfl) (expect_recv m c 3).symm (0) (mayWait_none (F := F) c _)
      (wpE_waitDma2_eq 𝒱₀ (c : Thread nD τ) none Set.univ)) $$ [HcR3 HO HatR3]
  · iframe HI Hlev HcR3 HO HatR3
  iintro ⟨HO, HatR3, Hpay⟩
  ihave HO1 := (Entails.of_eq ((rest_recv m c 3).trans (show recvPay m 3 c = ((c : Thread nD τ).loc cc0_scratch3 ↦[setO1]{fullShare} bufO1 m c : sProp 𝕄) from rfl))) $$ Hpay
  iapply (wp_load 𝒱₀ (c : Thread nD τ) none Set.univ (m := M12) loadSub_O1) $$ HO1; iintro HO1
  rw [rdO1]
  iapply (wp_load 𝒱₀ (c : Thread nD τ) none Set.univ (m := M8) (Finset.subset_univ _)) $$ Hx8; iintro Hx8
  iapply (wp_store 𝒱₀ (c : Thread nD τ) none Set.univ (m := M8) (r := (Rect.unit (s := S2x256x1024) (k0_off3 c) S1x128x1024.size (k0_off3_inb c))) (Mk := Finset.univ) (Finset.subset_univ _)) $$ Hx8; iintro Hx8
  iapply (wp_wait m K c 5 (sendS 4) (kcell_send c 4) (Ncr 4) (by exact rfl) (expect_send m c 4).symm (0) (mayWait_none (F := F) c _)
      (wpE_waitDma2_eq 𝒱₀ (c : Thread nD τ) none Set.univ)) $$ [HcS4 HO HatS4]
  · iframe HI Hlev HcS4 HO HatS4
  iintro ⟨HO, HatS4, Hpay⟩
  ihave HOb := (Entails.of_eq ((rest_send m c 4).trans (show sendPay m 4 c = ((c : Thread nD τ).loc cc0_scratch3 ↦[setO0]{qB} bufO0 m c : sProp 𝕄) from rfl))) $$ Hpay
  iapply (wp_wait m K c 11 (recvS 4) (kcell_recv c 4) (Ncr 4) (by exact rfl) (expect_recv m c 4).symm (0) (mayWait_none (F := F) c _)
      (wpE_waitDma2_eq 𝒱₀ (c : Thread nD τ) none Set.univ)) $$ [HcR4 HO HatR4]
  · iframe HI Hlev HcR4 HO HatR4
  iintro ⟨HO, HatR4, Hpay⟩
  ihave HO2 := (Entails.of_eq ((rest_recv m c 4).trans (show recvPay m 4 c = ((c : Thread nD τ).loc cc0_scratch3 ↦[setO2]{fullShare} bufO2 m c : sProp 𝕄) from rfl))) $$ Hpay
  iapply (wp_load 𝒱₀ (c : Thread nD τ) none Set.univ (m := M12) loadSub_O2) $$ HO2; iintro HO2
  rw [rdO2]
  iapply (wp_load 𝒱₀ (c : Thread nD τ) none Set.univ (m := M8) (Finset.subset_univ _)) $$ Hx8; iintro Hx8
  iapply (wp_store 𝒱₀ (c : Thread nD τ) none Set.univ (m := M8) (r := (Rect.unit (s := S2x256x1024) (k0_off4 c) S1x128x1024.size (k0_off4_inb c))) (Mk := Finset.univ) (Finset.subset_univ _)) $$ Hx8; iintro Hx8
  iapply (wp_wait m K c 6 (sendS 5) (kcell_send c 5) (Ncr 5) (by exact rfl) (expect_send m c 5).symm (0) (mayWait_none (F := F) c _)
      (wpE_waitDma2_eq 𝒱₀ (c : Thread nD τ) none Set.univ)) $$ [HcS5 HO HatS5]
  · iframe HI Hlev HcS5 HO HatS5
  iintro ⟨HO, HatS5, Hpay⟩
  ihave HOc := (Entails.of_eq ((rest_send m c 5).trans (show sendPay m 5 c = ((c : Thread nD τ).loc cc0_scratch3 ↦[setO0]{qC} bufO0 m c : sProp 𝕄) from rfl))) $$ Hpay
  iapply (wp_wait m K c 12 (recvS 5) (kcell_recv c 5) (Ncr 5) (by exact rfl) (expect_recv m c 5).symm (0) (mayWait_none (F := F) c _)
      (wpE_waitDma2_eq 𝒱₀ (c : Thread nD τ) none Set.univ)) $$ [HcR5 HO HatR5]
  · iframe HI Hlev HcR5 HO HatR5
  iintro ⟨HO, HatR5, Hpay⟩
  ihave HO3 := (Entails.of_eq ((rest_recv m c 5).trans (show recvPay m 5 c = ((c : Thread nD τ).loc cc0_scratch3 ↦[setO3]{fullShare} bufO3 m c : sProp 𝕄) from rfl))) $$ Hpay
  iapply (wp_load 𝒱₀ (c : Thread nD τ) none Set.univ (m := M12) loadSub_O3) $$ HO3; iintro HO3
  rw [rdO3]
  iapply (wp_load 𝒱₀ (c : Thread nD τ) none Set.univ (m := M8) (Finset.subset_univ _)) $$ Hx8; iintro Hx8
  iapply (wp_store 𝒱₀ (c : Thread nD τ) none Set.univ (m := M8) (r := (Rect.unit (s := S2x256x1024) (k0_off5 c) S1x128x1024.size (k0_off5_inb c))) (Mk := Finset.univ) (Finset.subset_univ _)) $$ Hx8
  rw [cover_out]
  iintro Hx8
  imod (close_cell m K c (kSend 0) (kcell_send c 0)) $$ [HatS0] with HzS0
  · iframe HI HatS0
  imod (close_cell m K c (kSend 1) (kcell_send c 1)) $$ [HatS1] with HzS1
  · iframe HI HatS1
  imod (close_cell m K c (kSend 2) (kcell_send c 2)) $$ [HatS2] with HzS2
  · iframe HI HatS2
  imod (close_cell m K c (kSend 3) (kcell_send c 3)) $$ [HatS3] with HzS3
  · iframe HI HatS3
  imod (close_cell m K c (kSend 4) (kcell_send c 4)) $$ [HatS4] with HzS4
  · iframe HI HatS4
  imod (close_cell m K c (kSend 5) (kcell_send c 5)) $$ [HatS5] with HzS5
  · iframe HI HatS5
  imod (close_cell m K c (kRecv 0) (kcell_recv c 0)) $$ [HatR0] with HzR0
  · iframe HI HatR0
  imod (close_cell m K c (kRecv 1) (kcell_recv c 1)) $$ [HatR1] with HzR1
  · iframe HI HatR1
  imod (close_cell m K c (kRecv 2) (kcell_recv c 2)) $$ [HatR2] with HzR2
  · iframe HI HatR2
  imod (close_cell m K c (kRecv 3) (kcell_recv c 3)) $$ [HatR3] with HzR3
  · iframe HI HatR3
  imod (close_cell m K c (kRecv 4) (kcell_recv c 4)) $$ [HatR4] with HzR4
  · iframe HI HatR4
  imod (close_cell m K c (kRecv 5) (kcell_recv c 5)) $$ [HatR5] with HzR5
  · iframe HI HatR5
  ihave HOr := (Region.is_share (PosShare.mem_left_op_right fullShare.right)).mpr $$ [HOb HOc]
  · iframe
  ihave HO0 := (Region.is_share (PosShare.mem_left_op_right fullShare)).mpr $$ [HOa HOr]
  · iframe
  ihave H9 := (join2 (Val := Elt F) (ℓ := (c : Thread nD τ).loc cc0_scratch0) (fun i : S2x256x64.Idx => (i 0 : ℕ)) fullShare mem_setC0 mem_setC1 (fun i => (i 0).isLt) _ _) $$ [HC0 HC1]
  · iframe
  ihave H10 := (join2 (Val := Elt F) (ℓ := (c : Thread nD τ).loc cc0_scratch1) (fun i : S2x64x1024.Idx => (i 0 : ℕ)) fullShare mem_setK0 mem_setK1 (fun i => (i 0).isLt) _ _) $$ [HK0 HK1]
  · iframe
  ihave H11 := (join2 (Val := Elt F) (ℓ := (c : Thread nD τ).loc cc0_scratch2) (fun i : S2x64x1024.Idx => (i 0 : ℕ)) fullShare mem_setV0 mem_setV1 (fun i => (i 0).isLt) _ _) $$ [HV0 HV1]
  · iframe
  ihave H12 := (join4 (Val := Elt F) (ℓ := (c : Thread nD τ).loc cc0_scratch3) (fun i : S4x128x1024.Idx => (i 0 : ℕ)) fullShare mem_setO0 mem_setO1 mem_setO2 mem_setO3 (fun i => (i 0).isLt) _ _ _ _) $$ [HO0 HO1 HO2 HO3]
  · iframe
  rw [wp_ret]; imodintro
  iapply Hk
  unfold bodyPost Φ₁ scr Dat.owesAt Pipeline.owesWithin
  rw [show (dats m ρ 0 c).owed t₀.succ = 0 from rfl, bigSep_fin12]
  isplitl [H9 H10 H11 H12 HzS0 HzS1 HzS2 HzS3 HzS4 HzS5 HzR0 HzR1 HzR2 HzR3 HzR4 HzR5]
  · isplitl [H9 H10 H11 H12]
    · iframe
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzR0]; · iexact HzR0
      isplitl [HzR1]; · iexact HzR1
      isplitl [HzR2]; · iexact HzR2
      isplitl [HzR3]; · iexact HzR3
      isplitl [HzR4]; · iexact HzR4
      iexact HzR5
  isplitl [HO]
  · iexists (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W)))))))))))))
    isplitr; · ipureintro; exact fun _ _ => Or.inl trivial
    iexact HO
  isplitl [Hx0]
  · iexists _; isplitr; · (ipureintro; rfl)
    iexact Hx0
  isplitl [Hx1]
  · iexists _; isplitr; · (ipureintro; rfl)
    iexact Hx1
  isplitl [Hx2]
  · iexists _; isplitr; · (ipureintro; rfl)
    iexact Hx2
  isplitl [Hx3]
  · iexists _; isplitr; · (ipureintro; rfl)
    iexact Hx3
  isplitl [Hx4]
  · iexists _; isplitr; · (ipureintro; rfl)
    iexact Hx4
  isplitl [Hx5]
  · iexists _; isplitr; · (ipureintro; rfl)
    iexact Hx5
  isplitl [Hx6]
  · iexists _; isplitr; · (ipureintro; rfl)
    iexact Hx6
  isplitl [Hx7]
  · iexists _; isplitr; · (ipureintro; rfl)
    iexact Hx7
  iexists _; isplitr; · (ipureintro; rfl)
  iexact Hx8

end Body

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
def bodyPre' (c : Dev nD) : sProp 𝕄 :=
  iprop(Φ₀ m c ∗ (dats m ρ 0 c).owesAt () t₀.castSucc
    ∗ (∃ d, stg c cc0_stg0_0 ((dats m ρ 0 c).before (0 : Fin 9) t₀ d))
    ∗ (∃ d, stg c cc0_stg1_0 ((dats m ρ 0 c).before (1 : Fin 9) t₀ d))
    ∗ (∃ d, stg c cc0_stg2_0 ((dats m ρ 0 c).before (2 : Fin 9) t₀ d))
    ∗ (∃ d, stg c cc0_stg3_0 ((dats m ρ 0 c).before (3 : Fin 9) t₀ d))
    ∗ (∃ d, stg c cc0_stg4_0 ((dats m ρ 0 c).before (4 : Fin 9) t₀ d))
    ∗ (∃ d, stg c cc0_stg5_0 ((dats m ρ 0 c).before (5 : Fin 9) t₀ d))
    ∗ (∃ d, stg c cc0_stg6_0 ((dats m ρ 0 c).before (6 : Fin 9) t₀ d))
    ∗ (∃ d, stg c cc0_stg7_0 ((dats m ρ 0 c).before (7 : Fin 9) t₀ d))
    ∗ (∃ d, stg c cc0_stg8_0 ((dats m ρ 0 c).before (8 : Fin 9) t₀ d)))

set_option maxRecDepth 65536 in
set_option maxHeartbeats 1600000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) (fun _ => bodyPost m ρ c)
  unfold bodyPre' Φ₀ start
  iintro ⟨⟨⟨⟨%K, Hg⟩, Hcr, Hlev⟩, Hscr⟩, Ho, Hx0, Hx1, Hx2, Hx3, Hx4, Hx5, Hx6, Hx7, Hx8⟩
  iapply (sound_body m ρ K c fun _ => bodyPost m ρ c)
  unfold bodyPre
  isplitr []
  · iframe
  · iintro H; iexact H

/-- info: 'Cert.KernelIdealProof.body_obligation' depends on axioms: [propext, Classical.choice, Quot.sound] -/
#guard_msgs in #print axioms body_obligation

end Cert.KernelIdealProof

end
-- ==== Proof.WMesh.lean ====
import proofs.«900964_g7700000000000965_dist_mla_v7x_xyz2x2x2_x_b2_s256_d1024_dc64_f32_1_alg».proof.Proof.Gen.Kernel
import proofs.«900964_g7700000000000965_dist_mla_v7x_xyz2x2x2_x_b2_s256_d1024_dc64_f32_1_alg».proof.Proof.LibMesh

noncomputable section

namespace Cert.KernelProof

open Cert.Kernel Cert.Kernel.Gen
open Idealize.ShloMosaic

theorem dev1_eq (c : Dev nD) : (⟨k0_dev1 c, k0_dev1_lt c⟩ : Dev nD) = peer 0 c := Fin.ext ((k0_dev1_eq c).trans (by revert c; decide))
theorem dev2_eq (c : Dev nD) : (⟨k0_dev2 c, k0_dev2_lt c⟩ : Dev nD) = peer 1 c := Fin.ext ((k0_dev2_eq c).trans (by revert c; decide))
theorem dev3_eq (c : Dev nD) : (⟨k0_dev3 c, k0_dev3_lt c⟩ : Dev nD) = peer 2 c := Fin.ext ((k0_dev3_eq c).trans (by revert c; decide))
theorem dev4_eq (c : Dev nD) : (⟨k0_dev4 c, k0_dev4_lt c⟩ : Dev nD) = peer 3 c := Fin.ext ((k0_dev4_eq c).trans (by revert c; decide))
theorem dev5_eq (c : Dev nD) : (⟨k0_dev5 c, k0_dev5_lt c⟩ : Dev nD) = peer 0 c := Fin.ext ((k0_dev5_eq c).trans (by revert c; decide))
theorem dev6_eq (c : Dev nD) : (⟨k0_dev6 c, k0_dev6_lt c⟩ : Dev nD) = peer 0 c := Fin.ext ((k0_dev6_eq c).trans (by revert c; decide))
theorem dev7_eq (c : Dev nD) : (⟨k0_dev7 c, k0_dev7_lt c⟩ : Dev nD) = peer 0 c := Fin.ext ((k0_dev7_eq c).trans (by revert c; decide))
theorem dev8_eq (c : Dev nD) : (⟨k0_dev8 c, k0_dev8_lt c⟩ : Dev nD) = peer 1 c := Fin.ext ((k0_dev8_eq c).trans (by revert c; decide))
theorem dev9_eq (c : Dev nD) : (⟨k0_dev9 c, k0_dev9_lt c⟩ : Dev nD) = peer 2 c := Fin.ext ((k0_dev9_eq c).trans (by revert c; decide))
theorem dev10_eq (c : Dev nD) : (⟨k0_dev10 c, k0_dev10_lt c⟩ : Dev nD) = peer 3 c := Fin.ext ((k0_dev10_eq c).trans (by revert c; decide))

end Cert.KernelProof

end
-- ==== Proof.WContents.lean ====
import proofs.«900964_g7700000000000965_dist_mla_v7x_xyz2x2x2_x_b2_s256_d1024_dc64_f32_1_alg».proof.Proof.Gen.Kernel.Skeleton
import proofs.«900964_g7700000000000965_dist_mla_v7x_xyz2x2x2_x_b2_s256_d1024_dc64_f32_1_alg».proof.Proof.Gen.Kernel.Frame
import proofs.«900964_g7700000000000965_dist_mla_v7x_xyz2x2x2_x_b2_s256_d1024_dc64_f32_1_alg».proof.Proof.WMesh

noncomputable section

namespace Cert.KernelProof

open Cert.Kernel Cert.Kernel.Gen
open Idealize.ShloMosaic Idealize.ShloMosaic.TcCoe

variable {F : FTy → Type} [FloatOps F]
variable (m : (ℓ : Loc nD τ sig) → Buf (Elt F) ℓ)

abbrev st0 (c : Dev nD) : Vec F S2x256x1024 .f32 := iblk m c 0 t0_0
abbrev st1 (c : Dev nD) : Vec F S1024x64 .f32 := iblk m c 1 t0_0
abbrev st2 (c : Dev nD) : Vec F S64x1024 .f32 := iblk m c 2 t0_0
abbrev st3 (c : Dev nD) : Vec F S64x1024 .f32 := iblk m c 3 t0_0
abbrev st4 (c : Dev nD) : Vec F S1024x1024 .f32 := iblk m c 4 t0_0
abbrev st5 (c : Dev nD) : Vec F S1024x512 .f32 := iblk m c 5 t0_0
abbrev st6 (c : Dev nD) : Vec F S1024x32 .f32 := iblk m c 6 t0_0
abbrev st7 (c : Dev nD) : Vec F S1024x1024 .f32 := iblk m c 7 t0_0

abbrev M0 : Memref sig .tc .vmem S2x256x1024 .f32 := Memref.whole cc0_stg0_0

def xRow (c : Dev nD) : Vec F S1x256x1024 .f32 :=
  (M0).view.readAt (Elt F) (Rect.unit (s := S2x256x1024) (k0_off1 c) S1x256x1024.size (k0_off1_inb c)).toLoadRect (st0 m c)
def xQry (c : Dev nD) : Vec F S1x128x1024 .f32 :=
  (M0).view.readAt (Elt F) (Rect.unit (s := S2x256x1024) (k0_off2 c) S1x128x1024.size (k0_off2_inb c)).toLoadRect (st0 m c)

def cNew (c : Dev nD) : FVec F S1x256x64 .bf16 := k0_pay6 (k0_pay5 (xRow m c) (st1 m c))
def ukNew (c : Dev nD) : FVec F S1x64x1024 .bf16 := k0_pay3 (st2 m c)
def uvNew (c : Dev nD) : FVec F S1x64x1024 .bf16 := k0_pay4 (st3 m c)

def qv (c : Dev nD) : FVec F S128x1024 .bf16 := k0_pay8 (xQry m c) (st4 m c)
def qrv (c : Dev nD) : FVec F S128x512 .bf16 := k0_pay9 (xQry m c) (st5 m c)
def krv (c : Dev nD) : FVec F S256x32 .bf16 := k0_pay10 (k0_pay2 (xRow m c)) (st6 m c)

def kk (c : Dev nD) : FVec F S256x1024 .bf16 := k0_pay11 (cNew m c) (ukNew m c) (cNew m (peer 0 c)) (ukNew m (peer 0 c))
def vv (c : Dev nD) : FVec F S256x1024 .bf16 := k0_pay12 (cNew m c) (uvNew m c) (cNew m (peer 0 c)) (uvNew m (peer 0 c))

def sc0 (c : Dev nD) : FVec F S128x256 .f32 := k0_pay13 (qv m c) (qrv m c) (krv m c) (cNew m c) (ukNew m c) (cNew m (peer 0 c)) (ukNew m (peer 0 c))
def hd0 (c : Dev nD) : FVec F S128x64 .f32 := k0_pay14 (vv m c) (sc0 m c)
def hd1 (c : Dev nD) : FVec F S128x64 .f32 := k0_pay15 (qv m c) (qrv m c) (krv m c) (kk m c) (vv m c)
def hd2 (c : Dev nD) : FVec F S128x64 .f32 := k0_pay16 (qv m c) (qrv m c) (krv m c) (kk m c) (vv m c)
def sc3 (c : Dev nD) : FVec F S128x256 .f32 := k0_pay17 (qv m c) (qrv m c) (krv m c) (kk m c)
def hd3 (c : Dev nD) : FVec F S128x64 .f32 := k0_pay18 (vv m c) (sc3 m c)
def hd4 (c : Dev nD) : FVec F S128x64 .f32 := k0_pay19 (qv m c) (qrv m c) (krv m c) (kk m c) (vv m c)
def hd5 (c : Dev nD) : FVec F S128x64 .f32 := k0_pay20 (qv m c) (qrv m c) (krv m c) (kk m c) (vv m c)
def sc6 (c : Dev nD) : FVec F S128x256 .f32 := k0_pay21 (qv m c) (qrv m c) (krv m c) (kk m c)
def hd6 (c : Dev nD) : FVec F S128x64 .f32 := k0_pay22 (vv m c) (sc6 m c)
def hd7 (c : Dev nD) : FVec F S128x64 .f32 := k0_pay23 (qv m c) (qrv m c) (krv m c) (kk m c) (vv m c)
def hd8 (c : Dev nD) : FVec F S128x64 .f32 := k0_pay24 (qv m c) (qrv m c) (krv m c) (kk m c) (vv m c)
def sc9 (c : Dev nD) : FVec F S128x256 .f32 := k0_pay25 (qv m c) (qrv m c) (krv m c) (kk m c)
def hd9 (c : Dev nD) : FVec F S128x64 .f32 := k0_pay26 (vv m c) (sc9 m c)
def hd10 (c : Dev nD) : FVec F S128x64 .f32 := k0_pay27 (qv m c) (qrv m c) (krv m c) (kk m c) (vv m c)
def hd11 (c : Dev nD) : FVec F S128x64 .f32 := k0_pay28 (qv m c) (qrv m c) (krv m c) (kk m c) (vv m c)
def sc12 (c : Dev nD) : FVec F S128x256 .f32 := k0_pay29 (qv m c) (qrv m c) (krv m c) (kk m c)
def hd12 (c : Dev nD) : FVec F S128x64 .f32 := k0_pay30 (vv m c) (sc12 m c)
def hd13 (c : Dev nD) : FVec F S128x64 .f32 := k0_pay31 (qv m c) (qrv m c) (krv m c) (kk m c) (vv m c)
def hd14 (c : Dev nD) : FVec F S128x64 .f32 := k0_pay32 (qv m c) (qrv m c) (krv m c) (kk m c) (vv m c)
def sc15 (c : Dev nD) : FVec F S128x256 .f32 := k0_pay33 (qv m c) (qrv m c) (krv m c) (kk m c)

def outF (c : Dev nD) : FVec F S128x1024 .f32 :=
  k0_pay34 (vv m c) (hd0 m c) (hd1 m c) (hd2 m c) (hd3 m c) (hd4 m c) (hd5 m c) (hd6 m c) (hd7 m c) (hd8 m c) (hd9 m c) (hd10 m c)
    (hd11 m c) (hd12 m c) (hd13 m c) (hd14 m c) (sc15 m c) (st7 m c)
def outB (c : Dev nD) : FVec F S1x128x1024 .bf16 :=
  k0_pay35 (vv m c) (hd0 m c) (hd1 m c) (hd2 m c) (hd3 m c) (hd4 m c) (hd5 m c) (hd6 m c) (hd7 m c) (hd8 m c) (hd9 m c) (hd10 m c)
    (hd11 m c) (hd12 m c) (hd13 m c) (hd14 m c) (sc15 m c) (st7 m c)

def blkOwn (c : Dev nD) : FVec F S1x128x1024 .f32 := k0_pay36 (outF m c)
def blkZ (c : Dev nD) : FVec F S1x128x1024 .f32 := k0_pay38 (k0_pay37 (outB m (peer 1 c)))
def blkY (c : Dev nD) : FVec F S1x128x1024 .f32 := k0_pay39 (outB m (peer 2 c))
def blkYZ (c : Dev nD) : FVec F S1x128x1024 .f32 := k0_pay1 (outB m (peer 3 c))

end Cert.KernelProof

end
-- ==== Proof.WSlotDefs.lean ====
import proofs.«900964_g7700000000000965_dist_mla_v7x_xyz2x2x2_x_b2_s256_d1024_dc64_f32_1_alg».proof.Proof.Gen.Kernel.Skeleton

noncomputable section

namespace Cert.KernelProof

open Cert.Kernel Cert.Kernel.Gen
open Idealize.ShloMosaic Idealize.ShloMosaic.TcCoe

abbrev M9 : Memref sig .tc .vmem S2x256x64 .bf16 := Memref.whole cc0_scratch0
abbrev M10 : Memref sig .tc .vmem S2x64x1024 .bf16 := Memref.whole cc0_scratch1
abbrev M11 : Memref sig .tc .vmem S2x64x1024 .bf16 := Memref.whole cc0_scratch2
abbrev M12 : Memref sig .tc .vmem S4x128x1024 .bf16 := Memref.whole cc0_scratch3
abbrev M8 : Memref sig .tc .vmem S2x256x1024 .f32 := Memref.whole cc0_stg8_0

abbrev rC0 : Rect S2x256x64 := Rect.unit (s := S2x256x64) ![0, 0, 0] S1x256x64.size inb_S2x256x64_S1x256x64_0_0_0
abbrev rC1 : Rect S2x256x64 := Rect.unit (s := S2x256x64) ![1, 0, 0] S1x256x64.size inb_S2x256x64_S1x256x64_1_0_0
abbrev rU0 : Rect S2x64x1024 := Rect.unit (s := S2x64x1024) ![0, 0, 0] S1x64x1024.size inb_S2x64x1024_S1x64x1024_0_0_0
abbrev rU1 : Rect S2x64x1024 := Rect.unit (s := S2x64x1024) ![1, 0, 0] S1x64x1024.size inb_S2x64x1024_S1x64x1024_1_0_0
abbrev rO0 : Rect S4x128x1024 := Rect.unit (s := S4x128x1024) ![0, 0, 0] S1x128x1024.size inb_S4x128x1024_S1x128x1024_0_0_0
abbrev rO1 : Rect S4x128x1024 := Rect.unit (s := S4x128x1024) ![1, 0, 0] S1x128x1024.size inb_S4x128x1024_S1x128x1024_1_0_0
abbrev rO2 : Rect S4x128x1024 := Rect.unit (s := S4x128x1024) ![2, 0, 0] S1x128x1024.size inb_S4x128x1024_S1x128x1024_2_0_0
abbrev rO3 : Rect S4x128x1024 := Rect.unit (s := S4x128x1024) ![3, 0, 0] S1x128x1024.size inb_S4x128x1024_S1x128x1024_3_0_0

abbrev sC0 : Memref sig .tc .vmem S256x64 .bf16 := ((M9).slice rC0 (fun _ => rfl)).squeeze S256x64 squeezes_S1x256x64_S256x64
abbrev sC1 : Memref sig .tc .vmem S256x64 .bf16 := ((M9).slice rC1 (fun _ => rfl)).squeeze S256x64 squeezes_S1x256x64_S256x64
abbrev sK0 : Memref sig .tc .vmem S64x1024 .bf16 := ((M10).slice rU0 (fun _ => rfl)).squeeze S64x1024 squeezes_S1x64x1024_S64x1024
abbrev sK1 : Memref sig .tc .vmem S64x1024 .bf16 := ((M10).slice rU1 (fun _ => rfl)).squeeze S64x1024 squeezes_S1x64x1024_S64x1024
abbrev sV0 : Memref sig .tc .vmem S64x1024 .bf16 := ((M11).slice rU0 (fun _ => rfl)).squeeze S64x1024 squeezes_S1x64x1024_S64x1024
abbrev sV1 : Memref sig .tc .vmem S64x1024 .bf16 := ((M11).slice rU1 (fun _ => rfl)).squeeze S64x1024 squeezes_S1x64x1024_S64x1024
abbrev sO0 : Memref sig .tc .vmem S128x1024 .bf16 := ((M12).slice rO0 (fun _ => rfl)).squeeze S128x1024 squeezes_S1x128x1024_S128x1024
abbrev sO1 : Memref sig .tc .vmem S128x1024 .bf16 := ((M12).slice rO1 (fun _ => rfl)).squeeze S128x1024 squeezes_S1x128x1024_S128x1024
abbrev sO2 : Memref sig .tc .vmem S128x1024 .bf16 := ((M12).slice rO2 (fun _ => rfl)).squeeze S128x1024 squeezes_S1x128x1024_S128x1024
abbrev sO3 : Memref sig .tc .vmem S128x1024 .bf16 := ((M12).slice rO3 (fun _ => rfl)).squeeze S128x1024 squeezes_S1x128x1024_S128x1024

abbrev setC0 : Finset S2x256x64.Idx := (sC0).view.set
abbrev setC1 : Finset S2x256x64.Idx := (sC1).view.set
abbrev setK0 : Finset S2x64x1024.Idx := (sK0).view.set
abbrev setK1 : Finset S2x64x1024.Idx := (sK1).view.set
abbrev setV0 : Finset S2x64x1024.Idx := (sV0).view.set
abbrev setV1 : Finset S2x64x1024.Idx := (sV1).view.set
abbrev setO0 : Finset S4x128x1024.Idx := (sO0).view.set
abbrev setO1 : Finset S4x128x1024.Idx := (sO1).view.set
abbrev setO2 : Finset S4x128x1024.Idx := (sO2).view.set
abbrev setO3 : Finset S4x128x1024.Idx := (sO3).view.set

end Cert.KernelProof

end
-- ==== Proof.WSched.lean ====
import proofs.«900964_g7700000000000965_dist_mla_v7x_xyz2x2x2_x_b2_s256_d1024_dc64_f32_1_alg».proof.Proof.WContents
import proofs.«900964_g7700000000000965_dist_mla_v7x_xyz2x2x2_x_b2_s256_d1024_dc64_f32_1_alg».proof.Proof.WSlotDefs
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev barS : Sem sig := (SemArray.scalar (sig.barrier 0 rfl) : Sems sig S_).sem
def sendS (i : Fin 6) : DmaSem sig := ⟨9 + i.val, by have := i.isLt; show 9 + i.val < 21; omega⟩
def recvS (i : Fin 6) : DmaSem sig := ⟨15 + i.val, by have := i.isLt; show 15 + i.val < 21; omega⟩

abbrev barCell (c : Dev nD) : GSem nD τ sig := ((c : Thread nD τ), .reg barS)
abbrev sendCell (i : Fin 6) (c : Dev nD) : GSem nD τ sig := ((c : Thread nD τ), .dma (sendS i))
abbrev recvCell (i : Fin 6) (c : Dev nD) : GSem nD τ sig := ((c : Thread nD τ), .dma (recvS i))

def Ncr : Fin 6 → ℕ := ![(sC1).view.dmaCredit, (sK1).view.dmaCredit, (sV1).view.dmaCredit, (sO1).view.dmaCredit, (sO2).view.dmaCredit, (sO3).view.dmaCredit]
theorem Ncr_pos (i : Fin 6) : 0 < Ncr i := by
  fin_cases i <;> exact View.dmaCredit_pos _ (by decide)

def junk {ty : BufTy} : ty.Contents (Elt F) := fun _ => Classical.arbitrary _

def bufC0 (c : Dev nD) : Buf (Elt F) ((c : Thread nD τ).loc cc0_scratch0) := ((M9).access rC0).write (Elt F) junk (cNew m c) Finset.univ
def bufK0 (c : Dev nD) : Buf (Elt F) ((c : Thread nD τ).loc cc0_scratch1) := ((M10).access rU0).write (Elt F) junk (ukNew m c) Finset.univ
def bufV0 (c : Dev nD) : Buf (Elt F) ((c : Thread nD τ).loc cc0_scratch2) := ((M11).access rU0).write (Elt F) junk (uvNew m c) Finset.univ
def bufO0 (c : Dev nD) : Buf (Elt F) ((c : Thread nD τ).loc cc0_scratch3) := ((M12).access rO0).write (Elt F) junk (outB m c) Finset.univ
def bufC1 (c : Dev nD) : Buf (Elt F) ((c : Thread nD τ).loc cc0_scratch0) := (sC1).view.write (Elt F) junk ((sC0).view.read (Elt F) (bufC0 m (peer 0 c))) Finset.univ
def bufK1 (c : Dev nD) : Buf (Elt F) ((c : Thread nD τ).loc cc0_scratch1) := (sK1).view.write (Elt F) junk ((sK0).view.read (Elt F) (bufK0 m (peer 0 c))) Finset.univ
def bufV1 (c : Dev nD) : Buf (Elt F) ((c : Thread nD τ).loc cc0_scratch2) := (sV1).view.write (Elt F) junk ((sV0).view.read (Elt F) (bufV0 m (peer 0 c))) Finset.univ
def bufO1 (c : Dev nD) : Buf (Elt F) ((c : Thread nD τ).loc cc0_scratch3) := (sO1).view.write (Elt F) junk ((sO0).view.read (Elt F) (bufO0 m (peer 1 c))) Finset.univ
def bufO2 (c : Dev nD) : Buf (Elt F) ((c : Thread nD τ).loc cc0_scratch3) := (sO2).view.write (Elt F) junk ((sO0).view.read (Elt F) (bufO0 m (peer 2 c))) Finset.univ
def bufO3 (c : Dev nD) : Buf (Elt F) ((c : Thread nD τ).loc cc0_scratch3) := (sO3).view.write (Elt F) junk ((sO0).view.read (Elt F) (bufO0 m (peer 3 c))) Finset.univ

abbrev qA : PosShare TreeShare := fullShare.left
abbrev qB : PosShare TreeShare := fullShare.right.left
abbrev qC : PosShare TreeShare := fullShare.right.right

def barPay (j : Fin 4) (c : Dev nD) : sProp 𝕄 :=
  match j with
  | 0 => iprop((∃ f, (((peer 0 c : Dev nD) : Thread nD τ).loc cc0_scratch0 ↦[setC1]{fullShare} f))
        ∗ (∃ f, (((peer 0 c : Dev nD) : Thread nD τ).loc cc0_scratch1 ↦[setK1]{fullShare} f))
        ∗ (∃ f, (((peer 0 c : Dev nD) : Thread nD τ).loc cc0_scratch2 ↦[setV1]{fullShare} f)))
  | 1 => iprop(∃ f, (((peer 1 c : Dev nD) : Thread nD τ).loc cc0_scratch3 ↦[setO1]{fullShare} f))
  | 2 => iprop(∃ f, (((peer 2 c : Dev nD) : Thread nD τ).loc cc0_scratch3 ↦[setO2]{fullShare} f))
  | 3 => iprop(∃ f, (((peer 3 c : Dev nD) : Thread nD τ).loc cc0_scratch3 ↦[setO3]{fullShare} f))

def recvPay (i : Fin 6) (c : Dev nD) : sProp 𝕄 :=
  match i with
  | 0 => ((c : Thread nD τ).loc cc0_scratch0 ↦[setC1]{fullShare} bufC1 m c)
  | 1 => ((c : Thread nD τ).loc cc0_scratch1 ↦[setK1]{fullShare} bufK1 m c)
  | 2 => ((c : Thread nD τ).loc cc0_scratch2 ↦[setV1]{fullShare} bufV1 m c)
  | 3 => ((c : Thread nD τ).loc cc0_scratch3 ↦[setO1]{fullShare} bufO1 m c)
  | 4 => ((c : Thread nD τ).loc cc0_scratch3 ↦[setO2]{fullShare} bufO2 m c)
  | 5 => ((c : Thread nD τ).loc cc0_scratch3 ↦[setO3]{fullShare} bufO3 m c)

def sendPay (i : Fin 6) (c : Dev nD) : sProp 𝕄 :=
  match i with
  | 0 => ((c : Thread nD τ).loc cc0_scratch0 ↦[setC0]{fullShare} bufC0 m c)
  | 1 => ((c : Thread nD τ).loc cc0_scratch1 ↦[setK0]{fullShare} bufK0 m c)
  | 2 => ((c : Thread nD τ).loc cc0_scratch2 ↦[setV0]{fullShare} bufV0 m c)
  | 3 => ((c : Thread nD τ).loc cc0_scratch3 ↦[setO0]{qA} bufO0 m c)
  | 4 => ((c : Thread nD τ).loc cc0_scratch3 ↦[setO0]{qB} bufO0 m c)
  | 5 => ((c : Thread nD τ).loc cc0_scratch3 ↦[setO0]{qC} bufO0 m c)

omit [FloatOps F] in
instance barPay_storable (j : Fin 4) (c : Dev nD) : BI.Storable (upEmb : UEmb _ 𝕄) (barPay (F := F) j c) := by
  unfold barPay; split <;> infer_instance
instance recvPay_storable (i : Fin 6) (c : Dev nD) : BI.Storable (upEmb : UEmb _ 𝕄) (recvPay m i c) := by
  unfold recvPay; split <;> infer_instance
instance sendPay_storable (i : Fin 6) (c : Dev nD) : BI.Storable (upEmb : UEmb _ 𝕄) (sendPay m i c) := by
  unfold sendPay; split <;> infer_instance

def semIx (q : DmaSem sig) : Fin 6 := ⟨(q.val + 3) % 6, Nat.mod_lt _ (by decide)⟩

def Rd : Rounds.Schedule (GSem nD τ sig) (Fin 4) 𝕄 where
  duties g r :=
    if r = 0 ∧ g.1.2 = .tc then
      (match g.2 with
        | .reg s => if s = barS then Finset.univ else ∅
        | .dma q => if 9 ≤ q.val then {0} else ∅)
    else ∅
  unitless _ := False
  amount g _ _ := match g.2 with
    | .reg _ => 1
    | .dma q => Ncr (semIx q)
  payload g _ d := match g.2 with
    | .reg s => if s = barS then barPay d g.1.1 else iprop(emp)
    | .dma q => if 15 ≤ q.val then recvPay m (semIx q) g.1.1 else if 9 ≤ q.val then sendPay m (semIx q) g.1.1 else iprop(emp)
  amount_pos g _ _ _ := by
    cases h : g.2 with
    | reg s => simp only [h]; exact Nat.one_pos
    | dma q => simp only [h]; exact Ncr_pos _

instance Rd_payload_storable (g : GSem nD τ sig) (r : ℕ) (d : Fin 4) :
    BI.Storable (upEmb : UEmb _ 𝕄) ((Rd (F := F) m).payload g r d) := by
  show BI.Storable upEmb (match g.2 with
    | .reg s => if s = barS then barPay d g.1.1 else iprop(emp)
    | .dma q => if 15 ≤ q.val then recvPay m (semIx q) g.1.1 else if 9 ≤ q.val then sendPay m (semIx q) g.1.1 else iprop(emp))
  (repeat' split) <;> infer_instance

def debt (c : Dev nD) (k : Fin 10) : CellTallies nD τ sig Unit :=
  if h : k.val < 4 then tallyAt (barCell (peer ⟨k.val, h⟩ c)) () 1
  else tallyAt (recvCell ⟨k.val - 4, by have := k.isLt; omega⟩ (xpeer ⟨k.val - 4, by have := k.isLt; omega⟩ c)) () (Ncr ⟨k.val - 4, by have := k.isLt; omega⟩)

def owesFrom (c : Dev nD) : ℕ → CellTallies nD τ sig Unit
  | k => if h : k < 10 then owesFrom c (k + 1) + debt c ⟨k, h⟩ else 0
termination_by k => 10 - k

def O₀ (c : Dev nD) : CellTallies nD τ sig Unit := owesFrom c 0

def L (g : GSem nD τ sig) : Finset Unit := if g.1.2 = .tc then {()} else ∅
def lv (g : GSem nD τ sig) (_ : Unit) : ℕ := match g.2 with
  | .reg _ => 1
  | .dma q => if 18 ≤ q.val then 3 else if 9 ≤ q.val then 2 else 0

end Cert.KernelProof

end
-- ==== Proof.WSchedFacts.lean ====
import proofs.«900964_g7700000000000965_dist_mla_v7x_xyz2x2x2_x_b2_s256_d1024_dc64_f32_1_alg».proof.Proof.WSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

omit [FloatOps F] in
private theorem semIx_sendS (i : Fin 6) : semIx (sendS i) = i :=
  Fin.ext (by have := i.isLt; show (9 + i.val + 3) % 6 = i.val; omega)
omit [FloatOps F] in
private theorem semIx_recvS (i : Fin 6) : semIx (recvS i) = i :=
  Fin.ext (by have := i.isLt; show (15 + i.val + 3) % 6 = i.val; omega)

theorem duties_bar : (Rd (F := F) m).duties (barCell c) 0 = Finset.univ := by
  dsimp only [Rd]; rw [if_pos ⟨rfl, rfl⟩]; exact if_pos rfl
theorem duties_send (i : Fin 6) : (Rd (F := F) m).duties (sendCell i c) 0 = {0} := by
  dsimp only [Rd]; rw [if_pos ⟨rfl, rfl⟩]; exact if_pos (by show 9 ≤ 9 + i.val; omega)
theorem duties_recv (i : Fin 6) : (Rd (F := F) m).duties (recvCell i c) 0 = {0} := by
  dsimp only [Rd]; rw [if_pos ⟨rfl, rfl⟩]; exact if_pos (by show 9 ≤ 15 + i.val; omega)
theorem duties_later (g : GSem nD τ sig) : ∀ r, 1 ≤ r → (Rd (F := F) m).duties g r = ∅ := by
  intro r hr; dsimp only [Rd]; exact if_neg fun h => by omega

theorem amount_bar (d : Fin 4) : (Rd (F := F) m).amount (barCell c) 0 d = 1 := by
  rfl
theorem amount_send (i : Fin 6) (d : Fin 4) : (Rd (F := F) m).amount (sendCell i c) 0 d = Ncr i := by
  show Ncr (semIx (sendS i)) = Ncr i; rw [semIx_sendS]
theorem amount_recv (i : Fin 6) (d : Fin 4) : (Rd (F := F) m).amount (recvCell i c) 0 d = Ncr i := by
  show Ncr (semIx (recvS i)) = Ncr i; rw [semIx_recvS]

theorem expect_bar : (Rd (F := F) m).expect (barCell c) 0 = 4 := by
  show ∑ d ∈ (Rd (F := F) m).duties (barCell c) 0, (Rd (F := F) m).amount (barCell c) 0 d = 4
  rw [duties_bar]; simp only [amount_bar]; rfl
theorem expect_send (i : Fin 6) : (Rd (F := F) m).expect (sendCell i c) 0 = Ncr i := by
  show ∑ d ∈ (Rd (F := F) m).duties (sendCell i c) 0, (Rd (F := F) m).amount (sendCell i c) 0 d = Ncr i
  rw [duties_send, Finset.sum_singleton]; exact amount_send m c i 0
theorem expect_recv (i : Fin 6) : (Rd (F := F) m).expect (recvCell i c) 0 = Ncr i := by
  show ∑ d ∈ (Rd (F := F) m).duties (recvCell i c) 0, (Rd (F := F) m).amount (recvCell i c) 0 d = Ncr i
  rw [duties_recv, Finset.sum_singleton]; exact amount_recv m c i 0

theorem payload_bar (j : Fin 4) : (Rd (F := F) m).payload (barCell c) 0 j = barPay j c := by
  dsimp only [Rd]; exact if_pos rfl
theorem payload_send (i : Fin 6) (d : Fin 4) : (Rd (F := F) m).payload (sendCell i c) 0 d = sendPay m i c := by
  show (if 15 ≤ 9 + i.val then recvPay m (semIx (sendS i)) c else if 9 ≤ 9 + i.val then sendPay m (semIx (sendS i)) c else iprop(emp)) = _
  have := i.isLt
  rw [if_neg (by omega), if_pos (by omega), semIx_sendS]
theorem payload_recv (i : Fin 6) (d : Fin 4) : (Rd (F := F) m).payload (recvCell i c) 0 d = recvPay m i c := by
  show (if 15 ≤ 15 + i.val then recvPay m (semIx (recvS i)) c else if 9 ≤ 15 + i.val then sendPay m (semIx (recvS i)) c else iprop(emp)) = _
  rw [if_pos (by omega), semIx_recvS]

theorem rest_bar : bigSep ((Rd (F := F) m).duties (barCell c) 0 \ ∅) (fun d => (Rd (F := F) m).payload (barCell c) 0 d)
    = iprop(barPay 0 c ∗ barPay 1 c ∗ barPay 2 c ∗ barPay 3 c) := by
  rw [Finset.sdiff_empty, duties_bar, bigSep_univ_eq_bigSepL [0, 1, 2, 3] (by decide) (by decide), bigSepL_cons_cons, bigSepL_cons_cons,
    bigSepL_cons_cons, bigSepL_singleton, payload_bar, payload_bar, payload_bar, payload_bar]
  rfl
theorem rest_send (i : Fin 6) : bigSep ((Rd (F := F) m).duties (sendCell i c) 0 \ ∅) (fun d => (Rd (F := F) m).payload (sendCell i c) 0 d)
    = sendPay m i c := by
  rw [Finset.sdiff_empty, duties_send, bigSep_singleton, payload_send]
theorem rest_recv (i : Fin 6) : bigSep ((Rd (F := F) m).duties (recvCell i c) 0 \ ∅) (fun d => (Rd (F := F) m).payload (recvCell i c) 0 d)
    = recvPay m i c := by
  rw [Finset.sdiff_empty, duties_recv, bigSep_singleton, payload_recv]

theorem owesFrom_step (k : ℕ) (h : k < 10) : owesFrom c k = owesFrom c (k + 1) + debt c ⟨k, h⟩ := by
  rw [owesFrom, dif_pos h]
theorem owesFrom_ten : owesFrom c 10 = 0 := by
  rw [owesFrom, dif_neg (by omega)]
theorem debt_bar (j : Fin 4) : debt c ⟨j.val, by have := j.isLt; omega⟩ = tallyAt (barCell (peer j c)) () 1 := by
  unfold debt; exact dif_pos j.isLt
omit [FloatOps F] in
private theorem debt_of_ge (k : Fin 10) (h4 : ¬ k.val < 4) (i : Fin 6) (hi : k.val - 4 = i.val) :
    debt c k = tallyAt (recvCell i (xpeer i c)) () (Ncr i) := by
  have hlt : k.val - 4 < 6 := by have := k.isLt; clear hi; omega
  have e : (⟨k.val - 4, hlt⟩ : Fin 6) = i := Fin.ext hi
  subst e
  unfold debt; rw [dif_neg h4]
theorem debt_recv (i : Fin 6) : debt c ⟨4 + i.val, by have := i.isLt; omega⟩ = tallyAt (recvCell i (xpeer i c)) () (Ncr i) := by
  exact debt_of_ge c _ (by show ¬ (4 + i.val < 4); omega) i (by show 4 + i.val - 4 = i.val; omega)

omit [FloatOps F] in
private theorem owesFrom_ge (k : ℕ) (h : 10 ≤ k) : owesFrom c k = 0 := by
  rw [owesFrom, dif_neg (by omega)]

omit [FloatOps F] in
private theorem owesFrom_pos_aux (n k : ℕ) (hn : 10 ≤ k + n) {g : GSem nD τ sig} {u : Unit} (h : 0 < owesFrom c k g u) :
    (∃ j : Fin 4, k ≤ j.val ∧ g = barCell (peer j c)) ∨ (∃ i : Fin 6, k ≤ 4 + i.val ∧ g = recvCell i (xpeer i c)) := by
  induction n generalizing k with
  | zero =>
    rw [owesFrom_ge c k (by omega)] at h
    exact absurd h (Nat.lt_irrefl 0)
  | succ n ih =>
    by_cases hk : k < 10
    · rw [owesFrom_step c k hk] at h
      rcases Pipeline.add_pos_cases h with h1 | h1
      · rcases ih (k + 1) (by omega) h1 with ⟨j, hj, hg⟩ | ⟨i, hi, hg⟩
        · exact .inl ⟨j, by omega, hg⟩
        · exact .inr ⟨i, by omega, hg⟩
      · by_cases h4 : k < 4
        · have e := debt_bar c ⟨k, h4⟩
          rw [show (⟨(⟨k, h4⟩ : Fin 4).val, _⟩ : Fin 10) = ⟨k, hk⟩ from rfl] at e
          rw [e] at h1
          exact .inl ⟨⟨k, h4⟩, le_refl _, (Pipeline.tallyAt_pos h1).1⟩
        · have e := debt_of_ge c ⟨k, hk⟩ h4 ⟨k - 4, by omega⟩ rfl
          rw [e] at h1
          exact .inr ⟨⟨k - 4, by omega⟩, by show k ≤ 4 + (k - 4); omega, (Pipeline.tallyAt_pos h1).1⟩
    · rw [owesFrom_ge c k (by omega)] at h
      exact absurd h (Nat.lt_irrefl 0)

theorem owesFrom_pos {k : ℕ} {g : GSem nD τ sig} {u : Unit} (h : 0 < owesFrom c k g u) :
    (∃ j : Fin 4, k ≤ j.val ∧ g = barCell (peer j c)) ∨ (∃ i : Fin 6, k ≤ 4 + i.val ∧ g = recvCell i (xpeer i c)) := by
  exact owesFrom_pos_aux c 10 k (by omega) h

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
private theorem lv_recvCell (i : Fin 6) (d : Dev nD) (u : Unit) :
    lv (recvCell i d) u = if 18 ≤ 15 + i.val then 3 else if 9 ≤ 15 + i.val then 2 else 0 := rfl

omit [FloatOps F] in
private theorem owed_level {k : ℕ} {g : GSem nD τ sig} {u : Unit} (h : 0 < owesFrom c k g u) :
    u ∈ L g ∧ 1 ≤ lv g u ∧ (4 ≤ k → 2 ≤ lv g u) ∧ (7 ≤ k → 3 ≤ lv g u) := by
  rcases owesFrom_pos c h with ⟨j, hj, rfl⟩ | ⟨i, hi, rfl⟩
  · have := j.isLt
    exact ⟨by rw [L_tc]; exact Finset.mem_singleton_self _, le_refl 1, fun h4 => by omega, fun h7 => by omega⟩
  · have := i.isLt
    refine ⟨by rw [L_tc]; exact Finset.mem_singleton_self _, ?_, fun h4 => ?_, fun h7 => ?_⟩ <;>
      rw [lv_recvCell] <;> split_ifs <;> omega

omit [FloatOps F] in
theorem mayWait_stage (q : DmaSem sig) (hq : q.val < 9) (O : CellTallies nD τ sig Unit) (hO : O = O₀ c ∨ O = 0) :
    (levAts L lv : sProp 𝕄) ⊢ MayWait (c : Thread nD τ) (.dma q) () O := by
  have hc : () ∈ L ((c : Thread nD τ), SemLoc.dma q) := by rw [L_tc]; exact Finset.mem_singleton_self _
  have e : lv ((c : Thread nD τ), SemLoc.dma q) () = 0 := by
    dsimp only [lv]; rw [if_neg (by omega), if_neg (by omega)]
  rcases hO with rfl | rfl
  · exact Pipeline.mayWait_of_levAts hc fun g u hg => ⟨(owed_level c hg).1, by rw [e]; exact (owed_level c hg).2.1⟩
  · exact Pipeline.mayWait_of_levAts hc fun g u hg => absurd hg (Nat.lt_irrefl 0)

omit [FloatOps F] in
theorem mayWait_bar : (levAts L lv : sProp 𝕄) ⊢ MayWait (c : Thread nD τ) (.reg barS) () (owesFrom c 4) := by
  have hc : () ∈ L ((c : Thread nD τ), SemLoc.reg barS) := by rw [L_tc]; exact Finset.mem_singleton_self _
  exact Pipeline.mayWait_of_levAts hc fun g u hg => ⟨(owed_level c hg).1, (owed_level c hg).2.2.1 (le_refl 4)⟩

omit [FloatOps F] in
theorem mayWait_early (q : DmaSem sig) (hq : 9 ≤ q.val ∧ q.val < 18) :
    (levAts L lv : sProp 𝕄) ⊢ MayWait (c : Thread nD τ) (.dma q) () (owesFrom c 7) := by
  have hc : () ∈ L ((c : Thread nD τ), SemLoc.dma q) := by rw [L_tc]; exact Finset.mem_singleton_self _
  have e : lv ((c : Thread nD τ), SemLoc.dma q) () = 2 := by
    dsimp only [lv]; rw [if_neg (by omega), if_pos hq.1]
  exact Pipeline.mayWait_of_levAts hc fun g u hg => ⟨(owed_level c hg).1, by rw [e]; exact (owed_level c hg).2.2.2 (le_refl 7)⟩

end Cert.KernelProof

end
-- ==== Proof.WOutAsm.lean ====
import proofs.«900964_g7700000000000965_dist_mla_v7x_xyz2x2x2_x_b2_s256_d1024_dc64_f32_1_alg».proof.Proof.WSlotDefs
import proofs.«900964_g7700000000000965_dist_mla_v7x_xyz2x2x2_x_b2_s256_d1024_dc64_f32_1_alg».proof.Proof.WMesh
import Idealize.ShloMosaic.Lib.ValueIdx

noncomputable section

namespace Cert.KernelProof

open Cert.Kernel Cert.Kernel.Gen
open Idealize.ShloMosaic Idealize.ShloMosaic.TcCoe Idealize.ShloMosaic.ValueIdx

variable {F : FTy → Type} [FloatOps F]

def inBlk (i : S2x256x1024.Idx) : S1x128x1024.Idx :=
  ix3 (0 : Fin 1) (⟨(i 1).val % 128, Nat.mod_lt _ (by decide)⟩ : Fin 128) (⟨(i 2).val, (i 2).isLt⟩ : Fin 1024)

def outAsm (c : Dev nD) (w2 w3 w4 w5 : Vec F S1x128x1024 .f32) : Vec F S2x256x1024 .f32 := fun i =>
  if (i 0).val = (yOf c).val then
    (if (i 1).val / 128 = (zOf c).val then w2 (inBlk i) else w3 (inBlk i))
  else
    (if (i 1).val / 128 = (zOf c).val then w4 (inBlk i) else w5 (inBlk i))

end Cert.KernelProof

end
-- ==== Proof.WData.lean ====
import proofs.«900964_g7700000000000965_dist_mla_v7x_xyz2x2x2_x_b2_s256_d1024_dc64_f32_1_alg».proof.Proof.WSched
import proofs.«900964_g7700000000000965_dist_mla_v7x_xyz2x2x2_x_b2_s256_d1024_dc64_f32_1_alg».proof.Proof.WOutAsm

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def kSend (i : Fin 6) : Fin 13 := ⟨1 + i.val, by have := i.isLt; omega⟩
def kRecv (i : Fin 6) : Fin 13 := ⟨7 + i.val, by have := i.isLt; omega⟩
def csem (k : Fin 13) : SemLoc sig :=
  if h0 : k.val = 0 then .reg barS
  else if h : k.val < 7 then .dma (sendS ⟨k.val - 1, by omega⟩)
  else .dma (recvS ⟨k.val - 7, by have := k.isLt; omega⟩)
abbrev kcell (ck : Dev nD × Fin 13) : GSem nD τ sig := ((ck.1 : Thread nD τ), csem ck.2)
def osem (k : Fin 12) : SemLoc sig := csem ⟨k.val + 1, by have := k.isLt; omega⟩

theorem csem_send (i : Fin 6) : csem (kSend i) = .dma (sendS i) := by
  have := i.isLt
  unfold csem kSend
  rw [dif_neg (by show ¬(1 + i.val = 0); omega), dif_pos (by show 1 + i.val < 7; omega)]
  congr 2; exact Fin.ext (by show 1 + i.val - 1 = i.val; omega)
theorem csem_recv (i : Fin 6) : csem (kRecv i) = .dma (recvS i) := by
  have := i.isLt
  unfold csem kRecv
  rw [dif_neg (by show ¬(7 + i.val = 0); omega), dif_neg (by show ¬(7 + i.val < 7); omega)]
  congr 2; exact Fin.ext (by show 7 + i.val - 7 = i.val; omega)
theorem kcell_send (c : Dev nD) (i : Fin 6) : kcell (c, kSend i) = sendCell i c := by unfold kcell; rw [csem_send]
theorem kcell_recv (c : Dev nD) (i : Fin 6) : kcell (c, kRecv i) = recvCell i c := by unfold kcell; rw [csem_recv]

def records (K : Dev nD × Fin 13 → ℕ) : sProp 𝕄 :=
  iprop((bigSep Finset.univ fun ck : Dev nD × Fin 13 => cellInv ER (Rd m) (K ck) (kcell ck))
    ∗ bigSep Finset.univ fun ck : Dev nD × Fin 13 => reached ER (kcell ck) 0)

instance records_persistent (K : Dev nD × Fin 13 → ℕ) : BI.Persistent (records m K) := by unfold records; infer_instance

def payToks (c : Dev nD) : sProp 𝕄 :=
  iprop((bigSep Finset.univ fun j : Fin 4 => dutyTok ER (barCell (peer j c)) 0 j)
    ∗ (bigSep Finset.univ fun i : Fin 6 => dutyTok ER (recvCell i (xpeer i c)) 0 (0 : Fin 4))
    ∗ bigSep Finset.univ fun i : Fin 6 => dutyTok ER (sendCell i c) 0 (0 : Fin 4))
def linear (c : Dev nD) : sProp 𝕄 :=
  iprop((bigSep Finset.univ fun k : Fin 13 => atPos ER (kcell (c, k)) 0 ∅ 0) ∗ payToks c)

def ghost (K : Dev nD × Fin 13 → ℕ) (c : Dev nD) : sProp 𝕄 := iprop(records m K ∗ linear c)

def creds (c : Dev nD) : sProp 𝕄 :=
  iprop(cred (tallyAt (barCell c) () 4) ∗ bigSep Finset.univ fun i : Fin 6 => cred (tallyAt (recvCell i c) () (Ncr i)))

def start (c : Dev nD) : sProp 𝕄 := iprop((∃ K, ghost m K c) ∗ creds c ∗ levAts L lv)

def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scr c)
def Φ₁ (c : Dev nD) : sProp 𝕄 := iprop(scr c ∗ bigSep Finset.univ fun k : Fin 12 => semVal ((c : Thread nD τ), osem k) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def outFinal (c : Dev nD) : Vec F S2x256x1024 .f32 := outAsm c (blkOwn m c) (blkZ m c) (blkY m c) (blkYZ m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => st0 m c
    | ⟨1, _⟩ => st1 m c
    | ⟨2, _⟩ => st2 m c
    | ⟨3, _⟩ => st3 m c
    | ⟨4, _⟩ => st4 m c
    | ⟨5, _⟩ => st5 m c
    | ⟨6, _⟩ => st6 m c
    | ⟨7, _⟩ => st7 m c
    | ⟨8, _⟩ => outFinal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelProof

end
-- ==== Proof.WLaunch.lean ====
import proofs.«900964_g7700000000000965_dist_mla_v7x_xyz2x2x2_x_b2_s256_d1024_dc64_f32_1_alg».proof.Proof.WSchedFacts
import proofs.«900964_g7700000000000965_dist_mla_v7x_xyz2x2x2_x_b2_s256_d1024_dc64_f32_1_alg».proof.Proof.WData
import proofs.«900964_g7700000000000965_dist_mla_v7x_xyz2x2x2_x_b2_s256_d1024_dc64_f32_1_alg».proof.Proof.LibSep
import proofs.«900964_g7700000000000965_dist_mla_v7x_xyz2x2x2_x_b2_s256_d1024_dc64_f32_1_alg».proof.Proof.Gen.Kernel.Launch
import proofs.«900964_g7700000000000965_dist_mla_v7x_xyz2x2x2_x_b2_s256_d1024_dc64_f32_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by
  decide

theorem share_eq (c : Dev nD) (w : Fin cfg0.W) : (dats m ρ 0 c).share w = fullShare := by
  unfold Dat.share; split <;> rfl

theorem csem_injective : Function.Injective csem := by
  decide

theorem kcell_injective : Function.Injective (kcell : Dev nD × Fin 13 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

def ringCells : Finset (GSem nD τ sig) := Finset.univ.map ⟨kcell, kcell_injective⟩

abbrev TokIx : Type := Fin 4 ⊕ (Fin 6 ⊕ Fin 6)

def tokSem : TokIx → SemLoc sig × Fin 4
  | .inl j => (.reg barS, j)
  | .inr (.inl i) => (.dma (sendS i), 0)
  | .inr (.inr i) => (.dma (recvS i), 0)

def tokOf (cj : Dev nD × TokIx) : GSem nD τ sig × ℕ × Fin 4 := (((cj.1 : Thread nD τ), (tokSem cj.2).1), 0, (tokSem cj.2).2)

theorem tokSem_injective : Function.Injective tokSem := by
  decide

theorem tokOf_injective : Function.Injective (tokOf : Dev nD × TokIx → GSem nD τ sig × ℕ × Fin 4) := by
  rintro ⟨c, a⟩ ⟨c', a'⟩ h
  have h1 : c = c' := congrArg (fun x : GSem nD τ sig × ℕ × Fin 4 => x.1.1.1) h
  subst h1
  have h2 : tokSem a = tokSem a' :=
    Prod.ext (congrArg (fun x : GSem nD τ sig × ℕ × Fin 4 => x.1.2) h) (congrArg (fun x : GSem nD τ sig × ℕ × Fin 4 => x.2.2) h)
  rw [tokSem_injective h2]

def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun j : Fin 4 => dutyTok ER (barCell c) 0 j)
    ∗ (bigSep Finset.univ fun i : Fin 6 => dutyTok ER (sendCell i c) 0 (0 : Fin 4))
    ∗ bigSep Finset.univ fun i : Fin 6 => dutyTok ER (recvCell i c) 0 (0 : Fin 4))

def G (c : Dev nD) : sProp 𝕄 :=
  iprop((bigSep Finset.univ fun k : Fin 13 => roundState ER (Rd m) (kcell (c, k)) 0)
    ∗ (bigSep Finset.univ fun k : Fin 13 => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : Fin 12 => semVal ((c : Thread nD τ), osem k) 0 := by
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin_succ (fun k : Fin 13 => (semVal (kcell (c, k)) 0 : sProp 𝕄))]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 13 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 13 → ℕ) (c : Dev nD) : iprop(records m K ∗ linear c) ⊢ G' m c := by
  unfold G' ghost
  iintro H
  iexists K
  iexact H

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_deal peerEquiv (fun (j : Fin 4) (c : Dev nD) => (dutyTok ER (barCell c) 0 j : sProp 𝕄)),
    bigSep_deal (fun i : Fin 6 => peerEquiv (xferKind i)) (fun (i : Fin 6) (c : Dev nD) => (dutyTok ER (recvCell i c) 0 (0 : Fin 4) : sProp 𝕄))]
  iintro ⟨H1, H2, H3⟩
  isplitl [H1]; · iexact H1
  isplitl [H3]; · iexact H3
  iexact H2

theorem regroup :
    (bigSep Finset.univ fun c : Dev nD => iprop((bigSep Finset.univ fun k => iprop(∃ κ : ℕ, cellInv ER (Rd m) κ (kcell (c, k))))
          ∗ (bigSep Finset.univ fun k : Fin 13 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (Rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 13 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  exact ((bigSep_mono fun c _ => core_alloc m c).trans (bigSep_fupd _ _)).trans (BI.fupd_mono (regroup m))

theorem launchCred_owesFrom (k : ℕ) (h : k < 10) (c : Dev nD) :
    (Pipeline.launchCred (fun d : Dev nD => owesFrom d k) c : sProp 𝕄)
      = iprop(Pipeline.launchCred (fun d : Dev nD => owesFrom d (k + 1)) c ∗ Pipeline.launchCred (fun d : Dev nD => debt d ⟨k, h⟩) c) := by
  rw [show (fun d : Dev nD => owesFrom d k) = fun d => owesFrom d (k + 1) + debt d ⟨k, h⟩ from funext fun d => owesFrom_step d k h]
  exact Pipeline.launchCred_add _ _ c

theorem launchCred_debt_bar (k : ℕ) (hk : k < 4) (h : k < 10) (c : Dev nD) :
    (Pipeline.launchCred (fun d : Dev nD => debt d ⟨k, h⟩) c : sProp 𝕄) ⊢ cred (tallyAt (barCell c) () 1) := by
  rw [show (fun d : Dev nD => debt d ⟨k, h⟩) = fun d => tallyAt (barCell (peer ⟨k, hk⟩ d)) () 1 from funext fun d => debt_bar d ⟨k, hk⟩]
  exact Pipeline.launchCred_tallyAt (.reg barS) (peer ⟨k, hk⟩) (peer ⟨k, hk⟩) (peer_peer _) (peer_peer _) () 1 c

theorem launchCred_debt_recv (i : ℕ) (hi : i < 6) (h : 4 + i < 10) (c : Dev nD) :
    (Pipeline.launchCred (fun d : Dev nD => debt d ⟨4 + i, h⟩) c : sProp 𝕄) ⊢ cred (tallyAt (recvCell ⟨i, hi⟩ c) () (Ncr ⟨i, hi⟩)) := by
  rw [show (fun d : Dev nD => debt d ⟨4 + i, h⟩) = fun d => tallyAt (recvCell ⟨i, hi⟩ (xpeer ⟨i, hi⟩ d)) () (Ncr ⟨i, hi⟩) from
    funext fun d => debt_recv d ⟨i, hi⟩]
  exact Pipeline.launchCred_tallyAt (.dma (recvS ⟨i, hi⟩)) (xpeer ⟨i, hi⟩) (xpeer ⟨i, hi⟩) (xpeer_xpeer _) (xpeer_xpeer _) () (Ncr ⟨i, hi⟩) c

theorem cred_four (g : GSem nD τ sig) :
    iprop(cred (tallyAt g () 1) ∗ cred (tallyAt g () 1) ∗ cred (tallyAt g () 1) ∗ cred (tallyAt g () 1)) ⊢ (cred (tallyAt g () 4) : sProp 𝕄) := by
  have h : (tallyAt g () 4 : CellTallies nD τ sig Unit) = tallyAt g () 1 + (tallyAt g () 1 + (tallyAt g () 1 + tallyAt g () 1)) := by
    rw [tallyAt_add, tallyAt_add, tallyAt_add]
  rw [h]
  exact (sep_mono_right ((sep_mono_right (cred_add _ _).2).trans (cred_add _ _).2)).trans (cred_add _ _).2

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem creds' (c : Dev nD) : (Pipeline.launchCred O₀ c : sProp 𝕄) ⊢ creds c := by
  show (Pipeline.launchCred (fun d : Dev nD => owesFrom d 0) c : sProp 𝕄) ⊢ creds c
  rw [launchCred_owesFrom 0 (by decide), launchCred_owesFrom 1 (by decide), launchCred_owesFrom 2 (by decide), launchCred_owesFrom 3 (by decide),
    launchCred_owesFrom 4 (by decide), launchCred_owesFrom 5 (by decide), launchCred_owesFrom 6 (by decide), launchCred_owesFrom 7 (by decide),
    launchCred_owesFrom 8 (by decide), launchCred_owesFrom 9 (by decide)]
  iintro ⟨⟨⟨⟨⟨⟨⟨⟨⟨⟨-, H9⟩, H8⟩, H7⟩, H6⟩, H5⟩, H4⟩, H3⟩, H2⟩, H1⟩, H0⟩
  ihave C0 := (launchCred_debt_bar (F := F) 0 (by decide) _ c) $$ H0
  ihave C1 := (launchCred_debt_bar (F := F) 1 (by decide) _ c) $$ H1
  ihave C2 := (launchCred_debt_bar (F := F) 2 (by decide) _ c) $$ H2
  ihave C3 := (launchCred_debt_bar (F := F) 3 (by decide) _ c) $$ H3
  ihave C4 := (launchCred_debt_recv (F := F) 0 (by decide) _ c) $$ H4
  ihave C5 := (launchCred_debt_recv (F := F) 1 (by decide) _ c) $$ H5
  ihave C6 := (launchCred_debt_recv (F := F) 2 (by decide) _ c) $$ H6
  ihave C7 := (launchCred_debt_recv (F := F) 3 (by decide) _ c) $$ H7
  ihave C8 := (launchCred_debt_recv (F := F) 4 (by decide) _ c) $$ H8
  ihave C9 := (launchCred_debt_recv (F := F) 5 (by decide) _ c) $$ H9
  unfold creds; rw [bigSep_fin6]
  isplitl [C0 C1 C2 C3]
  · iapply (cred_four (F := F) (barCell c))
    isplitl [C0]; · iexact C0
    isplitl [C1]; · iexact C1
    isplitl [C2]; · iexact C2
    iexact C3
  isplitl [C4]; · iexact C4
  isplitl [C5]; · iexact C5
  isplitl [C6]; · iexact C6
  isplitl [C7]; · iexact C7
  isplitl [C8]; · iexact C8
  iexact C9

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds' (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scr
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c := by
  exact Pipeline.cellsWaits_intro cfgs (dats m ρ) () 0 c fun w s t =>
    mayWait_stage (F := F) c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_in (c : Dev nD) (w : Fin 9) (hw : w.val < 8) : finalA m ρ c w = (s₀ m ρ).mem ((cfg0.win w).arr.view.loc (c : Thread nD τ)) := by
  exact (dats (F := F) m ρ 0 c).arrAt_in w (by fin_cases w <;> first | rfl | exact absurd hw (by decide)) _

theorem finalA_out (c : Dev nD) : finalA m ρ c (8 : Fin 9) = outFinal m c := by
  have h := (dats (F := F) m ρ 0 c).arrAt_succ (8 : Fin 9) t₀
  rw [flush0_8 t₀, if_pos rfl] at h
  refine (show finalA m ρ c (8 : Fin 9) = (dats (F := F) m ρ 0 c).arrAt (8 : Fin 9) (t₀.val + 1) from rfl).trans (h.trans ?_)
  exact Memref.write_access_unit_zero_univ (Elt F) main_v1 (funext fun a => Nat.zero_mul _) _ _ _

/-- info: 'Cert.KernelProof.run_main' depends on axioms: [propext, Classical.choice, Quot.sound] -/
#guard_msgs in #print axioms run_main

end Cert.KernelProof

end
-- ==== Proof.WSlots.lean ====
import proofs.«900964_g7700000000000965_dist_mla_v7x_xyz2x2x2_x_b2_s256_d1024_dc64_f32_1_alg».proof.Proof.WSlotDefs
import proofs.«900964_g7700000000000965_dist_mla_v7x_xyz2x2x2_x_b2_s256_d1024_dc64_f32_1_alg».proof.Proof.WOutAsm
import proofs.«900964_g7700000000000965_dist_mla_v7x_xyz2x2x2_x_b2_s256_d1024_dc64_f32_1_alg».proof.Proof.LibSlots
import Idealize.ShloMosaic.Lib.Pipeline.Value
import Idealize.ShloMosaic.Lib.ValueIdx

noncomputable section

namespace Cert.KernelProof

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section Instances

theorem mem_setC0 {i : S2x256x64.Idx} : i ∈ setC0 ↔ (i 0 : ℕ) = 0 := by
  rw [show setC0 = rC0.set from slot_set_whole cc0_scratch0 rC0 _]; exact mem_slot
theorem mem_setC1 {i : S2x256x64.Idx} : i ∈ setC1 ↔ (i 0 : ℕ) = 1 := by
  rw [show setC1 = rC1.set from slot_set_whole cc0_scratch0 rC1 _]; exact mem_slot
theorem mem_setK0 {i : S2x64x1024.Idx} : i ∈ setK0 ↔ (i 0 : ℕ) = 0 := by
  rw [show setK0 = rU0.set from slot_set_whole cc0_scratch1 rU0 _]; exact mem_slot
theorem mem_setK1 {i : S2x64x1024.Idx} : i ∈ setK1 ↔ (i 0 : ℕ) = 1 := by
  rw [show setK1 = rU1.set from slot_set_whole cc0_scratch1 rU1 _]; exact mem_slot
theorem mem_setV0 {i : S2x64x1024.Idx} : i ∈ setV0 ↔ (i 0 : ℕ) = 0 := by
  rw [show setV0 = rU0.set from slot_set_whole cc0_scratch2 rU0 _]; exact mem_slot
theorem mem_setV1 {i : S2x64x1024.Idx} : i ∈ setV1 ↔ (i 0 : ℕ) = 1 := by
  rw [show setV1 = rU1.set from slot_set_whole cc0_scratch2 rU1 _]; exact mem_slot
theorem mem_setO0 {i : S4x128x1024.Idx} : i ∈ setO0 ↔ (i 0 : ℕ) = 0 := by
  rw [show setO0 = rO0.set from slot_set_whole cc0_scratch3 rO0 _]; exact mem_slot
theorem mem_setO1 {i : S4x128x1024.Idx} : i ∈ setO1 ↔ (i 0 : ℕ) = 1 := by
  rw [show setO1 = rO1.set from slot_set_whole cc0_scratch3 rO1 _]; exact mem_slot
theorem mem_setO2 {i : S4x128x1024.Idx} : i ∈ setO2 ↔ (i 0 : ℕ) = 2 := by
  rw [show setO2 = rO2.set from slot_set_whole cc0_scratch3 rO2 _]; exact mem_slot
theorem mem_setO3 {i : S4x128x1024.Idx} : i ∈ setO3 ↔ (i 0 : ℕ) = 3 := by
  rw [show setO3 = rO3.set from slot_set_whole cc0_scratch3 rO3 _]; exact mem_slot

theorem loadSub_C0 : (M9).view.setOn rC0.toLoadRect.set ⊆ setC0 := load_sub _ _ _
theorem loadSub_C1 : (M9).view.setOn rC1.toLoadRect.set ⊆ setC1 := load_sub _ _ _
theorem loadSub_K0 : (M10).view.setOn rU0.toLoadRect.set ⊆ setK0 := load_sub _ _ _
theorem loadSub_K1 : (M10).view.setOn rU1.toLoadRect.set ⊆ setK1 := load_sub _ _ _
theorem loadSub_V0 : (M11).view.setOn rU0.toLoadRect.set ⊆ setV0 := load_sub _ _ _
theorem loadSub_V1 : (M11).view.setOn rU1.toLoadRect.set ⊆ setV1 := load_sub _ _ _
theorem loadSub_O0 : (M12).view.setOn rO0.toLoadRect.set ⊆ setO0 := load_sub _ _ _
theorem loadSub_O1 : (M12).view.setOn rO1.toLoadRect.set ⊆ setO1 := load_sub _ _ _
theorem loadSub_O2 : (M12).view.setOn rO2.toLoadRect.set ⊆ setO2 := load_sub _ _ _
theorem loadSub_O3 : (M12).view.setOn rO3.toLoadRect.set ⊆ setO3 := load_sub _ _ _

theorem storeSub_C0 : ((M9).access rC0).setOn Finset.univ ⊆ setC0 := store_sub _ _ _
theorem storeSub_K0 : ((M10).access rU0).setOn Finset.univ ⊆ setK0 := store_sub _ _ _
theorem storeSub_V0 : ((M11).access rU0).setOn Finset.univ ⊆ setV0 := store_sub _ _ _
theorem storeSub_O0 : ((M12).access rO0).setOn Finset.univ ⊆ setO0 := store_sub _ _ _

end Instances

section Out

theorem write_out_hit (off : Fin 3 → ℕ) (inb : ∀ a, off a + S1x128x1024.size a ≤ S2x256x1024.size a)
    (f : (M8).view.ty.Contents (Elt F)) (w : Vec F S1x128x1024 .f32) (i : S2x256x1024.Idx) (x : S1x128x1024.Idx)
    (h0 : (i 0 : ℕ) = off 0) (h1 : (i 1 : ℕ) = off 1 + (x 1 : ℕ)) (h2 : (i 2 : ℕ) = off 2 + (x 2 : ℕ)) :
    ((M8).access (Rect.unit (s := S2x256x1024) off S1x128x1024.size inb)).write (Elt F) f w Finset.univ i = w x := by
  have hx0 : ((x 0 : Fin _) : ℕ) = 0 := Nat.lt_one_iff.mp (x 0).isLt
  have hi : i = (Rect.unit (s := S2x256x1024) off S1x128x1024.size inb).emb x := by
    funext a
    apply Fin.ext
    match a with
    | ⟨0, _⟩ => show (i 0 : ℕ) = off 0 + 1 * (x 0 : ℕ); omega
    | ⟨1, _⟩ => show (i 1 : ℕ) = off 1 + 1 * (x 1 : ℕ); omega
    | ⟨2, _⟩ => show (i 2 : ℕ) = off 2 + 1 * (x 2 : ℕ); omega
  have h := View.write_emb_of_mem (v := (M8).access (Rect.unit (s := S2x256x1024) off S1x128x1024.size inb))
    (Val := Elt F) f w (M := Finset.univ) (x := x) (Finset.mem_univ x)
  rw [cast_eq] at h
  rw [hi]
  exact h

theorem write_out_miss (off : Fin 3 → ℕ) (inb : ∀ a, off a + S1x128x1024.size a ≤ S2x256x1024.size a)
    (f : (M8).view.ty.Contents (Elt F)) (w : Vec F S1x128x1024 .f32) (i : S2x256x1024.Idx)
    (h : (i 0 : ℕ) ≠ off 0 ∨ (i 1 : ℕ) < off 1 ∨ off 1 + 128 ≤ (i 1 : ℕ)) :
    ((M8).access (Rect.unit (s := S2x256x1024) off S1x128x1024.size inb)).write (Elt F) f w Finset.univ i = f i := by
  refine View.write_of_not_mem (v := (M8).access (Rect.unit (s := S2x256x1024) off S1x128x1024.size inb)) (Val := Elt F) f w Finset.univ
    (i := i) fun hm => ?_
  have hm' : i ∈ (Rect.unit (s := S2x256x1024) off S1x128x1024.size inb).set :=
    (View.set_slice_whole cc0_stg8_0 (Rect.unit (s := S2x256x1024) off S1x128x1024.size inb)) ▸ hm
  have a0 : off 0 ≤ (i 0 : ℕ) ∧ (i 0 : ℕ) < off 0 + 1 := (Rect.mem_set_unit.mp hm') 0
  have a1 : off 1 ≤ (i 1 : ℕ) ∧ (i 1 : ℕ) < off 1 + 128 := (Rect.mem_set_unit.mp hm') 1
  omega

theorem cover_out (c : Dev nD) (o0 : (M8).view.ty.Contents (Elt F)) (w2 w3 w4 w5 : Vec F S1x128x1024 .f32) :
    ((M8).access (Rect.unit (s := S2x256x1024) (k0_off5 c) S1x128x1024.size (k0_off5_inb c))).write (Elt F)
      (((M8).access (Rect.unit (s := S2x256x1024) (k0_off4 c) S1x128x1024.size (k0_off4_inb c))).write (Elt F)
        (((M8).access (Rect.unit (s := S2x256x1024) (k0_off3 c) S1x128x1024.size (k0_off3_inb c))).write (Elt F)
          (((M8).access (Rect.unit (s := S2x256x1024) (k0_off2 c) S1x128x1024.size (k0_off2_inb c))).write (Elt F) o0 w2 Finset.univ)
          w3 Finset.univ)
        w4 Finset.univ)
      w5 Finset.univ = outAsm c w2 w3 w4 w5 := by
  funext i
  have a20 : k0_off2 c 0 = (c.val / 2) % 2 := by rw [k0_off2_eq c]; rfl
  have a21 : k0_off2 c 1 = 128 * (c.val % 2) := by rw [k0_off2_eq c]; rfl
  have a22 : k0_off2 c 2 = 0 := by rw [k0_off2_eq c]; rfl
  have a30 : k0_off3 c 0 = (c.val / 2) % 2 := by rw [k0_off3_eq c]; rfl
  have a31 : k0_off3 c 1 = 128 - 128 * (c.val % 2) := by rw [k0_off3_eq c]; rfl
  have a32 : k0_off3 c 2 = 0 := by rw [k0_off3_eq c]; rfl
  have a40 : k0_off4 c 0 = 1 - (c.val / 2) % 2 := by rw [k0_off4_eq c]; rfl
  have a41 : k0_off4 c 1 = 128 * (c.val % 2) := by rw [k0_off4_eq c]; rfl
  have a42 : k0_off4 c 2 = 0 := by rw [k0_off4_eq c]; rfl
  have a50 : k0_off5 c 0 = 1 - (c.val / 2) % 2 := by rw [k0_off5_eq c]; rfl
  have a51 : k0_off5 c 1 = 128 - 128 * (c.val % 2) := by rw [k0_off5_eq c]; rfl
  have a52 : k0_off5 c 2 = 0 := by rw [k0_off5_eq c]; rfl
  have hi0 : ((i 0 : Fin _) : ℕ) < 2 := (i 0).isLt
  have hi1 : ((i 1 : Fin _) : ℕ) < 256 := (i 1).isLt
  have hz : c.val % 2 < 2 := Nat.mod_lt _ (by decide)
  have hy : (c.val / 2) % 2 < 2 := Nat.mod_lt _ (by decide)
  have hyc : (yOf c).val = (c.val / 2) % 2 := rfl
  have hzc : (zOf c).val = c.val % 2 := rfl
  have b1 : ((inBlk i 1 : Fin _) : ℕ) = ((i 1 : Fin _) : ℕ) % 128 := rfl
  have b2 : ((inBlk i 2 : Fin _) : ℕ) = ((i 2 : Fin _) : ℕ) := rfl
  unfold outAsm
  by_cases h0 : (i 0).val = (yOf c).val
  · by_cases h1 : (i 1).val / 128 = (zOf c).val
    · rw [if_pos h0, if_pos h1]
      refine (write_out_miss (k0_off5 c) (k0_off5_inb c) _ w5 i (.inl (by omega))).trans ?_
      refine (write_out_miss (k0_off4 c) (k0_off4_inb c) _ w4 i (.inl (by omega))).trans ?_
      refine (write_out_miss (k0_off3 c) (k0_off3_inb c) _ w3 i (.inr (by omega))).trans ?_
      exact write_out_hit (k0_off2 c) (k0_off2_inb c) o0 w2 i (inBlk i) (by omega) (by omega) (by omega)
    · rw [if_pos h0, if_neg h1]
      refine (write_out_miss (k0_off5 c) (k0_off5_inb c) _ w5 i (.inl (by omega))).trans ?_
      refine (write_out_miss (k0_off4 c) (k0_off4_inb c) _ w4 i (.inl (by omega))).trans ?_
      exact write_out_hit (k0_off3 c) (k0_off3_inb c) _ w3 i (inBlk i) (by omega) (by omega) (by omega)
  · by_cases h1 : (i 1).val / 128 = (zOf c).val
    · rw [if_neg h0, if_pos h1]
      refine (write_out_miss (k0_off5 c) (k0_off5_inb c) _ w5 i (.inr (by omega))).trans ?_
      exact write_out_hit (k0_off4 c) (k0_off4_inb c) _ w4 i (inBlk i) (by omega) (by omega) (by omega)
    · rw [if_neg h0, if_neg h1]
      exact write_out_hit (k0_off5 c) (k0_off5_inb c) _ w5 i (inBlk i) (by omega) (by omega) (by omega)

end Out

end Cert.KernelProof

end
-- ==== Proof.WBody.lean ====
import proofs.«900964_g7700000000000965_dist_mla_v7x_xyz2x2x2_x_b2_s256_d1024_dc64_f32_1_alg».proof.Proof.WData
import proofs.«900964_g7700000000000965_dist_mla_v7x_xyz2x2x2_x_b2_s256_d1024_dc64_f32_1_alg».proof.Proof.WSchedFacts
import proofs.«900964_g7700000000000965_dist_mla_v7x_xyz2x2x2_x_b2_s256_d1024_dc64_f32_1_alg».proof.Proof.WSlots
import proofs.«900964_g7700000000000965_dist_mla_v7x_xyz2x2x2_x_b2_s256_d1024_dc64_f32_1_alg».proof.Proof.LibSep

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem owes_sig (c : Dev nD) (j : Fin 4) :
    owesFrom c j.val = owesFrom c (j.val + 1) + tallyAt (barCell (peer j c)) () 1 := by
  rw [owesFrom_step c j.val (by have := j.isLt; omega), debt_bar]
theorem owes_xfer (c : Dev nD) (i : Fin 6) :
    owesFrom c (4 + i.val) = owesFrom c (4 + i.val + 1) + tallyAt (recvCell i (xpeer i c)) () (Ncr i) := by
  rw [owesFrom_step c (4 + i.val) (by have := i.isLt; omega), debt_recv]

theorem inv_at (K : Dev nD × Fin 13 → ℕ) (ck : Dev nD × Fin 13) :
    (bigSep Finset.univ fun ck : Dev nD × Fin 13 => (cellInv ER (Rd m) (K ck) (kcell ck) : sProp 𝕄)) ⊢ cellInv ER (Rd m) (K ck) (kcell ck) :=
  bigSep_elim (Finset.mem_univ ck)
theorem reached_at (ck : Dev nD × Fin 13) :
    (bigSep Finset.univ fun ck : Dev nD × Fin 13 => (reached ER (kcell ck) 0 : sProp 𝕄)) ⊢ reached ER (kcell ck) 0 :=
  bigSep_elim (Finset.mem_univ ck)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 13 → ℕ)

theorem inv_send (c : Dev nD) (i : Fin 6) :
    (bigSep Finset.univ fun ck : Dev nD × Fin 13 => (cellInv ER (Rd m) (K ck) (kcell ck) : sProp 𝕄)) ⊢ cellInv ER (Rd m) (K (c, kSend i)) (sendCell i c) := by
  rw [← kcell_send]; exact inv_at m K (c, kSend i)
theorem inv_recv (c : Dev nD) (i : Fin 6) :
    (bigSep Finset.univ fun ck : Dev nD × Fin 13 => (cellInv ER (Rd m) (K ck) (kcell ck) : sProp 𝕄)) ⊢ cellInv ER (Rd m) (K (c, kRecv i)) (recvCell i c) := by
  rw [← kcell_recv]; exact inv_at m K (c, kRecv i)
theorem reached_send (c : Dev nD) (i : Fin 6) :
    (bigSep Finset.univ fun ck : Dev nD × Fin 13 => (reached ER (kcell ck) 0 : sProp 𝕄)) ⊢ reached ER (sendCell i c) 0 := by
  rw [← kcell_send]; exact reached_at (F := F) (c, kSend i)
theorem reached_recv (c : Dev nD) (i : Fin 6) :
    (bigSep Finset.univ fun ck : Dev nD × Fin 13 => (reached ER (kcell ck) 0 : sProp 𝕄)) ⊢ reached ER (recvCell i c) 0 := by
  rw [← kcell_recv]; exact reached_at (F := F) (c, kRecv i)

def bodyPre (c : Dev nD) : sProp 𝕄 :=
  iprop((ghost m K c ∗ creds c ∗ levAts L lv ∗ scr c)
    ∗ (dats m ρ 0 c).owesAt () t₀.castSucc
    ∗ (∃ d, stg c cc0_stg0_0 ((dats m ρ 0 c).before (0 : Fin 9) t₀ d))
    ∗ (∃ d, stg c cc0_stg1_0 ((dats m ρ 0 c).before (1 : Fin 9) t₀ d))
    ∗ (∃ d, stg c cc0_stg2_0 ((dats m ρ 0 c).before (2 : Fin 9) t₀ d))
    ∗ (∃ d, stg c cc0_stg3_0 ((dats m ρ 0 c).before (3 : Fin 9) t₀ d))
    ∗ (∃ d, stg c cc0_stg4_0 ((dats m ρ 0 c).before (4 : Fin 9) t₀ d))
    ∗ (∃ d, stg c cc0_stg5_0 ((dats m ρ 0 c).before (5 : Fin 9) t₀ d))
    ∗ (∃ d, stg c cc0_stg6_0 ((dats m ρ 0 c).before (6 : Fin 9) t₀ d))
    ∗ (∃ d, stg c cc0_stg7_0 ((dats m ρ 0 c).before (7 : Fin 9) t₀ d))
    ∗ (∃ d, stg c cc0_stg8_0 ((dats m ρ 0 c).before (8 : Fin 9) t₀ d)))

def bodyPost (c : Dev nD) : sProp 𝕄 :=
  iprop(Φ₁ c ∗ (dats m ρ 0 c).owesAt () t₀.succ
    ∗ stg c cc0_stg0_0 (st0 m c) ∗ stg c cc0_stg1_0 (st1 m c) ∗ stg c cc0_stg2_0 (st2 m c) ∗ stg c cc0_stg3_0 (st3 m c)
    ∗ stg c cc0_stg4_0 (st4 m c) ∗ stg c cc0_stg5_0 (st5 m c) ∗ stg c cc0_stg6_0 (st6 m c) ∗ stg c cc0_stg7_0 (st7 m c)
    ∗ stg c cc0_stg8_0 (outFinal m c))

theorem before_in0 (c : Dev nD) (d) : (dats m ρ 0 c).before (0 : Fin 9) t₀ d = st0 m c := by
  unfold Dat.before; rw [if_pos (fetch0_0 t₀)]; rfl
theorem before_in1 (c : Dev nD) (d) : (dats m ρ 0 c).before (1 : Fin 9) t₀ d = st1 m c := by
  unfold Dat.before; rw [if_pos (fetch0_1 t₀)]; rfl
theorem before_in2 (c : Dev nD) (d) : (dats m ρ 0 c).before (2 : Fin 9) t₀ d = st2 m c := by
  unfold Dat.before; rw [if_pos (fetch0_2 t₀)]; rfl
theorem before_in3 (c : Dev nD) (d) : (dats m ρ 0 c).before (3 : Fin 9) t₀ d = st3 m c := by
  unfold Dat.before; rw [if_pos (fetch0_3 t₀)]; rfl
theorem before_in4 (c : Dev nD) (d) : (dats m ρ 0 c).before (4 : Fin 9) t₀ d = st4 m c := by
  unfold Dat.before; rw [if_pos (fetch0_4 t₀)]; rfl
theorem before_in5 (c : Dev nD) (d) : (dats m ρ 0 c).before (5 : Fin 9) t₀ d = st5 m c := by
  unfold Dat.before; rw [if_pos (fetch0_5 t₀)]; rfl
theorem before_in6 (c : Dev nD) (d) : (dats m ρ 0 c).before (6 : Fin 9) t₀ d = st6 m c := by
  unfold Dat.before; rw [if_pos (fetch0_6 t₀)]; rfl
theorem before_in7 (c : Dev nD) (d) : (dats m ρ 0 c).before (7 : Fin 9) t₀ d = st7 m c := by
  unfold Dat.before; rw [if_pos (fetch0_7 t₀)]; rfl

theorem rdC0 (c : Dev nD) : (M9).view.readAt (Elt F) rC0.toLoadRect (bufC0 m c) = cNew m c := View.read_write_univ (v := (M9).view.slice rC0) _ _
theorem rdK0 (c : Dev nD) : (M10).view.readAt (Elt F) rU0.toLoadRect (bufK0 m c) = ukNew m c := View.read_write_univ (v := (M10).view.slice rU0) _ _
theorem rdV0 (c : Dev nD) : (M11).view.readAt (Elt F) rU0.toLoadRect (bufV0 m c) = uvNew m c := View.read_write_univ (v := (M11).view.slice rU0) _ _
theorem rdC1 (c : Dev nD) : (M9).view.readAt (Elt F) rC1.toLoadRect (bufC1 m c) = cNew m (peer 0 c) :=
  read_land_store ((M9).view.slice rC1) ((M9).view.slice rC0) _ _ _ _
theorem rdK1 (c : Dev nD) : (M10).view.readAt (Elt F) rU1.toLoadRect (bufK1 m c) = ukNew m (peer 0 c) :=
  read_land_store ((M10).view.slice rU1) ((M10).view.slice rU0) _ _ _ _
theorem rdV1 (c : Dev nD) : (M11).view.readAt (Elt F) rU1.toLoadRect (bufV1 m c) = uvNew m (peer 0 c) :=
  read_land_store ((M11).view.slice rU1) ((M11).view.slice rU0) _ _ _ _
theorem rdO1 (c : Dev nD) : (M12).view.readAt (Elt F) rO1.toLoadRect (bufO1 m c) = outB m (peer 1 c) :=
  read_land_store ((M12).view.slice rO1) ((M12).view.slice rO0) _ _ _ _
theorem rdO2 (c : Dev nD) : (M12).view.readAt (Elt F) rO2.toLoadRect (bufO2 m c) = outB m (peer 2 c) :=
  read_land_store ((M12).view.slice rO2) ((M12).view.slice rO0) _ _ _ _
theorem rdO3 (c : Dev nD) : (M12).view.readAt (Elt F) rO3.toLoadRect (bufO3 m c) = outB m (peer 3 c) :=
  read_land_store ((M12).view.slice rO3) ((M12).view.slice rO0) _ _ _ _

theorem hz2 : (![0, 0] : Fin 2 → Nat) = fun _ => 0 := funext fun a => by fin_cases a <;> rfl
theorem rdW1 (f : (cc0_stg1_0 : Ref sig .tc).ty.Contents (Elt F)) :
    (Memref.whole cc0_stg1_0 : Memref sig .tc .vmem S1024x64 .f32).view.readAt (Elt F) (Rect.unit (s := S1024x64) ![0, 0] S1024x64.size inb_S1024x64_S1024x64_0_0).toLoadRect f = f :=
  Memref.readAt_unit_zero (Elt F) cc0_stg1_0 hz2 _ f
theorem rdW2 (f : (cc0_stg2_0 : Ref sig .tc).ty.Contents (Elt F)) :
    (Memref.whole cc0_stg2_0 : Memref sig .tc .vmem S64x1024 .f32).view.readAt (Elt F) (Rect.unit (s := S64x1024) ![0, 0] S64x1024.size inb_S64x1024_S64x1024_0_0).toLoadRect f = f :=
  Memref.readAt_unit_zero (Elt F) cc0_stg2_0 hz2 _ f
theorem rdW3 (f : (cc0_stg3_0 : Ref sig .tc).ty.Contents (Elt F)) :
    (Memref.whole cc0_stg3_0 : Memref sig .tc .vmem S64x1024 .f32).view.readAt (Elt F) (Rect.unit (s := S64x1024) ![0, 0] S64x1024.size inb_S64x1024_S64x1024_0_0).toLoadRect f = f :=
  Memref.readAt_unit_zero (Elt F) cc0_stg3_0 hz2 _ f
theorem rdW4 (f : (cc0_stg4_0 : Ref sig .tc).ty.Contents (Elt F)) :
    (Memref.whole cc0_stg4_0 : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg4_0 hz2 _ f
theorem rdW5 (f : (cc0_stg5_0 : Ref sig .tc).ty.Contents (Elt F)) :
    (Memref.whole cc0_stg5_0 : Memref sig .tc .vmem S1024x512 .f32).view.readAt (Elt F) (Rect.unit (s := S1024x512) ![0, 0] S1024x512.size inb_S1024x512_S1024x512_0_0).toLoadRect f = f :=
  Memref.readAt_unit_zero (Elt F) cc0_stg5_0 hz2 _ f
theorem rdW6 (f : (cc0_stg6_0 : Ref sig .tc).ty.Contents (Elt F)) :
    (Memref.whole cc0_stg6_0 : Memref sig .tc .vmem S1024x32 .f32).view.readAt (Elt F) (Rect.unit (s := S1024x32) ![0, 0] S1024x32.size inb_S1024x32_S1024x32_0_0).toLoadRect f = f :=
  Memref.readAt_unit_zero (Elt F) cc0_stg6_0 hz2 _ f
theorem rdW7 (f : (cc0_stg7_0 : Ref sig .tc).ty.Contents (Elt F)) :
    (Memref.whole cc0_stg7_0 : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg7_0 hz2 _ f

/-- An own cell whose one round is over closes with its counter at zero. -/
theorem close_cell (c : Dev nD) (k : Fin 13) {g : GSem nD τ sig} (hg : kcell (c, k) = g) :
    iprop((bigSep Finset.univ fun ck : Dev nD × Fin 13 => (cellInv ER (Rd m) (K ck) (kcell ck) : sProp 𝕄)) ∗ atPos ER g (0 + 1) ∅ 0) ⊢ (iprop(|={Set.univ}=> semVal g 0) : sProp 𝕄) := by
  subst hg
  exact (sep_mono_left (inv_at m K (c, k))).trans
    (Rounds.cell_close ER (Rd m) (Set.mem_univ (K (c, k))) (fun h => h) (R := 0 + 1) (duties_later m _))

/-- Owing nothing, a device may wait anywhere. -/
theorem mayWait_none (c : Dev nD) (sm : SemLoc sig) : (levAts L lv : sProp 𝕄) ⊢ MayWait (c : Thread nD τ) sm () 0 := by
  rw [MayWait_zero]; iintro #H; iempintro

/-- The wait for all of round 0 on one of the device's own transfer cells: what the round's duties carried comes with it. -/
theorem wp_wait (c : Dev nD) (k : Fin 13) (q : DmaSem sig) (hq : kcell (c, k) = ((c : Thread nD τ), SemLoc.dma q))
    (N' : ℕ) {N : ℕ} (hNN : N' = N) (hN : N' = (Rd (F := F) m).expect ((c : Thread nD τ), SemLoc.dma q) 0)
    (O : CellTallies nD τ sig Unit) (hO : (levAts L lv : sProp 𝕄) ⊢ MayWait (c : Thread nD τ) (SemLoc.dma q) () O)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (SemLoc.dma q) N Kt)
    {W : Waits sig Unit} {α : Type} {Q : α → sProp 𝕄} {kk : PUnit → Prog (TpuEff nD τ sig (Elt F) Λ₀ .tc) α} :
    iprop((bigSep Finset.univ fun ck : Dev nD × Fin 13 => (cellInv ER (Rd m) (K ck) (kcell ck) : sProp 𝕄)) ∗ levAts L lv
        ∗ cred (tallyAt ((c : Thread nD τ), SemLoc.dma q) () N') ∗ owes (c : Thread nD τ) O W ∗ atPos ER (kcell (c, k)) 0 ∅ 0)
      ⊢ iprop(((owes (c : Thread nD τ) O (insert (SemLoc.dma q, ()) W) ∗ atPos ER ((c : Thread nD τ), SemLoc.dma q) (0 + 1) ∅ 0
              ∗ bigSep ((Rd m).duties ((c : Thread nD τ), SemLoc.dma q) 0 \ ∅) (fun d => (Rd m).payload ((c : Thread nD τ), SemLoc.dma q) 0 d))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hNN
  rw [hq]
  iintro ⟨#HI, #Hlev, Hc, HO, Hat⟩ Hk
  iapply (Rounds.wp_wait_rest_token 𝒱₀ ER (Rd m) (c : Thread nD τ) none (κ := K (c, k)) (sm := SemLoc.dma q) hw (Set.mem_univ _) ()
      (O := O) (W := W) (R := 0) (m := 0) (T := ∅) (by rw [Nat.zero_add]; exact hN)) $$ [Hc HO Hat]
  · isplitr; · rw [← hq]; iapply (inv_at m K (c, k)); iexact HI
    isplitl [Hc]; · iexact Hc
    isplitl [HO]; · iexact HO
    isplitr; · iapply hO; iexact Hlev
    iexact Hat
  iintro ⟨HO, Hat, -, Hpay⟩
  iapply Hk
  isplitl [HO]; · iexact HO
  isplitl [Hat]; · iexact Hat
  iexact Hpay

/-- Transfer `i` to the peer of kind `j`: the source slot is the send cell's payload, the landed slot the peer's receive cell's. -/
theorem wp_send (c n : Dev nD) (i : Fin 6) (j : PeerKind) (hn : n = peer j c) {s2 : Shape}
    {src : Memref sig .tc .vmem s2 .bf16} {dst : Memref sig (Dev.tc n : Thread nD τ).2.kind .vmem s2 .bf16}
    {hsc : dst.view.ref.isScScratch = false} {hsrc : src.view.WordExact} {hdst : dst.view.WordExact}
    {hsem : DmaTarget.Typed .vmem (.dma (recvS i)) (.remote (Dev.tc n : Thread nD τ) dst (.dma (sendS i)) hsc)}
    {α : Type} {Q : α → sProp 𝕄} {k : PUnit → Prog (TpuEff nD τ sig (Elt F) Λ₀ .tc) α}
    (q : PosShare TreeShare) (fs : Buf (Elt F) (src.view.loc (c : Thread nD τ))) (fn : Buf (Elt F) (dst.view.loc (peer j c : Thread nD τ)))
    (hN : dst.view.amount (.dma (recvS i)) = Ncr i)
    (hO : owesFrom c (4 + i.val) = owesFrom c (4 + i.val + 1) + tallyAt (recvCell i (peer j c)) () (Ncr i))
    (hs : sendPay m i c = (src.view.loc (c : Thread nD τ) ↦[src.view.set]{q} fs))
    (hr : recvPay m i (peer j c)
      = (dst.view.loc (peer j c : Thread nD τ) ↦[dst.view.set]{fullShare} dst.view.write (Elt F) junk (src.view.read (Elt F) fs) Finset.univ))
    (W : Waits sig Unit) :
    iprop((bigSep Finset.univ fun ck : Dev nD × Fin 13 => (cellInv ER (Rd m) (K ck) (kcell ck) : sProp 𝕄)) ∗ (bigSep Finset.univ fun ck : Dev nD × Fin 13 => (reached ER (kcell ck) 0 : sProp 𝕄))
        ∗ (src.view.loc (c : Thread nD τ) ↦[src.view.set]{q} fs) ∗ (dst.view.loc (peer j c : Thread nD τ) ↦[dst.view.set]{fullShare} fn)
        ∗ owes (c : Thread nD τ) (owesFrom c (4 + i.val)) W
        ∗ dutyTok ER (sendCell i c) 0 (0 : Fin 4) ∗ dutyTok ER (recvCell i (peer j c)) 0 (0 : Fin 4))
      ⊢ iprop(((cred (tallyAt (sendCell i c) () (Ncr i)) ∗ owes (c : Thread nD τ) (owesFrom c (4 + i.val + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sendS i)) hsc) (.dma (recvS i)) hsrc hdst hsem) k) Q) := by
  subst hn
  iintro ⟨#HI, #HR, Hs, Hd, HO, Ht1, Ht2⟩ Hk
  iapply (Rounds.wp_send_pointsTo 𝒱₀ ER (Rd m) (c : Thread nD τ) none (c' := (peer j c : Thread nD τ)) (src := src) (dst := dst)
    (q := q) (fs := fs) (κ₁ := K (c, kSend i)) (κ₂ := K (peer j c, kRecv i))
    (r₁ := 0) (r₂ := 0) (d₁ := (0 : Fin 4)) (d₂ := (0 : Fin 4)) (fd := fn)
    (by rw [duties_send]; exact Finset.mem_singleton_self _) (by rw [duties_recv]; exact Finset.mem_singleton_self _)
    () () (Ncr i) hN (amount_send m c i 0) (amount_recv m (peer j c) i 0) (owesFrom c (4 + i.val + 1)) hO (W := W)
    (by rw [payload_send, hs]) (by rw [payload_recv, hr]; exact Entails.of_eq (Region.is_congr (write_univ_congr dst.view fn junk _)))) $$ [Hs Hd HO Ht1 Ht2]
  · isplitr; · iapply (inv_send m K c i); iexact HI
    isplitr; · iapply (inv_recv m K (peer j c) i); iexact HI
    isplitl [Hs]; · iexact Hs
    isplitl [Hd]; · iexact Hd
    isplitl [HO]; · iexact HO
    isplitl [Ht1]; · iexact Ht1
    isplitr; · iapply (reached_send (F := F) c i); iexact HR
    isplitl [Ht2]; · iexact Ht2
    iapply (reached_recv (F := F) (peer j c) i); iexact HR
  iexact Hk

set_option maxRecDepth 65536 in
set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) Kt := by
  simp only [cc0_body_eq_skeleton]; unfold cc0_body_skel
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  simp only [dev1_eq c, dev2_eq c, dev3_eq c, dev4_eq c]
  unfold bodyPre ghost records linear payToks creds scr
  rw [bigSep_fin13, bigSep_fin4, bigSep_fin6, bigSep_fin6, bigSep_fin6]
  iintro ⟨⟨⟨⟨⟨#HI, #HR⟩, ⟨Hat0, HatS0, HatS1, HatS2, HatS3, HatS4, HatS5, HatR0, HatR1, HatR2, HatR3, HatR4, HatR5⟩,
      ⟨HtB0, HtB1, HtB2, HtB3⟩, ⟨HtR0, HtR1, HtR2, HtR3, HtR4, HtR5⟩, ⟨HtS0, HtS1, HtS2, HtS3, HtS4, HtS5⟩⟩,
      ⟨HcB, HcR0, HcR1, HcR2, HcR3, HcR4, HcR5⟩, #Hlev, ⟨%f9, H9⟩, ⟨%f10, H10⟩, ⟨%f11, H11⟩, ⟨%f12, H12⟩⟩,
    Ho, ⟨%d0, %g0, %hg0, Hx0⟩, ⟨%d1, %g1, %hg1, Hx1⟩, ⟨%d2, %g2, %hg2, Hx2⟩, ⟨%d3, %g3, %hg3, Hx3⟩, ⟨%d4, %g4, %hg4, Hx4⟩,
    ⟨%d5, %g5, %hg5, Hx5⟩, ⟨%d6, %g6, %hg6, Hx6⟩, ⟨%d7, %g7, %hg7, Hx7⟩, ⟨%d8, %g8, %hg8, Hx8⟩⟩, Hk⟩
  rw [before_in0 m ρ c] at hg0; subst hg0
  rw [before_in1 m ρ c] at hg1; subst hg1
  rw [before_in2 m ρ c] at hg2; subst hg2
  rw [before_in3 m ρ c] at hg3; subst hg3
  rw [before_in4 m ρ c] at hg4; subst hg4
  rw [before_in5 m ρ c] at hg5; subst hg5
  rw [before_in6 m ρ c] at hg6; subst hg6
  rw [before_in7 m ρ c] at hg7; subst hg7
  unfold Dat.owesAt Pipeline.owesWithin
  icases Ho with ⟨%W, %hW, HO⟩
  rw [show (dats m ρ 0 c).owed t₀.castSucc = owesFrom c 0 from rfl]
  ihave HC := (cut2 (Val := Elt F) (ℓ := (c : Thread nD τ).loc cc0_scratch0) (fun i : S2x256x64.Idx => (i 0 : ℕ)) fullShare mem_setC0 mem_setC1 (fun i => (i 0).isLt) f9).mp $$ H9
  icases HC with ⟨HC0, HC1⟩
  ihave HK := (cut2 (Val := Elt F) (ℓ := (c : Thread nD τ).loc cc0_scratch1) (fun i : S2x64x1024.Idx => (i 0 : ℕ)) fullShare mem_setK0 mem_setK1 (fun i => (i 0).isLt) f10).mp $$ H10
  icases HK with ⟨HK0, HK1⟩
  ihave HV := (cut2 (Val := Elt F) (ℓ := (c : Thread nD τ).loc cc0_scratch2) (fun i : S2x64x1024.Idx => (i 0 : ℕ)) fullShare mem_setV0 mem_setV1 (fun i => (i 0).isLt) f11).mp $$ H11
  icases HV with ⟨HV0, HV1⟩
  ihave HOo := (cut4 (Val := Elt F) (ℓ := (c : Thread nD τ).loc cc0_scratch3) (fun i : S4x128x1024.Idx => (i 0 : ℕ)) fullShare mem_setO0 mem_setO1 mem_setO2 mem_setO3 (fun i => (i 0).isLt) f12).mp $$ H12
  icases HOo with ⟨HO0, HO1, HO2, HO3⟩
  iapply (Rounds.wp_signal 𝒱₀ ER (Rd m) (c : Thread nD τ) none (dst := (peer 0 c : Thread nD τ)) (κ := K (peer 0 c, 0))
      (d := (0 : Fin 4)) (by rw [duties_bar]; exact Finset.mem_univ _) ((amount_bar m (peer 0 c) 0).trans (by decide)) () (owesFrom c 1) (owes_sig c 0))
    $$ [HO HtB0 HC1 HK1 HV1]
  · isplitr; · iapply (inv_at m K (peer 0 c, 0)); iexact HI
    isplitl [HO]; · iexact HO
    isplitl [HtB0]; · iexact HtB0
    isplitl [HC1 HK1 HV1]
    · rw [payload_bar]; unfold barPay; dsimp only; rw [peer_peer]
      isplitl [HC1]; · iexists f9; iexact HC1
      isplitl [HK1]; · iexists f10; iexact HK1
      iexists f11; iexact HV1
    · iapply (reached_at (F := F) (peer 0 c, 0)); iexact HR
  iintro HO
  iapply (Rounds.wp_signal 𝒱₀ ER (Rd m) (c : Thread nD τ) none (dst := (peer 1 c : Thread nD τ)) (κ := K (peer 1 c, 0))
      (d := (1 : Fin 4)) (by rw [duties_bar]; exact Finset.mem_univ _) ((amount_bar m (peer 1 c) 1).trans (by decide)) () (owesFrom c 2) (owes_sig c 1))
    $$ [HO HtB1 HO1]
  · isplitr; · iapply (inv_at m K (peer 1 c, 0)); iexact HI
    isplitl [HO]; · iexact HO
    isplitl [HtB1]; · iexact HtB1
    isplitl [HO1]
    · rw [payload_bar]; unfold barPay; dsimp only; rw [peer_peer]
      iexists f12; iexact HO1
    · iapply (reached_at (F := F) (peer 1 c, 0)); iexact HR
  iintro HO
  iapply (Rounds.wp_signal 𝒱₀ ER (Rd m) (c : Thread nD τ) none (dst := (peer 2 c : Thread nD τ)) (κ := K (peer 2 c, 0))
      (d := (2 : Fin 4)) (by rw [duties_bar]; exact Finset.mem_univ _) ((amount_bar m (peer 2 c) 2).trans (by decide)) () (owesFrom c 3) (owes_sig c 2))
    $$ [HO HtB2 HO2]
  · isplitr; · iapply (inv_at m K (peer 2 c, 0)); iexact HI
    isplitl [HO]; · iexact HO
    isplitl [HtB2]; · iexact HtB2
    isplitl [HO2]
    · rw [payload_bar]; unfold barPay; dsimp only; rw [peer_peer]
      iexists f12; iexact HO2
    · iapply (reached_at (F := F) (peer 2 c, 0)); iexact HR
  iintro HO
  iapply (Rounds.wp_signal 𝒱₀ ER (Rd m) (c : Thread nD τ) none (dst := (peer 3 c : Thread nD τ)) (κ := K (peer 3 c, 0))
      (d := (3 : Fin 4)) (by rw [duties_bar]; exact Finset.mem_univ _) ((amount_bar m (peer 3 c) 3).trans (by decide)) () (owesFrom c 4) (owes_sig c 3))
    $$ [HO HtB3 HO3]
  · isplitr; · iapply (inv_at m K (peer 3 c, 0)); iexact HI
    isplitl [HO]; · iexact HO
    isplitl [HtB3]; · iexact HtB3
    isplitl [HO3]
    · rw [payload_bar]; unfold barPay; dsimp only; rw [peer_peer]
      iexists f12; iexact HO3
    · iapply (reached_at (F := F) (peer 3 c, 0)); iexact HR
  iintro HO
  iapply (Rounds.wp_wait_rest_token 𝒱₀ ER (Rd m) (c : Thread nD τ) none (κ := K (c, 0))
      (wpE_semWait_eq 𝒱₀ (c : Thread nD τ) none Set.univ) (Set.mem_univ _) () (O := owesFrom c 4) (W := W) (R := 0) (m := 0) (T := ∅)
      (by rw [expect_bar]; decide)) $$ [HcB HO Hat0]
  · isplitr; · iapply (inv_at m K (c, 0)); iexact HI
    isplitl [HcB]; · iexact HcB
    isplitl [HO]; · iexact HO
    isplitr; · iapply (mayWait_bar (F := F) c); iexact Hlev
    iexact Hat0
  iintro ⟨HO, Hat0, -, Hpay⟩
  ihave Hp := (Entails.of_eq (rest_bar m c)) $$ Hpay
  unfold barPay
  icases Hp with ⟨⟨⟨%fc1, HPC1⟩, ⟨%fk1, HPK1⟩, ⟨%fv1, HPV1⟩⟩, ⟨%fo1, HPO1⟩, ⟨%fo2, HPO2⟩, ⟨%fo3, HPO3⟩⟩
  iapply (wp_load 𝒱₀ (c : Thread nD τ) none Set.univ (m := M0) (Finset.subset_univ _)) $$ Hx0; iintro Hx0
  iapply (wp_load 𝒱₀ (c : Thread nD τ) none Set.univ (m := (Memref.whole cc0_stg2_0)) (Finset.subset_univ _)) $$ Hx2; iintro Hx2
  rw [rdW2]
  iapply (wp_load 𝒱₀ (c : Thread nD τ) none Set.univ (m := M10) loadSub_K0) $$ HK0; iintro HK0
  iapply (wp_store 𝒱₀ (c : Thread nD τ) none Set.univ (m := M10) (r := rU0) (Mk := Finset.univ) storeSub_K0) $$ HK0; iintro HK0
  ihave HK0 := (Entails.of_eq (Region.is_congr (store_congr (Val := Elt F) (M10).view rU0 squeezes_S1x64x1024_S64x1024.numel_eq f10 junk _))) $$ HK0
  iapply (wp_load 𝒱₀ (c : Thread nD τ) none Set.univ (m := (Memref.whole cc0_stg3_0)) (Finset.subset_univ _)) $$ Hx3; iintro Hx3
  rw [rdW3]
  iapply (wp_load 𝒱₀ (c : Thread nD τ) none Set.univ (m := M11) loadSub_V0) $$ HV0; iintro HV0
  iapply (wp_store 𝒱₀ (c : Thread nD τ) none Set.univ (m := M11) (r := rU0) (Mk := Finset.univ) storeSub_V0) $$ HV0; iintro HV0
  ihave HV0 := (Entails.of_eq (Region.is_congr (store_congr (Val := Elt F) (M11).view rU0 squeezes_S1x64x1024_S64x1024.numel_eq f11 junk _))) $$ HV0
  iapply (wp_load 𝒱₀ (c : Thread nD τ) none Set.univ (m := (Memref.whole cc0_stg1_0)) (Finset.subset_univ _)) $$ Hx1; iintro Hx1
  rw [rdW1]
  iapply (wp_load 𝒱₀ (c : Thread nD τ) none Set.univ (m := M9) loadSub_C0) $$ HC0; iintro HC0
  iapply (wp_store 𝒱₀ (c : Thread nD τ) none Set.univ (m := M9) (r := rC0) (Mk := Finset.univ) storeSub_C0) $$ HC0; iintro HC0
  ihave HC0 := (Entails.of_eq (Region.is_congr (store_congr (Val := Elt F) (M9).view rC0 squeezes_S1x256x64_S256x64.numel_eq f9 junk _))) $$ HC0
  iapply (wp_send m K c _ 0 0 (dev5_eq c) (src := sC0) (dst := sC1) fullShare (bufC0 m c) fc1 rfl (owes_xfer c 0) rfl
      (by unfold recvPay bufC1; dsimp only; rw [peer_peer]) _) $$ [HC0 HPC1 HO HtS0 HtR0]
  · iframe HI HR HO HtS0
    isplitl [HC0]; · iexact HC0
    isplitl [HPC1]; · iexact HPC1
    iexact HtR0
  iintro ⟨HcS0, HO⟩
  iapply (wp_send m K c _ 1 0 (dev6_eq c) (src := sK0) (dst := sK1) fullShare (bufK0 m c) fk1 rfl (owes_xfer c 1) rfl
      (by unfold recvPay bufK1; dsimp only; rw [peer_peer]) _) $$ [HK0 HPK1 HO HtS1 HtR1]
  · iframe HI HR HO HtS1
    isplitl [HK0]; · iexact HK0
    isplitl [HPK1]; · iexact HPK1
    iexact HtR1
  iintro ⟨HcS1, HO⟩
  iapply (wp_send m K c _ 2 0 (dev7_eq c) (src := sV0) (dst := sV1) fullShare (bufV0 m c) fv1 rfl (owes_xfer c 2) rfl
      (by unfold recvPay bufV1; dsimp only; rw [peer_peer]) _) $$ [HV0 HPV1 HO HtS2 HtR2]
  · iframe HI HR HO HtS2
    isplitl [HV0]; · iexact HV0
    isplitl [HPV1]; · iexact HPV1
    iexact HtR2
  iintro ⟨HcS2, HO⟩
  iapply (wp_load 𝒱₀ (c : Thread nD τ) none Set.univ (m := M0) (Finset.subset_univ _)) $$ Hx0; iintro Hx0
  iapply (wp_load 𝒱₀ (c : Thread nD τ) none Set.univ (m := (Memref.whole cc0_stg4_0)) (Finset.subset_univ _)) $$ Hx4; iintro Hx4
  rw [rdW4]
  iapply (wp_load 𝒱₀ (c : Thread nD τ) none Set.univ (m := (Memref.whole cc0_stg5_0)) (Finset.subset_univ _)) $$ Hx5; iintro Hx5
  rw [rdW5]
  iapply (wp_load 𝒱₀ (c : Thread nD τ) none Set.univ (m := (Memref.whole cc0_stg6_0)) (Finset.subset_univ _)) $$ Hx6; iintro Hx6
  rw [rdW6]
  iapply (wp_wait m K c 1 (sendS 0) (kcell_send c 0) (Ncr 0) (by exact rfl) (expect_send m c 0).symm (owesFrom c 7) (mayWait_early (F := F) c (sendS 0) (by decide))
      (wpE_waitDma2_eq 𝒱₀ (c : Thread nD τ) none Set.univ)) $$ [HcS0 HO HatS0]
  · iframe HI Hlev HcS0 HO HatS0
  iintro ⟨HO, HatS0, Hpay⟩
  ihave HC0 := (Entails.of_eq ((rest_send m c 0).trans (show sendPay m 0 c = ((c : Thread nD τ).loc cc0_scratch0 ↦[setC0]{fullShare} bufC0 m c : sProp 𝕄) from rfl))) $$ Hpay
  iapply (wp_wait m K c 7 (recvS 0) (kcell_recv c 0) (Ncr 0) (by exact rfl) (expect_recv m c 0).symm (owesFrom c 7) (mayWait_early (F := F) c (recvS 0) (by decide))
      (wpE_waitDma2_eq 𝒱₀ (c : Thread nD τ) none Set.univ)) $$ [HcR0 HO HatR0]
  · iframe HI Hlev HcR0 HO HatR0
  iintro ⟨HO, HatR0, Hpay⟩
  ihave HC1 := (Entails.of_eq ((rest_recv m c 0).trans (show recvPay m 0 c = ((c : Thread nD τ).loc cc0_scratch0 ↦[setC1]{fullShare} bufC1 m c : sProp 𝕄) from rfl))) $$ Hpay
  iapply (wp_wait m K c 2 (sendS 1) (kcell_send c 1) (Ncr 1) (by exact rfl) (expect_send m c 1).symm (owesFrom c 7) (mayWait_early (F := F) c (sendS 1) (by decide))
      (wpE_waitDma2_eq 𝒱₀ (c : Thread nD τ) none Set.univ)) $$ [HcS1 HO HatS1]
  · iframe HI Hlev HcS1 HO HatS1
  iintro ⟨HO, HatS1, Hpay⟩
  ihave HK0 := (Entails.of_eq ((rest_send m c 1).trans (show sendPay m 1 c = ((c : Thread nD τ).loc cc0_scratch1 ↦[setK0]{fullShare} bufK0 m c : sProp 𝕄) from rfl))) $$ Hpay
  iapply (wp_wait m K c 8 (recvS 1) (kcell_recv c 1) (Ncr 1) (by exact rfl) (expect_recv m c 1).symm (owesFrom c 7) (mayWait_early (F := F) c (recvS 1) (by decide))
      (wpE_waitDma2_eq 𝒱₀ (c : Thread nD τ) none Set.univ)) $$ [HcR1 HO HatR1]
  · iframe HI Hlev HcR1 HO HatR1
  iintro ⟨HO, HatR1, Hpay⟩
  ihave HK1 := (Entails.of_eq ((rest_recv m c 1).trans (show recvPay m 1 c = ((c : Thread nD τ).loc cc0_scratch1 ↦[setK1]{fullShare} bufK1 m c : sProp 𝕄) from rfl))) $$ Hpay
  iapply (wp_wait m K c 3 (sendS 2) (kcell_send c 2) (Ncr 2) (by exact rfl) (expect_send m c 2).symm (owesFrom c 7) (mayWait_early (F := F) c (sendS 2) (by decide))
      (wpE_waitDma2_eq 𝒱₀ (c : Thread nD τ) none Set.univ)) $$ [HcS2 HO HatS2]
  · iframe HI Hlev HcS2 HO HatS2
  iintro ⟨HO, HatS2, Hpay⟩
  ihave HV0 := (Entails.of_eq ((rest_send m c 2).trans (show sendPay m 2 c = ((c : Thread nD τ).loc cc0_scratch2 ↦[setV0]{fullShare} bufV0 m c : sProp 𝕄) from rfl))) $$ Hpay
  iapply (wp_wait m K c 9 (recvS 2) (kcell_recv c 2) (Ncr 2) (by exact rfl) (expect_recv m c 2).symm (owesFrom c 7) (mayWait_early (F := F) c (recvS 2) (by decide))
      (wpE_waitDma2_eq 𝒱₀ (c : Thread nD τ) none Set.univ)) $$ [HcR2 HO HatR2]
  · iframe HI Hlev HcR2 HO HatR2
  iintro ⟨HO, HatR2, Hpay⟩
  ihave HV1 := (Entails.of_eq ((rest_recv m c 2).trans (show recvPay m 2 c = ((c : Thread nD τ).loc cc0_scratch2 ↦[setV1]{fullShare} bufV1 m c : sProp 𝕄) from rfl))) $$ Hpay
  iapply (wp_load 𝒱₀ (c : Thread nD τ) none Set.univ (m := M9) loadSub_C0) $$ HC0; iintro HC0
  rw [rdC0]
  iapply (wp_load 𝒱₀ (c : Thread nD τ) none Set.univ (m := M10) loadSub_K0) $$ HK0; iintro HK0
  rw [rdK0]
  iapply (wp_load 𝒱₀ (c : Thread nD τ) none Set.univ (m := M9) loadSub_C1) $$ HC1; iintro HC1
  rw [rdC1]
  iapply (wp_load 𝒱₀ (c : Thread nD τ) none Set.univ (m := M10) loadSub_K1) $$ HK1; iintro HK1
  rw [rdK1]
  iapply (wp_load 𝒱₀ (c : Thread nD τ) none Set.univ (m := M9) loadSub_C0) $$ HC0; iintro HC0
  rw [rdC0]
  iapply (wp_load 𝒱₀ (c : Thread nD τ) none Set.univ (m := M11) loadSub_V0) $$ HV0; iintro HV0
  rw [rdV0]
  iapply (wp_load 𝒱₀ (c : Thread nD τ) none Set.univ (m := M9) loadSub_C1) $$ HC1; iintro HC1
  rw [rdC1]
  iapply (wp_load 𝒱₀ (c : Thread nD τ) none Set.univ (m := M11) loadSub_V1) $$ HV1; iintro HV1
  rw [rdV1]
  iapply (wp_load 𝒱₀ (c : Thread nD τ) none Set.univ (m := (Memref.whole cc0_stg7_0)) (Finset.subset_univ _)) $$ Hx7; iintro Hx7
  rw [rdW7]
  iapply (wp_load 𝒱₀ (c : Thread nD τ) none Set.univ (m := M12) loadSub_O0) $$ HO0; iintro HO0
  iapply (wp_store 𝒱₀ (c : Thread nD τ) none Set.univ (m := M12) (r := rO0) (Mk := Finset.univ) storeSub_O0) $$ HO0; iintro HO0
  ihave HO0 := (Entails.of_eq (Region.is_congr (store_congr (Val := Elt F) (M12).view rO0 squeezes_S1x128x1024_S128x1024.numel_eq f12 junk _))) $$ HO0
  ihave Hs := (Region.is_share (PosShare.mem_left_op_right fullShare)).mp $$ HO0
  icases Hs with ⟨HOa, HOr⟩
  ihave Hs := (Region.is_share (PosShare.mem_left_op_right fullShare.right)).mp $$ HOr
  icases Hs with ⟨HOb, HOc⟩
  iapply (wp_send m K c _ 3 1 (dev8_eq c) (src := sO0) (dst := sO1) qA (bufO0 m c) fo1 rfl (owes_xfer c 3) rfl
      (by unfold recvPay bufO1; dsimp only; rw [peer_peer]) _) $$ [HOa HPO1 HO HtS3 HtR3]
  · iframe HI HR HO HtS3
    isplitl [HOa]; · iexact HOa
    isplitl [HPO1]; · iexact HPO1
    iexact HtR3
  iintro ⟨HcS3, HO⟩
  iapply (wp_send m K c _ 4 2 (dev9_eq c) (src := sO0) (dst := sO2) qB (bufO0 m c) fo2 rfl (owes_xfer c 4) rfl
      (by unfold recvPay bufO2; dsimp only; rw [peer_peer]) _) $$ [HOb HPO2 HO HtS4 HtR4]
  · iframe HI HR HO HtS4
    isplitl [HOb]; · iexact HOb
    isplitl [HPO2]; · iexact HPO2
    iexact HtR4
  iintro ⟨HcS4, HO⟩
  iapply (wp_send m K c _ 5 3 (dev10_eq c) (src := sO0) (dst := sO3) qC (bufO0 m c) fo3 rfl (owes_xfer c 5) rfl
      (by unfold recvPay bufO3; dsimp only; rw [peer_peer]) _) $$ [HOc HPO3 HO HtS5 HtR5]
  · iframe HI HR HO HtS5
    isplitl [HOc]; · iexact HOc
    isplitl [HPO3]; · iexact HPO3
    iexact HtR5
  rw [show owesFrom c (4 + ((5 : Fin 6) : ℕ) + 1) = 0 from owesFrom_ten c]
  iintro ⟨HcS5, HO⟩
  iapply (wp_load 𝒱₀ (c : Thread nD τ) none Set.univ (m := M8) (Finset.subset_univ _)) $$ Hx8; iintro Hx8
  iapply (wp_store 𝒱₀ (c : Thread nD τ) none Set.univ (m := M8) (r := (Rect.unit (s := S2x256x1024) (k0_off2 c) S1x128x1024.size (k0_off2_inb c))) (Mk := Finset.univ) (Finset.subset_univ _)) $$ Hx8; iintro Hx8
  iapply (wp_wait m K c 4 (sendS 3) (kcell_send c 3) (Ncr 3) (by exact rfl) (expect_send m c 3).symm (0) (mayWait_none (F := F) c _)
      (wpE_waitDma2_eq 𝒱₀ (c : Thread nD τ) none Set.univ)) $$ [HcS3 HO HatS3]
  · iframe HI Hlev HcS3 HO HatS3
  iintro ⟨HO, HatS3, Hpay⟩
  ihave HOa := (Entails.of_eq ((rest_send m c 3).trans (show sendPay m 3 c = ((c : Thread nD τ).loc cc0_scratch3 ↦[setO0]{qA} bufO0 m c : sProp 𝕄) from rfl))) $$ Hpay
  iapply (wp_wait m K c 10 (recvS 3) (kcell_recv c 3) (Ncr 3) (by exact rfl) (expect_recv m c 3).symm (0) (mayWait_none (F := F) c _)
      (wpE_waitDma2_eq 𝒱₀ (c : Thread nD τ) none Set.univ)) $$ [HcR3 HO HatR3]
  · iframe HI Hlev HcR3 HO HatR3
  iintro ⟨HO, HatR3, Hpay⟩
  ihave HO1 := (Entails.of_eq ((rest_recv m c 3).trans (show recvPay m 3 c = ((c : Thread nD τ).loc cc0_scratch3 ↦[setO1]{fullShare} bufO1 m c : sProp 𝕄) from rfl))) $$ Hpay
  iapply (wp_load 𝒱₀ (c : Thread nD τ) none Set.univ (m := M12) loadSub_O1) $$ HO1; iintro HO1
  rw [rdO1]
  iapply (wp_load 𝒱₀ (c : Thread nD τ) none Set.univ (m := M8) (Finset.subset_univ _)) $$ Hx8; iintro Hx8
  iapply (wp_store 𝒱₀ (c : Thread nD τ) none Set.univ (m := M8) (r := (Rect.unit (s := S2x256x1024) (k0_off3 c) S1x128x1024.size (k0_off3_inb c))) (Mk := Finset.univ) (Finset.subset_univ _)) $$ Hx8; iintro Hx8
  iapply (wp_wait m K c 5 (sendS 4) (kcell_send c 4) (Ncr 4) (by exact rfl) (expect_send m c 4).symm (0) (mayWait_none (F := F) c _)
      (wpE_waitDma2_eq 𝒱₀ (c : Thread nD τ) none Set.univ)) $$ [HcS4 HO HatS4]
  · iframe HI Hlev HcS4 HO HatS4
  iintro ⟨HO, HatS4, Hpay⟩
  ihave HOb := (Entails.of_eq ((rest_send m c 4).trans (show sendPay m 4 c = ((c : Thread nD τ).loc cc0_scratch3 ↦[setO0]{qB} bufO0 m c : sProp 𝕄) from rfl))) $$ Hpay
  iapply (wp_wait m K c 11 (recvS 4) (kcell_recv c 4) (Ncr 4) (by exact rfl) (expect_recv m c 4).symm (0) (mayWait_none (F := F) c _)
      (wpE_waitDma2_eq 𝒱₀ (c : Thread nD τ) none Set.univ)) $$ [HcR4 HO HatR4]
  · iframe HI Hlev HcR4 HO HatR4
  iintro ⟨HO, HatR4, Hpay⟩
  ihave HO2 := (Entails.of_eq ((rest_recv m c 4).trans (show recvPay m 4 c = ((c : Thread nD τ).loc cc0_scratch3 ↦[setO2]{fullShare} bufO2 m c : sProp 𝕄) from rfl))) $$ Hpay
  iapply (wp_load 𝒱₀ (c : Thread nD τ) none Set.univ (m := M12) loadSub_O2) $$ HO2; iintro HO2
  rw [rdO2]
  iapply (wp_load 𝒱₀ (c : Thread nD τ) none Set.univ (m := M8) (Finset.subset_univ _)) $$ Hx8; iintro Hx8
  iapply (wp_store 𝒱₀ (c : Thread nD τ) none Set.univ (m := M8) (r := (Rect.unit (s := S2x256x1024) (k0_off4 c) S1x128x1024.size (k0_off4_inb c))) (Mk := Finset.univ) (Finset.subset_univ _)) $$ Hx8; iintro Hx8
  iapply (wp_wait m K c 6 (sendS 5) (kcell_send c 5) (Ncr 5) (by exact rfl) (expect_send m c 5).symm (0) (mayWait_none (F := F) c _)
      (wpE_waitDma2_eq 𝒱₀ (c : Thread nD τ) none Set.univ)) $$ [HcS5 HO HatS5]
  · iframe HI Hlev HcS5 HO HatS5
  iintro ⟨HO, HatS5, Hpay⟩
  ihave HOc := (Entails.of_eq ((rest_send m c 5).trans (show sendPay m 5 c = ((c : Thread nD τ).loc cc0_scratch3 ↦[setO0]{qC} bufO0 m c : sProp 𝕄) from rfl))) $$ Hpay
  iapply (wp_wait m K c 12 (recvS 5) (kcell_recv c 5) (Ncr 5) (by exact rfl) (expect_recv m c 5).symm (0) (mayWait_none (F := F) c _)
      (wpE_waitDma2_eq 𝒱₀ (c : Thread nD τ) none Set.univ)) $$ [HcR5 HO HatR5]
  · iframe HI Hlev HcR5 HO HatR5
  iintro ⟨HO, HatR5, Hpay⟩
  ihave HO3 := (Entails.of_eq ((rest_recv m c 5).trans (show recvPay m 5 c = ((c : Thread nD τ).loc cc0_scratch3 ↦[setO3]{fullShare} bufO3 m c : sProp 𝕄) from rfl))) $$ Hpay
  iapply (wp_load 𝒱₀ (c : Thread nD τ) none Set.univ (m := M12) loadSub_O3) $$ HO3; iintro HO3
  rw [rdO3]
  iapply (wp_load 𝒱₀ (c : Thread nD τ) none Set.univ (m := M8) (Finset.subset_univ _)) $$ Hx8; iintro Hx8
  iapply (wp_store 𝒱₀ (c : Thread nD τ) none Set.univ (m := M8) (r := (Rect.unit (s := S2x256x1024) (k0_off5 c) S1x128x1024.size (k0_off5_inb c))) (Mk := Finset.univ) (Finset.subset_univ _)) $$ Hx8
  rw [cover_out]
  iintro Hx8
  imod (close_cell m K c (kSend 0) (kcell_send c 0)) $$ [HatS0] with HzS0
  · iframe HI HatS0
  imod (close_cell m K c (kSend 1) (kcell_send c 1)) $$ [HatS1] with HzS1
  · iframe HI HatS1
  imod (close_cell m K c (kSend 2) (kcell_send c 2)) $$ [HatS2] with HzS2
  · iframe HI HatS2
  imod (close_cell m K c (kSend 3) (kcell_send c 3)) $$ [HatS3] with HzS3
  · iframe HI HatS3
  imod (close_cell m K c (kSend 4) (kcell_send c 4)) $$ [HatS4] with HzS4
  · iframe HI HatS4
  imod (close_cell m K c (kSend 5) (kcell_send c 5)) $$ [HatS5] with HzS5
  · iframe HI HatS5
  imod (close_cell m K c (kRecv 0) (kcell_recv c 0)) $$ [HatR0] with HzR0
  · iframe HI HatR0
  imod (close_cell m K c (kRecv 1) (kcell_recv c 1)) $$ [HatR1] with HzR1
  · iframe HI HatR1
  imod (close_cell m K c (kRecv 2) (kcell_recv c 2)) $$ [HatR2] with HzR2
  · iframe HI HatR2
  imod (close_cell m K c (kRecv 3) (kcell_recv c 3)) $$ [HatR3] with HzR3
  · iframe HI HatR3
  imod (close_cell m K c (kRecv 4) (kcell_recv c 4)) $$ [HatR4] with HzR4
  · iframe HI HatR4
  imod (close_cell m K c (kRecv 5) (kcell_recv c 5)) $$ [HatR5] with HzR5
  · iframe HI HatR5
  ihave HOr := (Region.is_share (PosShare.mem_left_op_right fullShare.right)).mpr $$ [HOb HOc]
  · iframe
  ihave HO0 := (Region.is_share (PosShare.mem_left_op_right fullShare)).mpr $$ [HOa HOr]
  · iframe
  ihave H9 := (join2 (Val := Elt F) (ℓ := (c : Thread nD τ).loc cc0_scratch0) (fun i : S2x256x64.Idx => (i 0 : ℕ)) fullShare mem_setC0 mem_setC1 (fun i => (i 0).isLt) _ _) $$ [HC0 HC1]
  · iframe
  ihave H10 := (join2 (Val := Elt F) (ℓ := (c : Thread nD τ).loc cc0_scratch1) (fun i : S2x64x1024.Idx => (i 0 : ℕ)) fullShare mem_setK0 mem_setK1 (fun i => (i 0).isLt) _ _) $$ [HK0 HK1]
  · iframe
  ihave H11 := (join2 (Val := Elt F) (ℓ := (c : Thread nD τ).loc cc0_scratch2) (fun i : S2x64x1024.Idx => (i 0 : ℕ)) fullShare mem_setV0 mem_setV1 (fun i => (i 0).isLt) _ _) $$ [HV0 HV1]
  · iframe
  ihave H12 := (join4 (Val := Elt F) (ℓ := (c : Thread nD τ).loc cc0_scratch3) (fun i : S4x128x1024.Idx => (i 0 : ℕ)) fullShare mem_setO0 mem_setO1 mem_setO2 mem_setO3 (fun i => (i 0).isLt) _ _ _ _) $$ [HO0 HO1 HO2 HO3]
  · iframe
  rw [wp_ret]; imodintro
  iapply Hk
  unfold bodyPost Φ₁ scr Dat.owesAt Pipeline.owesWithin
  rw [show (dats m ρ 0 c).owed t₀.succ = 0 from rfl, bigSep_fin12]
  isplitl [H9 H10 H11 H12 HzS0 HzS1 HzS2 HzS3 HzS4 HzS5 HzR0 HzR1 HzR2 HzR3 HzR4 HzR5]
  · isplitl [H9 H10 H11 H12]
    · iframe
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzR0]; · iexact HzR0
      isplitl [HzR1]; · iexact HzR1
      isplitl [HzR2]; · iexact HzR2
      isplitl [HzR3]; · iexact HzR3
      isplitl [HzR4]; · iexact HzR4
      iexact HzR5
  isplitl [HO]
  · iexists (insert (SemLoc.dma (recvS 5), ()) (insert (SemLoc.dma (sendS 5), ()) (insert (SemLoc.dma (recvS 4), ()) (insert (SemLoc.dma (sendS 4), ()) (insert (SemLoc.dma (recvS 3), ()) (insert (SemLoc.dma (sendS 3), ()) (insert (SemLoc.dma (recvS 2), ()) (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W)))))))))))))
    isplitr; · ipureintro; exact fun _ _ => Or.inl trivial
    iexact HO
  isplitl [Hx0]
  · iexists _; isplitr; · (ipureintro; rfl)
    iexact Hx0
  isplitl [Hx1]
  · iexists _; isplitr; · (ipureintro; rfl)
    iexact Hx1
  isplitl [Hx2]
  · iexists _; isplitr; · (ipureintro; rfl)
    iexact Hx2
  isplitl [Hx3]
  · iexists _; isplitr; · (ipureintro; rfl)
    iexact Hx3
  isplitl [Hx4]
  · iexists _; isplitr; · (ipureintro; rfl)
    iexact Hx4
  isplitl [Hx5]
  · iexists _; isplitr; · (ipureintro; rfl)
    iexact Hx5
  isplitl [Hx6]
  · iexists _; isplitr; · (ipureintro; rfl)
    iexact Hx6
  isplitl [Hx7]
  · iexists _; isplitr; · (ipureintro; rfl)
    iexact Hx7
  iexists _; isplitr; · (ipureintro; rfl)
  iexact Hx8

end Body

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
def bodyPre' (c : Dev nD) : sProp 𝕄 :=
  iprop(Φ₀ m c ∗ (dats m ρ 0 c).owesAt () t₀.castSucc
    ∗ (∃ d, stg c cc0_stg0_0 ((dats m ρ 0 c).before (0 : Fin 9) t₀ d))
    ∗ (∃ d, stg c cc0_stg1_0 ((dats m ρ 0 c).before (1 : Fin 9) t₀ d))
    ∗ (∃ d, stg c cc0_stg2_0 ((dats m ρ 0 c).before (2 : Fin 9) t₀ d))
    ∗ (∃ d, stg c cc0_stg3_0 ((dats m ρ 0 c).before (3 : Fin 9) t₀ d))
    ∗ (∃ d, stg c cc0_stg4_0 ((dats m ρ 0 c).before (4 : Fin 9) t₀ d))
    ∗ (∃ d, stg c cc0_stg5_0 ((dats m ρ 0 c).before (5 : Fin 9) t₀ d))
    ∗ (∃ d, stg c cc0_stg6_0 ((dats m ρ 0 c).before (6 : Fin 9) t₀ d))
    ∗ (∃ d, stg c cc0_stg7_0 ((dats m ρ 0 c).before (7 : Fin 9) t₀ d))
    ∗ (∃ d, stg c cc0_stg8_0 ((dats m ρ 0 c).before (8 : Fin 9) t₀ d)))

set_option maxRecDepth 65536 in
set_option maxHeartbeats 1600000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5) (fun _ => bodyPost m ρ c)
  unfold bodyPre' Φ₀ start
  iintro ⟨⟨⟨⟨%K, Hg⟩, Hcr, Hlev⟩, Hscr⟩, Ho, Hx0, Hx1, Hx2, Hx3, Hx4, Hx5, Hx6, Hx7, Hx8⟩
  iapply (sound_body m ρ K c fun _ => bodyPost m ρ c)
  unfold bodyPre
  isplitr []
  · iframe
  · iintro H; iexact H

/-- info: 'Cert.KernelProof.body_obligation' depends on axioms: [propext, Classical.choice, Quot.sound] -/
#guard_msgs in #print axioms body_obligation

end Cert.KernelProof

end
-- ==== Proof.Spec.lean ====
import Idealize.ShloMosaic.PureOps.Ideal
import Idealize.ShloMosaic.Lib.ValueIdx

noncomputable section

open scoped BigOperators

namespace Cert.Mla

open Idealize.ShloMosaic Idealize.ShloMosaic.ValueIdx

abbrev TX : Type := (⟨3, ![2, 256, 1024]⟩ : Shape).Idx → EReal
abbrev TWdkv : Type := (⟨2, ![1024, 128]⟩ : Shape).Idx → EReal
abbrev TWu : Type := (⟨2, ![128, 1024]⟩ : Shape).Idx → EReal
abbrev TWq : Type := (⟨2, ![1024, 1024]⟩ : Shape).Idx → EReal
abbrev TWqr : Type := (⟨2, ![1024, 512]⟩ : Shape).Idx → EReal
abbrev TWkr : Type := (⟨2, ![1024, 32]⟩ : Shape).Idx → EReal

def hcol (h : Fin 16) (d : Fin 64) : Fin 1024 := ⟨64 * h.val + d.val, by omega⟩
def rcol (h : Fin 16) (r : Fin 32) : Fin 512 := ⟨32 * h.val + r.val, by omega⟩
def headOf (n : Fin 1024) : Fin 16 := ⟨n.val / 64, by omega⟩

def scale : EReal := Ideal.ofBits .f32 0x3DD105EC#32

section
variable (X : TX) (Wdkv : TWdkv) (Wuk Wuv : TWu) (Wq : TWq) (Wqr : TWqr) (Wkr : TWkr) (Wo : TWq)

def lat (b : Fin 2) (s : Fin 256) (j : Fin 128) : EReal := ∑ k : Fin 1024, X (ix3 b s k) * Wdkv (ix2 k j)
def keyF (b : Fin 2) (s : Fin 256) (n : Fin 1024) : EReal := ∑ j : Fin 128, lat X Wdkv b s j * Wuk (ix2 j n)
def valF (b : Fin 2) (s : Fin 256) (n : Fin 1024) : EReal := ∑ j : Fin 128, lat X Wdkv b s j * Wuv (ix2 j n)
def qryF (b : Fin 2) (s : Fin 256) (n : Fin 1024) : EReal := ∑ k : Fin 1024, X (ix3 b s k) * Wq (ix2 k n)
def qrF (b : Fin 2) (s : Fin 256) (p : Fin 512) : EReal := ∑ k : Fin 1024, X (ix3 b s k) * Wqr (ix2 k p)
def krF (b : Fin 2) (s : Fin 256) (r : Fin 32) : EReal := ∑ k : Fin 1024, X (ix3 b s k) * Wkr (ix2 k r)

def score (b : Fin 2) (h : Fin 16) (s t : Fin 256) : EReal :=
  ((∑ d : Fin 64, qryF X Wq b s (hcol h d) * keyF X Wdkv Wuk b t (hcol h d))
    + ∑ r : Fin 32, qrF X Wqr b s (rcol h r) * krF X Wkr b t r) * scale

def attK (b : Fin 2) (s : Fin 256) (n : Fin 1024) : EReal :=
  Ideal.div (∑ t : Fin 256, Ideal.exp (score X Wdkv Wuk Wq Wqr Wkr b (headOf n) s t) * valF X Wdkv Wuv b t n)
    (∑ t : Fin 256, Ideal.exp (score X Wdkv Wuk Wq Wqr Wkr b (headOf n) s t))

def outK (b : Fin 2) (s : Fin 256) (e : Fin 1024) : EReal :=
  ∑ n : Fin 1024, attK X Wdkv Wuk Wuv Wq Wqr Wkr b s n * Wo (ix2 n e)

def prob (sh : Fin 2 → Fin 16 → Fin 256 → EReal) (b : Fin 2) (h : Fin 16) (s t : Fin 256) : EReal :=
  Ideal.div (Ideal.exp (score X Wdkv Wuk Wq Wqr Wkr b h s t - sh b h s))
    (∑ t' : Fin 256, Ideal.exp (score X Wdkv Wuk Wq Wqr Wkr b h s t' - sh b h s))

def attR (sh : Fin 2 → Fin 16 → Fin 256 → EReal) (b : Fin 2) (s : Fin 256) (n : Fin 1024) : EReal :=
  ∑ t : Fin 256, valF X Wdkv Wuv b t n * prob X Wdkv Wuk Wq Wqr Wkr sh b (headOf n) s t

def outR (sh : Fin 2 → Fin 16 → Fin 256 → EReal) (b : Fin 2) (s : Fin 256) (e : Fin 1024) : EReal :=
  ∑ n : Fin 1024, attR X Wdkv Wuk Wuv Wq Wqr Wkr sh b s n * Wo (ix2 n e)

def rowMax (b : Fin 2) (h : Fin 16) (s : Fin 256) : EReal :=
  (Finset.univ : Finset (Fin 256)).sup fun t => score X Wdkv Wuk Wq Wqr Wkr b h s t

def Fin' {S : Shape} (A : S.Idx → EReal) : Prop := ∀ i, A i ≠ ⊥ ∧ A i ≠ ⊤

end

end Cert.Mla

end
-- ==== Proof.Finite.lean ====
import proofs.«900964_g7700000000000965_dist_mla_v7x_xyz2x2x2_x_b2_s256_d1024_dc64_f32_1_alg».proof.Defs
import proofs.«900964_g7700000000000965_dist_mla_v7x_xyz2x2x2_x_b2_s256_d1024_dc64_f32_1_alg».proof.Proof.Gen.Pre_finite_inputs_Kernel
import proofs.«900964_g7700000000000965_dist_mla_v7x_xyz2x2x2_x_b2_s256_d1024_dc64_f32_1_alg».proof.Proof.Spec
import Idealize.ShloMosaic.Lib.ReduceAll
import Mathlib.Data.EReal.Basic
import Mathlib.Data.EReal.Operations

noncomputable section

namespace Cert.Mla

open Idealize.ShloMosaic Idealize.SL.Sem

def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7))

private theorem inf_word : Ideal.ofBits .f32 0x7F800000#32 = (⊤ : EReal) := by
  unfold Ideal.ofBits Ideal.ieee
  simp only []
  rw [if_pos (by decide), if_pos (by decide), if_neg (by decide)]

private theorem real_of_abs_lt {x : EReal} (h : max x (-x) < ⊤) : x ≠ ⊥ ∧ x ≠ ⊤ := by
  rcases max_lt_iff.1 h with ⟨h1, h2⟩
  refine ⟨fun hx => ?_, fun hx => ?_⟩
  · rw [hx, EReal.neg_bot] at h2; exact lt_irrefl _ h2
  · rw [hx] at h1; exact lt_irrefl _ h1

private theorem real_of_cmp {x : EReal}
    (h : FloatOps.cmpf (F := Ideal) (φ := .f32) .olt (FloatOps.hostAbsf (F := Ideal) (φ := .f32) x)
      (FloatOps.ofBits (F := Ideal) .f32 0x7F800000#32) = 1#1) : x ≠ ⊥ ∧ x ≠ ⊤ := by
  apply real_of_abs_lt
  change Ideal.cmp .olt (max x (-x)) (Ideal.ofBits .f32 0x7F800000#32) = 1#1 at h
  rw [inf_word] at h
  by_contra hn
  simp [Ideal.cmp, hn] at h

private theorem real_of_all {s : Shape} {axes : List (Fin s.rank)} (x : s.Idx → EReal)
    (hb : Cert.Pre_finite_inputs_Kernel.S_.BroadcastsInDim s (![] : Fin 0 → Fin s.rank))
    (hr : s.ReducesTo axes Cert.Pre_finite_inputs_Kernel.S_) (hu : 0 < Cert.Pre_finite_inputs_Kernel.S_.numel)
    (init : Cert.Pre_finite_inputs_Kernel.S_.Idx → BitVec 1) (j : Cert.Pre_finite_inputs_Kernel.S_.Idx)
    (h : Host.reduce IntOp.andi (cmpf (F := Ideal) (φ := .f32) .olt (Host.absf (F := Ideal) (φ := .f32) x)
        (broadcastInDim s ![] hb (constant (F := Ideal) Cert.Pre_finite_inputs_Kernel.S_ .f32 0x7F800000#32))) init hr hu j = 1#1) :
    ∀ i, x i ≠ ⊥ ∧ x i ≠ ⊤ := by
  intro i
  haveI : Subsingleton Cert.Pre_finite_inputs_Kernel.S_.Idx := ⟨fun a b => funext fun d => d.elim0⟩
  exact real_of_cmp (Host.reduce_andi_all _ init hr hu j h i)

private theorem cover_cols {α : Type} (P : α → Prop) (v : (⟨2, ![1024, 128]⟩ : Shape).Idx → α)
    (H : ∀ (c : Fin 8) (i : (⟨2, ![1024, 64]⟩ : Shape).Idx),
      P ((Layout.blockN ⟨2, ![1024, 64]⟩ ⟨2, ![1024, 128]⟩ (Layout.meshBlock [2, 2, 2] ![[], [0]] c) v) i)) :
    ∀ j, P (v j) := by
  intro j
  have hj0 : (j 0).val < 1024 := (j 0).isLt
  have hj1 : (j 1).val < 128 := (j 1).isLt
  have m0 : ∀ c, Layout.meshLin [2, 2, 2] c [] = 0 := fun _ => rfl
  by_cases hlt : (j 1).val < 64
  · have key := H 0 (Shape.pair ⟨(j 0).val, hj0⟩ ⟨(j 1).val, hlt⟩)
    rw [Layout.blockN_apply] at key
    convert key using 2
    funext b; apply Fin.ext
    rcases b with ⟨_ | _ | n, hb⟩
    · show (j 0).val = Layout.meshLin [2, 2, 2] 0 [] * 1024 + (j 0).val
      rw [m0]; omega
    · show (j 1).val = Layout.meshLin [2, 2, 2] 0 [0] * 64 + (j 1).val
      have m1 : Layout.meshLin [2, 2, 2] 0 [0] = 0 := by decide
      rw [m1]; omega
    · exact absurd hb (by show ¬ (n + 1 + 1 < 2); omega)
  · have key := H 4 (Shape.pair ⟨(j 0).val, hj0⟩ ⟨(j 1).val - 64, by show (j 1).val - 64 < 64; omega⟩)
    rw [Layout.blockN_apply] at key
    convert key using 2
    funext b; apply Fin.ext
    rcases b with ⟨_ | _ | n, hb⟩
    · show (j 0).val = Layout.meshLin [2, 2, 2] 4 [] * 1024 + (j 0).val
      rw [m0]; omega
    · show (j 1).val = Layout.meshLin [2, 2, 2] 4 [0] * 64 + ((j 1).val - 64)
      have m1 : Layout.meshLin [2, 2, 2] 4 [0] = 1 := by decide
      rw [m1]; omega
    · exact absurd hb (by show ¬ (n + 1 + 1 < 2); omega)

private theorem cover_rows {α : Type} (P : α → Prop) (v : (⟨2, ![128, 1024]⟩ : Shape).Idx → α)
    (H : ∀ (c : Fin 8) (i : (⟨2, ![64, 1024]⟩ : Shape).Idx),
      P ((Layout.blockN ⟨2, ![64, 1024]⟩ ⟨2, ![128, 1024]⟩ (Layout.meshBlock [2, 2, 2] ![[0], []] c) v) i)) :
    ∀ j, P (v j) := by
  intro j
  have hj0 : (j 0).val < 128 := (j 0).isLt
  have hj1 : (j 1).val < 1024 := (j 1).isLt
  have m0 : ∀ c, Layout.meshLin [2, 2, 2] c [] = 0 := fun _ => rfl
  by_cases hlt : (j 0).val < 64
  · have key := H 0 (Shape.pair ⟨(j 0).val, hlt⟩ ⟨(j 1).val, hj1⟩)
    rw [Layout.blockN_apply] at key
    convert key using 2
    funext b; apply Fin.ext
    rcases b with ⟨_ | _ | n, hb⟩
    · show (j 0).val = Layout.meshLin [2, 2, 2] 0 [0] * 64 + (j 0).val
      have m1 : Layout.meshLin [2, 2, 2] 0 [0] = 0 := by decide
      rw [m1]; omega
    · show (j 1).val = Layout.meshLin [2, 2, 2] 0 [] * 1024 + (j 1).val
      rw [m0]; omega
    · exact absurd hb (by show ¬ (n + 1 + 1 < 2); omega)
  · have key := H 4 (Shape.pair ⟨(j 0).val - 64, by show (j 0).val - 64 < 64; omega⟩ ⟨(j 1).val, hj1⟩)
    rw [Layout.blockN_apply] at key
    convert key using 2
    funext b; apply Fin.ext
    rcases b with ⟨_ | _ | n, hb⟩
    · show (j 0).val = Layout.meshLin [2, 2, 2] 4 [0] * 64 + ((j 0).val - 64)
      have m1 : Layout.meshLin [2, 2, 2] 4 [0] = 1 := by decide
      rw [m1]; omega
    · show (j 1).val = Layout.meshLin [2, 2, 2] 4 [] * 1024 + (j 1).val
      rw [m0]; omega
    · exact absurd hb (by show ¬ (n + 1 + 1 < 2); omega)

variable [hP : Cert.Pre_finite_inputs_Kernel.Facts]

private theorem bufs_real
    (a0 : FVec Ideal Cert.Pre_finite_inputs_Kernel.S2x256x1024 .f32) (a1 : FVec Ideal Cert.Pre_finite_inputs_Kernel.S1024x64 .f32)
    (a2 a3 : FVec Ideal Cert.Pre_finite_inputs_Kernel.S64x1024 .f32) (a4 : FVec Ideal Cert.Pre_finite_inputs_Kernel.S1024x1024 .f32)
    (a5 : FVec Ideal Cert.Pre_finite_inputs_Kernel.S1024x512 .f32) (a6 : FVec Ideal Cert.Pre_finite_inputs_Kernel.S1024x32 .f32)
    (a7 : FVec Ideal Cert.Pre_finite_inputs_Kernel.S1024x1024 .f32)
    (h : Cert.Pre_finite_inputs_Kernel.fn (F := Ideal) a0 a1 a2 a3 a4 a5 a6 a7 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) ∧ (∀ i, a3 i ≠ ⊥ ∧ a3 i ≠ ⊤)
      ∧ (∀ i, a4 i ≠ ⊥ ∧ a4 i ≠ ⊤) ∧ (∀ i, a5 i ≠ ⊥ ∧ a5 i ≠ ⊤) ∧ (∀ i, a6 i ≠ ⊥ ∧ a6 i ≠ ⊤) ∧ (∀ i, a7 i ≠ ⊥ ∧ a7 i ≠ ⊤) := by
  have h0 := congrFun h (fun d => d.elim0)
  dsimp only [Cert.Pre_finite_inputs_Kernel.fn, Cert.Pre_finite_inputs_Kernel.fn_part1,
    Cert.Pre_finite_inputs_Kernel.fn_part2, andi] at h0
  simp only [IntOp.andi_eq_one] at h0
  obtain ⟨⟨⟨⟨⟨⟨⟨h0, h1⟩, h2⟩, h3⟩, h4⟩, h5⟩, h6⟩, h7⟩ := h0
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5, real_of_all _ _ _ _ _ _ h6, real_of_all _ _ _ _ _ _ h7⟩

theorem fin_of_pre (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (hag : Agree m m') :
    Fin' ((m' (((0 : Dev Cert.ReferenceIdeal.nD).tc : Thread Cert.ReferenceIdeal.nD Cert.ReferenceIdeal.τ).loc Cert.ReferenceIdeal.main_arg0)) : TX) ∧ Fin' ((m' (((0 : Dev Cert.ReferenceIdeal.nD).tc : Thread Cert.ReferenceIdeal.nD Cert.ReferenceIdeal.τ).loc Cert.ReferenceIdeal.main_arg1)) : TWdkv) ∧ Fin' ((m' (((0 : Dev Cert.ReferenceIdeal.nD).tc : Thread Cert.ReferenceIdeal.nD Cert.ReferenceIdeal.τ).loc Cert.ReferenceIdeal.main_arg2)) : TWu) ∧ Fin' ((m' (((0 : Dev Cert.ReferenceIdeal.nD).tc : Thread Cert.ReferenceIdeal.nD Cert.ReferenceIdeal.τ).loc Cert.ReferenceIdeal.main_arg3)) : TWu)
      ∧ Fin' ((m' (((0 : Dev Cert.ReferenceIdeal.nD).tc : Thread Cert.ReferenceIdeal.nD Cert.ReferenceIdeal.τ).loc Cert.ReferenceIdeal.main_arg4)) : TWq) ∧ Fin' ((m' (((0 : Dev Cert.ReferenceIdeal.nD).tc : Thread Cert.ReferenceIdeal.nD Cert.ReferenceIdeal.τ).loc Cert.ReferenceIdeal.main_arg5)) : TWqr) ∧ Fin' ((m' (((0 : Dev Cert.ReferenceIdeal.nD).tc : Thread Cert.ReferenceIdeal.nD Cert.ReferenceIdeal.τ).loc Cert.ReferenceIdeal.main_arg6)) : TWkr) ∧ Fin' ((m' (((0 : Dev Cert.ReferenceIdeal.nD).tc : Thread Cert.ReferenceIdeal.nD Cert.ReferenceIdeal.τ).loc Cert.ReferenceIdeal.main_arg7)) : TWq) := by
  have hb := fun c : Dev Cert.KernelIdeal.nD => bufs_real _ _ _ _ _ _ _ _ (hpre c)
  refine ⟨fun i => ?_, cover_cols (fun x : EReal => x ≠ ⊥ ∧ x ≠ ⊤) _ fun c i => ?_,
    cover_rows (fun x : EReal => x ≠ ⊥ ∧ x ≠ ⊤) _ fun c i => ?_,
    cover_rows (fun x : EReal => x ≠ ⊥ ∧ x ≠ ⊤) _ fun c i => ?_, fun i => ?_, fun i => ?_, fun i => ?_, fun i => ?_⟩
  · have := (hb 0).1 i; rw [(hag 0).1] at this; exact this
  · have := (hb c).2.1 i; rw [(hag c).2.1] at this; exact this
  · have := (hb c).2.2.1 i; rw [(hag c).2.2.1] at this; exact this
  · have := (hb c).2.2.2.1 i; rw [(hag c).2.2.2.1] at this; exact this
  · have := (hb 0).2.2.2.2.1 i; rw [(hag 0).2.2.2.2.1] at this; exact this
  · have := (hb 0).2.2.2.2.2.1 i; rw [(hag 0).2.2.2.2.2.1] at this; exact this
  · have := (hb 0).2.2.2.2.2.2.1 i; rw [(hag 0).2.2.2.2.2.2.1] at this; exact this
  · have := (hb 0).2.2.2.2.2.2.2 i; rw [(hag 0).2.2.2.2.2.2.2] at this; exact this

end Cert.Mla

end
-- ==== Proof.KernelValueA.lean ====
import proofs.«900964_g7700000000000965_dist_mla_v7x_xyz2x2x2_x_b2_s256_d1024_dc64_f32_1_alg».proof.Proof.Contents
import proofs.«900964_g7700000000000965_dist_mla_v7x_xyz2x2x2_x_b2_s256_d1024_dc64_f32_1_alg».proof.Proof.Finite
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Layout
import Mathlib.Algebra.BigOperators.Fin

noncomputable section

open scoped BigOperators

namespace Cert.KernelIdealProof

open Cert.KernelIdeal Cert.KernelIdeal.Gen
open Idealize.ShloMosaic Idealize.ShloMosaic.TcCoe Idealize.ShloMosaic.ValueIdx Idealize.SL.Sem
open Cert.Mla

abbrev wX (m' : (ℓ : Loc Cert.ReferenceIdeal.nD Cert.ReferenceIdeal.τ Cert.ReferenceIdeal.sig) → Buf (Elt Ideal) ℓ) : Cert.Mla.TX := (m' (((0 : Dev Cert.ReferenceIdeal.nD).tc : Thread Cert.ReferenceIdeal.nD Cert.ReferenceIdeal.τ).loc Cert.ReferenceIdeal.main_arg0))
abbrev wWdkv (m' : (ℓ : Loc Cert.ReferenceIdeal.nD Cert.ReferenceIdeal.τ Cert.ReferenceIdeal.sig) → Buf (Elt Ideal) ℓ) : Cert.Mla.TWdkv := (m' (((0 : Dev Cert.ReferenceIdeal.nD).tc : Thread Cert.ReferenceIdeal.nD Cert.ReferenceIdeal.τ).loc Cert.ReferenceIdeal.main_arg1))
abbrev wWuk (m' : (ℓ : Loc Cert.ReferenceIdeal.nD Cert.ReferenceIdeal.τ Cert.ReferenceIdeal.sig) → Buf (Elt Ideal) ℓ) : Cert.Mla.TWu := (m' (((0 : Dev Cert.ReferenceIdeal.nD).tc : Thread Cert.ReferenceIdeal.nD Cert.ReferenceIdeal.τ).loc Cert.ReferenceIdeal.main_arg2))
abbrev wWuv (m' : (ℓ : Loc Cert.ReferenceIdeal.nD Cert.ReferenceIdeal.τ Cert.ReferenceIdeal.sig) → Buf (Elt Ideal) ℓ) : Cert.Mla.TWu := (m' (((0 : Dev Cert.ReferenceIdeal.nD).tc : Thread Cert.ReferenceIdeal.nD Cert.ReferenceIdeal.τ).loc Cert.ReferenceIdeal.main_arg3))
abbrev wWq (m' : (ℓ : Loc Cert.ReferenceIdeal.nD Cert.ReferenceIdeal.τ Cert.ReferenceIdeal.sig) → Buf (Elt Ideal) ℓ) : Cert.Mla.TWq := (m' (((0 : Dev Cert.ReferenceIdeal.nD).tc : Thread Cert.ReferenceIdeal.nD Cert.ReferenceIdeal.τ).loc Cert.ReferenceIdeal.main_arg4))
abbrev wWqr (m' : (ℓ : Loc Cert.ReferenceIdeal.nD Cert.ReferenceIdeal.τ Cert.ReferenceIdeal.sig) → Buf (Elt Ideal) ℓ) : Cert.Mla.TWqr := (m' (((0 : Dev Cert.ReferenceIdeal.nD).tc : Thread Cert.ReferenceIdeal.nD Cert.ReferenceIdeal.τ).loc Cert.ReferenceIdeal.main_arg5))
abbrev wWkr (m' : (ℓ : Loc Cert.ReferenceIdeal.nD Cert.ReferenceIdeal.τ Cert.ReferenceIdeal.sig) → Buf (Elt Ideal) ℓ) : Cert.Mla.TWkr := (m' (((0 : Dev Cert.ReferenceIdeal.nD).tc : Thread Cert.ReferenceIdeal.nD Cert.ReferenceIdeal.τ).loc Cert.ReferenceIdeal.main_arg6))
abbrev wWo (m' : (ℓ : Loc Cert.ReferenceIdeal.nD Cert.ReferenceIdeal.τ Cert.ReferenceIdeal.sig) → Buf (Elt Ideal) ℓ) : Cert.Mla.TWq := (m' (((0 : Dev Cert.ReferenceIdeal.nD).tc : Thread Cert.ReferenceIdeal.nD Cert.ReferenceIdeal.τ).loc Cert.ReferenceIdeal.main_arg7))

def qrow (d : Dev nD) (i : Fin 128) : Fin 256 := ⟨128 * (zOf d).val + i.val, by have := (zOf d).isLt; omega⟩

section Plain
variable (M K N : Nat)

theorem plain_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem plain_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem plain_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem plain_matmul_apply {φ₁ φ₂ : FTy} (lhs : FVec Ideal ⟨2, ![M, K]⟩ φ₁) (rhs : FVec Ideal ⟨2, ![K, N]⟩ φ₂)
    (i : Fin M) (n : Fin N) :
    FloatOps.matmul (DotDims.plain M K N) none lhs rhs (constant (F := Ideal) ⟨2, ![M, N]⟩ .f32 0x00000000#32) (ix2 i n)
      = ∑ k : Fin K, lhs (ix2 i k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 i n) ((ValueIdx.contrEquiv1 (DotDims.plain M K N) K rfl rfl).symm k) = ix2 i k :=
    funext fun a => Fin.ext (by
      match a with
      | ⟨0, _⟩ => exact plain_lhs_0 M K N _ _
      | ⟨1, _⟩ => exact (plain_lhs_1 M K N _ _).trans hk)
  have er : (DotDims.plain M K N).rhsIdx (ix2 i n) ((ValueIdx.contrEquiv1 (DotDims.plain M K N) K rfl rfl).symm k) = ix2 k n :=
    funext fun a => Fin.ext (by
      match a with
      | ⟨0, _⟩ => exact (plain_rhs_0 M K N _ _).trans hk
      | ⟨1, _⟩ => exact plain_rhs_1 M K N _ _)
  rw [el, er]

end Plain

section Payloads

theorem pay2_apply (v : Vec Ideal S1x256x1024 .f32) (t : Fin 256) (k : Fin 1024) :
    k0_pay2 (F := Ideal) v (ix2 t k) = v (ix3 (0 : Fin 1) t k) := by
  unfold k0_pay2
  rw [truncf_apply, shapeCast_1ab_ab_apply, shapeCast_self]

theorem pay7_apply (v : Vec Ideal S1x128x1024 .f32) (i : Fin 128) (k : Fin 1024) :
    k0_pay7 (F := Ideal) v (ix2 i k) = v (ix3 (0 : Fin 1) i k) := by
  unfold k0_pay7
  rw [truncf_apply, shapeCast_1ab_ab_apply, shapeCast_self]

end Payloads

section Payloads2

theorem pay5_apply (v : Vec Ideal S1x256x1024 .f32) (w : Vec Ideal S1024x64 .f32) (t : Fin 256) (j : Fin 64) :
    k0_pay5 (F := Ideal) v w (ix2 t j) = ∑ k : Fin 1024, v (ix3 (0 : Fin 1) t k) * w (ix2 k j) := by
  have hD : dot_S256x1024_S1024x64_S256x64_1_0_0_1_n_n = DotDims.plain 256 1024 64 := rfl
  unfold k0_pay5
  rw [truncf_apply]
  simp only [matmul]
  rw [hD, plain_matmul_apply]
  refine Finset.sum_congr rfl fun k _ => ?_
  rw [pay2_apply, truncf_apply, shapeCast_self]

theorem pay6_apply (v : FVec Ideal S256x64 .bf16) (u : Fin 1) (t : Fin 256) (j : Fin 64) :
    k0_pay6 (F := Ideal) v (ix3 u t j) = v (ix2 t j) := by
  unfold k0_pay6
  rw [shapeCast_ab_1ab_apply]

theorem pay3_apply (v : Vec Ideal S64x1024 .f32) (u : Fin 1) (j : Fin 64) (n : Fin 1024) :
    k0_pay3 (F := Ideal) v (ix3 u j n) = v (ix2 j n) := by
  unfold k0_pay3
  rw [shapeCast_ab_1ab_apply, truncf_apply, shapeCast_self]
theorem pay4_apply (v : Vec Ideal S64x1024 .f32) (u : Fin 1) (j : Fin 64) (n : Fin 1024) :
    k0_pay4 (F := Ideal) v (ix3 u j n) = v (ix2 j n) := by
  unfold k0_pay4
  rw [shapeCast_ab_1ab_apply, truncf_apply, shapeCast_self]

theorem pay8_apply (v : Vec Ideal S1x128x1024 .f32) (w : Vec Ideal S1024x1024 .f32) (i : Fin 128) (n : Fin 1024) :
    k0_pay8 (F := Ideal) v w (ix2 i n) = ∑ k : Fin 1024, v (ix3 (0 : Fin 1) i k) * w (ix2 k n) := by
  have hD : dot_S128x1024_S1024x1024_S128x1024_1_0_0_1_n_n = DotDims.plain 128 1024 1024 := rfl
  unfold k0_pay8
  rw [truncf_apply]
  simp only [matmul]
  rw [hD, plain_matmul_apply]
  refine Finset.sum_congr rfl fun k _ => ?_
  rw [pay7_apply, truncf_apply, shapeCast_self]

theorem pay9_apply (v : Vec Ideal S1x128x1024 .f32) (w : Vec Ideal S1024x512 .f32) (i : Fin 128) (p : Fin 512) :
    k0_pay9 (F := Ideal) v w (ix2 i p) = ∑ k : Fin 1024, v (ix3 (0 : Fin 1) i k) * w (ix2 k p) := by
  have hD : dot_S128x1024_S1024x512_S128x512_1_0_0_1_n_n = DotDims.plain 128 1024 512 := rfl
  unfold k0_pay9
  rw [truncf_apply]
  simp only [matmul]
  rw [hD, plain_matmul_apply]
  refine Finset.sum_congr rfl fun k _ => ?_
  rw [pay7_apply, truncf_apply, shapeCast_self]

theorem pay10_apply (v : FVec Ideal S256x1024 .bf16) (w : Vec Ideal S1024x32 .f32) (t : Fin 256) (r : Fin 32) :
    k0_pay10 (F := Ideal) v w (ix2 t r) = ∑ k : Fin 1024, v (ix2 t k) * w (ix2 k r) := by
  have hD : dot_S256x1024_S1024x32_S256x32_1_0_0_1_n_n = DotDims.plain 256 1024 32 := rfl
  unfold k0_pay10
  rw [truncf_apply]
  simp only [matmul]
  rw [hD, plain_matmul_apply]
  refine Finset.sum_congr rfl fun k _ => ?_
  rw [truncf_apply, shapeCast_self]

theorem pay11_apply (a : Vec Ideal S1x256x64 .bf16) (b : Vec Ideal S1x64x1024 .bf16) (a' : Vec Ideal S1x256x64 .bf16)
    (b' : Vec Ideal S1x64x1024 .bf16) (t : Fin 256) (n : Fin 1024) :
    k0_pay11 (F := Ideal) a b a' b' (ix2 t n)
      = (∑ j : Fin 64, a (ix3 (0 : Fin 1) t j) * b (ix3 (0 : Fin 1) j n))
        + ∑ j : Fin 64, a' (ix3 (0 : Fin 1) t j) * b' (ix3 (0 : Fin 1) j n) := by
  have hD : dot_S256x64_S64x1024_S256x1024_1_0_0_1_n_n = DotDims.plain 256 64 1024 := rfl
  unfold k0_pay11
  rw [truncf_apply, addf_apply]
  simp only [matmul]
  rw [hD, plain_matmul_apply, plain_matmul_apply]
  simp only [shapeCast_1ab_ab_apply]

theorem pay12_apply (a : Vec Ideal S1x256x64 .bf16) (b : Vec Ideal S1x64x1024 .bf16) (a' : Vec Ideal S1x256x64 .bf16)
    (b' : Vec Ideal S1x64x1024 .bf16) (t : Fin 256) (n : Fin 1024) :
    k0_pay12 (F := Ideal) a b a' b' (ix2 t n)
      = (∑ j : Fin 64, a (ix3 (0 : Fin 1) t j) * b (ix3 (0 : Fin 1) j n))
        + ∑ j : Fin 64, a' (ix3 (0 : Fin 1) t j) * b' (ix3 (0 : Fin 1) j n) := by
  have hD : dot_S256x64_S64x1024_S256x1024_1_0_0_1_n_n = DotDims.plain 256 64 1024 := rfl
  unfold k0_pay12
  rw [truncf_apply, addf_apply]
  simp only [matmul]
  rw [hD, plain_matmul_apply, plain_matmul_apply]
  simp only [shapeCast_1ab_ab_apply]

end Payloads2

section MeshCols

def latCol (x : Fin 2) (j : Fin 64) : Fin 128 := ⟨64 * x.val + j.val, by have := x.isLt; have := j.isLt; omega⟩

def flip2 (x : Fin 2) : Fin 2 := ⟨1 - x.val, by omega⟩

theorem xOf_peer (d : Dev nD) : xOf (peer 0 d) = flip2 (xOf d) := by revert d; decide
theorem yOf_peer (d : Dev nD) : yOf (peer 0 d) = yOf d := by revert d; decide

theorem meshLin_x (d : Dev nD) : Layout.meshLin [2, 2, 2] d.val [0] = (xOf d).val := by revert d; decide

theorem sum_two_halves (f : Fin 128 → EReal) (x : Fin 2) :
    (∑ j : Fin 64, f (latCol x j)) + ∑ j : Fin 64, f (latCol (flip2 x) j) = ∑ j : Fin 128, f j := by
  have hs : ∑ j : Fin 128, f j
      = (∑ j : Fin 64, f (latCol 0 j)) + ∑ j : Fin 64, f (latCol 1 j) := by
    have h := Fin.sum_univ_add (M := EReal) (a := 64) (b := 64) (f : Fin (64 + 64) → EReal)
    refine h.trans ?_
    have e0 : ∀ j : Fin 64, Fin.castAdd 64 j = latCol 0 j := fun j => Fin.ext (by show j.val = 64 * 0 + j.val; omega)
    have e1 : ∀ j : Fin 64, Fin.natAdd 64 j = latCol 1 j := fun j => Fin.ext (by show 64 + j.val = 64 * 1 + j.val; omega)
    simp only [e0, e1]
  rw [hs]
  match x with
  | ⟨0, _⟩ => rfl
  | ⟨1, _⟩ => exact add_comm _ _

end MeshCols
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

variable (hag : Cert.Mla.Agree m m') (d : Dev nD)
include hag

section Raw
omit hag

theorem st0_raw : (st0 m d : TX) = m ((d.tc : Thread Cert.KernelIdeal.nD Cert.KernelIdeal.τ).loc Cert.KernelIdeal.main_arg0) := by
  have hz : (fun a => (win0_0.index t0_0) a * main_arg0.ty.shape.size a) = fun _ => 0 := funext fun a => by fin_cases a <;> decide
  have hr := fun f => Memref.read_access_unit_zero (Elt Ideal) main_arg0 hz (fun a => by fin_cases a <;> decide) f
  unfold st0 iblk
  rw [hr]
theorem st1_raw : (st1 m d : (⟨2, ![1024, 64]⟩ : Shape).Idx → EReal) = m ((d.tc : Thread Cert.KernelIdeal.nD Cert.KernelIdeal.τ).loc Cert.KernelIdeal.main_arg1) := by
  have hz : (fun a => (win0_1.index t0_0) a * main_arg1.ty.shape.size a) = fun _ => 0 := funext fun a => by fin_cases a <;> decide
  have hr := fun f => Memref.read_access_unit_zero (Elt Ideal) main_arg1 hz (fun a => by fin_cases a <;> decide) f
  unfold st1 iblk
  rw [hr]
theorem st2_raw : (st2 m d : (⟨2, ![64, 1024]⟩ : Shape).Idx → EReal) = m ((d.tc : Thread Cert.KernelIdeal.nD Cert.KernelIdeal.τ).loc Cert.KernelIdeal.main_arg2) := by
  have hz : (fun a => (win0_2.index t0_0) a * main_arg2.ty.shape.size a) = fun _ => 0 := funext fun a => by fin_cases a <;> decide
  have hr := fun f => Memref.read_access_unit_zero (Elt Ideal) main_arg2 hz (fun a => by fin_cases a <;> decide) f
  unfold st2 iblk
  rw [hr]
theorem st3_raw : (st3 m d : (⟨2, ![64, 1024]⟩ : Shape).Idx → EReal) = m ((d.tc : Thread Cert.KernelIdeal.nD Cert.KernelIdeal.τ).loc Cert.KernelIdeal.main_arg3) := by
  have hz : (fun a => (win0_3.index t0_0) a * main_arg3.ty.shape.size a) = fun _ => 0 := funext fun a => by fin_cases a <;> decide
  have hr := fun f => Memref.read_access_unit_zero (Elt Ideal) main_arg3 hz (fun a => by fin_cases a <;> decide) f
  unfold st3 iblk
  rw [hr]
theorem st4_raw : (st4 m d : TWq) = m ((d.tc : Thread Cert.KernelIdeal.nD Cert.KernelIdeal.τ).loc Cert.KernelIdeal.main_arg4) := by
  have hz : (fun a => (win0_4.index t0_0) a * main_arg4.ty.shape.size a) = fun _ => 0 := funext fun a => by fin_cases a <;> decide
  have hr := fun f => Memref.read_access_unit_zero (Elt Ideal) main_arg4 hz (fun a => by fin_cases a <;> decide) f
  unfold st4 iblk
  rw [hr]
theorem st5_raw : (st5 m d : TWqr) = m ((d.tc : Thread Cert.KernelIdeal.nD Cert.KernelIdeal.τ).loc Cert.KernelIdeal.main_arg5) := by
  have hz : (fun a => (win0_5.index t0_0) a * main_arg5.ty.shape.size a) = fun _ => 0 := funext fun a => by fin_cases a <;> decide
  have hr := fun f => Memref.read_access_unit_zero (Elt Ideal) main_arg5 hz (fun a => by fin_cases a <;> decide) f
  unfold st5 iblk
  rw [hr]
theorem st6_raw : (st6 m d : TWkr) = m ((d.tc : Thread Cert.KernelIdeal.nD Cert.KernelIdeal.τ).loc Cert.KernelIdeal.main_arg6) := by
  have hz : (fun a => (win0_6.index t0_0) a * main_arg6.ty.shape.size a) = fun _ => 0 := funext fun a => by fin_cases a <;> decide
  have hr := fun f => Memref.read_access_unit_zero (Elt Ideal) main_arg6 hz (fun a => by fin_cases a <;> decide) f
  unfold st6 iblk
  rw [hr]
theorem st7_raw : (st7 m d : TWq) = m ((d.tc : Thread Cert.KernelIdeal.nD Cert.KernelIdeal.τ).loc Cert.KernelIdeal.main_arg7) := by
  have hz : (fun a => (win0_7.index t0_0) a * main_arg7.ty.shape.size a) = fun _ => 0 := funext fun a => by fin_cases a <;> decide
  have hr := fun f => Memref.read_access_unit_zero (Elt Ideal) main_arg7 hz (fun a => by fin_cases a <;> decide) f
  unfold st7 iblk
  rw [hr]

theorem xRow_apply (t : Fin 256) (k : Fin 1024) :
    xRow m d (ix3 (0 : Fin 1) t k) = st0 m d (ix3 (yOf d) t k) := by
  unfold xRow
  rw [View.readAt_apply]
  have hv : View.read (Elt Ideal) (M0).view (st0 m d) = st0 m d := rfl
  rw [hv]
  refine congrArg (st0 m d) (funext fun a => Fin.ext ?_)
  rw [LoadRect.idx_apply]
  show k0_off1 d a + 1 * ((ix3 (0 : Fin 1) t k) a).val = ((ix3 (yOf d) t k) a).val
  rw [k0_off1_eq]
  match a with
  | ⟨0, _⟩ => show (d.val / 2) % 2 + 1 * 0 = (d.val / 2) % 2; omega
  | ⟨1, _⟩ => show 0 + 1 * t.val = t.val; omega
  | ⟨2, _⟩ => show 0 + 1 * k.val = k.val; omega

theorem xQry_apply (i : Fin 128) (k : Fin 1024) :
    xQry m d (ix3 (0 : Fin 1) i k) = st0 m d (ix3 (yOf d) (qrow d i) k) := by
  unfold xQry
  rw [View.readAt_apply]
  have hv : View.read (Elt Ideal) (M0).view (st0 m d) = st0 m d := rfl
  rw [hv]
  refine congrArg (st0 m d) (funext fun a => Fin.ext ?_)
  rw [LoadRect.idx_apply]
  show k0_off2 d a + 1 * ((ix3 (0 : Fin 1) i k) a).val = ((ix3 (yOf d) (qrow d i) k) a).val
  rw [k0_off2_eq]
  match a with
  | ⟨0, _⟩ => show (d.val / 2) % 2 + 1 * 0 = (d.val / 2) % 2; omega
  | ⟨1, _⟩ => show 128 * (d.val % 2) + 1 * i.val = 128 * (d.val % 2) + i.val; omega
  | ⟨2, _⟩ => show 0 + 1 * k.val = k.val; omega

end Raw

theorem st0_eq : (st0 m d : TX) = wX m' := (st0_raw m d).trans (hag d).1
theorem st4_eq : (st4 m d : TWq) = wWq m' := (st4_raw m d).trans (hag d).2.2.2.2.1
theorem st5_eq : (st5 m d : TWqr) = wWqr m' := (st5_raw m d).trans (hag d).2.2.2.2.2.1
theorem st6_eq : (st6 m d : TWkr) = wWkr m' := (st6_raw m d).trans (hag d).2.2.2.2.2.2.1

theorem st1_apply (k : Fin 1024) (j : Fin 64) :
    st1 m d (ix2 k j) = wWdkv m' (ix2 k (latCol (xOf d) j)) := by
  have e := (st1_raw m d).trans (hag d).2.1
  rw [show st1 m d (ix2 k j) = (st1 m d : (⟨2, ![1024, 64]⟩ : Shape).Idx → EReal) (ix2 k j) from rfl, e, Layout.blockN_apply]
  refine congrArg (wWdkv m') (funext fun b => Fin.ext ?_)
  rw [Layout.TilesN.idx_val]
  match b with
  | ⟨0, _⟩ => show 0 * 1024 + k.val = k.val; omega
  | ⟨1, _⟩ =>
    show Layout.meshLin [2, 2, 2] d.val [0] * 64 + j.val = 64 * (xOf d).val + j.val
    rw [meshLin_x]; omega

theorem st2_apply (j : Fin 64) (n : Fin 1024) :
    st2 m d (ix2 j n) = wWuk m' (ix2 (latCol (xOf d) j) n) := by
  have e := (st2_raw m d).trans (hag d).2.2.1
  rw [show st2 m d (ix2 j n) = (st2 m d : (⟨2, ![64, 1024]⟩ : Shape).Idx → EReal) (ix2 j n) from rfl, e, Layout.blockN_apply]
  refine congrArg (wWuk m') (funext fun b => Fin.ext ?_)
  rw [Layout.TilesN.idx_val]
  match b with
  | ⟨0, _⟩ =>
    show Layout.meshLin [2, 2, 2] d.val [0] * 64 + j.val = 64 * (xOf d).val + j.val
    rw [meshLin_x]; omega
  | ⟨1, _⟩ => show 0 * 1024 + n.val = n.val; omega
theorem st3_apply (j : Fin 64) (n : Fin 1024) :
    st3 m d (ix2 j n) = wWuv m' (ix2 (latCol (xOf d) j) n) := by
  have e := (st3_raw m d).trans (hag d).2.2.2.1
  rw [show st3 m d (ix2 j n) = (st3 m d : (⟨2, ![64, 1024]⟩ : Shape).Idx → EReal) (ix2 j n) from rfl, e, Layout.blockN_apply]
  refine congrArg (wWuv m') (funext fun b => Fin.ext ?_)
  rw [Layout.TilesN.idx_val]
  match b with
  | ⟨0, _⟩ =>
    show Layout.meshLin [2, 2, 2] d.val [0] * 64 + j.val = 64 * (xOf d).val + j.val
    rw [meshLin_x]; omega
  | ⟨1, _⟩ => show 0 * 1024 + n.val = n.val; omega

theorem cNew_apply (t : Fin 256) (j : Fin 64) :
    cNew m d (ix3 (0 : Fin 1) t j) = lat (wX m') (wWdkv m') (yOf d) t (latCol (xOf d) j) := by
  unfold cNew
  rw [pay6_apply, pay5_apply]
  unfold lat
  refine Finset.sum_congr rfl fun k _ => ?_
  rw [xRow_apply, st0_eq m m' hag d, st1_apply m m' hag d]

theorem ukNew_apply (j : Fin 64) (n : Fin 1024) :
    ukNew m d (ix3 (0 : Fin 1) j n) = wWuk m' (ix2 (latCol (xOf d) j) n) := by
  unfold ukNew
  rw [pay3_apply, st2_apply m m' hag d]
theorem uvNew_apply (j : Fin 64) (n : Fin 1024) :
    uvNew m d (ix3 (0 : Fin 1) j n) = wWuv m' (ix2 (latCol (xOf d) j) n) := by
  unfold uvNew
  rw [pay4_apply, st3_apply m m' hag d]

theorem st7_eq : (st7 m d : TWq) = wWo m' := (st7_raw m d).trans (hag d).2.2.2.2.2.2.2

theorem kk_eq (t : Fin 256) (n : Fin 1024) : kk m d (ix2 t n) = keyF (wX m') (wWdkv m') (wWuk m') (yOf d) t n := by
  unfold kk
  rw [pay11_apply]
  simp only [cNew_apply m m' hag, ukNew_apply m m' hag]
  rw [yOf_peer, xOf_peer]
  unfold keyF
  exact sum_two_halves (fun j => lat (wX m') (wWdkv m') (yOf d) t j * wWuk m' (ix2 j n)) (xOf d)

theorem vv_eq (t : Fin 256) (n : Fin 1024) : vv m d (ix2 t n) = valF (wX m') (wWdkv m') (wWuv m') (yOf d) t n := by
  unfold vv
  rw [pay12_apply]
  simp only [cNew_apply m m' hag, uvNew_apply m m' hag]
  rw [yOf_peer, xOf_peer]
  unfold valF
  exact sum_two_halves (fun j => lat (wX m') (wWdkv m') (yOf d) t j * wWuv m' (ix2 j n)) (xOf d)

theorem qv_eq (i : Fin 128) (n : Fin 1024) : qv m d (ix2 i n) = qryF (wX m') (wWq m') (yOf d) (qrow d i) n := by
  unfold qv
  rw [pay8_apply]
  unfold qryF
  refine Finset.sum_congr rfl fun k _ => ?_
  rw [xQry_apply, st0_eq m m' hag d, st4_eq m m' hag d]

theorem qrv_eq (i : Fin 128) (p : Fin 512) : qrv m d (ix2 i p) = qrF (wX m') (wWqr m') (yOf d) (qrow d i) p := by
  unfold qrv
  rw [pay9_apply]
  unfold qrF
  refine Finset.sum_congr rfl fun k _ => ?_
  rw [xQry_apply, st0_eq m m' hag d, st5_eq m m' hag d]

theorem krv_eq (t : Fin 256) (r : Fin 32) : krv m d (ix2 t r) = krF (wX m') (wWkr m') (yOf d) t r := by
  unfold krv
  rw [pay10_apply]
  unfold krF
  refine Finset.sum_congr rfl fun k _ => ?_
  rw [pay2_apply, xRow_apply, st0_eq m m' hag d, st6_eq m m' hag d]

end Cert.KernelIdealProof

end
-- ==== Proof.KernelValueB.lean ====
import proofs.«900964_g7700000000000965_dist_mla_v7x_xyz2x2x2_x_b2_s256_d1024_dc64_f32_1_alg».proof.Proof.KernelValueA
import Idealize.ShloMosaic.Lib.ValueLayout
import Idealize.ShloMosaic.PureOps.Ideal.Laws
import Mathlib.Algebra.BigOperators.Fin
import Mathlib.Tactic.FinCases

noncomputable section

open scoped BigOperators

namespace Cert.KernelIdealProof

open Cert.KernelIdeal Cert.KernelIdeal.Gen
open Idealize.ShloMosaic Idealize.ShloMosaic.TcCoe Idealize.ShloMosaic.ValueIdx Idealize.SL.Sem
open Cert.Mla

namespace Heads

theorem matmul_nn_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  refine (Ideal.matmul_constant_zero_apply _ none A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem matmul_nt_apply {m k n : Nat} {φ₁ φ₂ : FTy}
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (⟨[1], [1], [0], [0], [], [], w⟩ : DotDims _ _ _) none A B (constant (F := Ideal) ⟨2, ![m, n]⟩ .f32 0x00000000#32) (ix2 a b)
      = ∑ c : Fin k, A (ix2 a c) * B (ix2 b c) := by
  refine (Ideal.matmul_constant_zero_apply _ none A B (ix2 a b)).trans ?_
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

def headScore (o1 o2 : Nat) (h1 : S128x1024.Slices ![0, o1] S128x64) (h2 : S128x512.Slices ![0, o2] S128x32)
    (h3 : S256x1024.Slices ![0, o1] S256x64)
    (q : FVec Ideal S128x1024 .bf16) (qr : FVec Ideal S128x512 .bf16) (kr : FVec Ideal S256x32 .bf16)
    (kk : FVec Ideal S256x1024 .bf16) : FVec Ideal S128x256 .f32 :=
  matmul dot_S128x96_S256x96_S128x256_1_1_0_0_n_n none
    (concatenate S128x96 1 [⟨S128x64, extractStridedSlice S128x64 ![0, o1] q h1⟩, ⟨S128x32, extractStridedSlice S128x32 ![0, o2] qr h2⟩]
      concatenates_S128x64_S128x32_S128x96_d1)
    (concatenate S256x96 1 [⟨S256x64, extractStridedSlice S256x64 ![0, o1] kk h3⟩, ⟨S256x32, kr⟩]
      concatenates_S256x64_S256x32_S256x96_d1)
    (constant S128x256 .f32 0x00000000#32)

def headOut (o1 : Nat) (h4 : S256x1024.Slices ![0, o1] S256x64) (vv : FVec Ideal S256x1024 .bf16)
    (sc : FVec Ideal S128x256 .f32) : FVec Ideal S128x64 .f32 :=
  have e : FVec Ideal S128x256 .f32 := exp (mulf sc (broadcast S128x256 (Scalar.ofBits (F := Ideal) .f32 0x3DD105EC#32)))
  divf
    (matmul dot_S128x256_S256x64_S128x64_1_0_0_1_n_n none (truncf .bf16 e bitsLt_bf16_f32)
      (extractStridedSlice S256x64 ![0, o1] vv h4) (constant S128x64 .f32 0x00000000#32))
    (broadcastTo S128x64
      (shapeCast S128x1 (multiReduction .add [1] S128 e 0x00000000#32 reduces_S128x256_S128 (.inl rfl) rfl) shapeCasts_S128_S128x1)
      broadcasts_S128x1_S128x64)

theorem headScore_apply (h : Fin 16) (o1 o2 : Nat) (ho1 : o1 = 64 * h.val) (ho2 : o2 = 32 * h.val)
    (h1 : S128x1024.Slices ![0, o1] S128x64) (h2 : S128x512.Slices ![0, o2] S128x32)
    (h3 : S256x1024.Slices ![0, o1] S256x64)
    (q : FVec Ideal S128x1024 .bf16) (qr : FVec Ideal S128x512 .bf16) (kr : FVec Ideal S256x32 .bf16)
    (kk : FVec Ideal S256x1024 .bf16) (i : Fin 128) (t : Fin 256) :
    headScore o1 o2 h1 h2 h3 q qr kr kk (ix2 i t)
      = (∑ d : Fin 64, q (ix2 i (hcol h d)) * kk (ix2 t (hcol h d)))
        + ∑ r : Fin 32, qr (ix2 i (rcol h r)) * kr (ix2 t r) := by
  subst ho1 ho2
  unfold headScore
  refine (matmul_nt_apply (m := 128) (k := 96) (n := 256) dot_S128x96_S256x96_S128x256_1_1_0_0_n_n_wf _ _ i t).trans ?_
  refine (Fin.sum_univ_add (a := 64) (b := 32) _).trans ?_
  refine congrArg₂ (· + ·) (Finset.sum_congr rfl fun d _ => ?_) (Finset.sum_congr rfl fun r _ => ?_)
  · refine congrArg₂ (· * ·) ?_ ?_
    · refine (concatenate_pair_apply_left (t := S128x96) (s₁ := S128x64) (s₂ := S128x32) 1 _ _ _ (ix2 i (Fin.castAdd 32 d)) rfl (ix2 i d)
        (fun b => match b with | ⟨0, _⟩ => rfl | ⟨1, _⟩ => rfl)).trans ?_
      exact slice2_axis1_apply _ q h1 i d (hcol h d) rfl
    · refine (concatenate_pair_apply_left (t := S256x96) (s₁ := S256x64) (s₂ := S256x32) 1 _ _ _ (ix2 t (Fin.castAdd 32 d)) rfl (ix2 t d)
        (fun b => match b with | ⟨0, _⟩ => rfl | ⟨1, _⟩ => rfl)).trans ?_
      exact slice2_axis1_apply _ kk h3 t d (hcol h d) rfl
  · refine congrArg₂ (· * ·) ?_ ?_
    · refine (concatenate_pair_apply_right (t := S128x96) (s₁ := S128x64) (s₂ := S128x32) 1 _ _ _ (ix2 i (Fin.natAdd 64 r)) rfl rfl (ix2 i r)
        (fun b => match b with | ⟨0, _⟩ => fun _ => rfl | ⟨1, _⟩ => fun hne => absurd rfl hne)
        (by show r.val + 64 = 64 + r.val; omega)).trans ?_
      exact slice2_axis1_apply _ qr h2 i r (rcol h r) rfl
    · exact concatenate_pair_apply_right (t := S256x96) (s₁ := S256x64) (s₂ := S256x32) 1 _ _ _ (ix2 t (Fin.natAdd 64 r)) rfl rfl (ix2 t r)
        (fun b => match b with | ⟨0, _⟩ => fun _ => rfl | ⟨1, _⟩ => fun hne => absurd rfl hne)
        (by show r.val + 64 = 64 + r.val; omega)

def outOf (sc : Fin 128 → Fin 256 → EReal) (v : Fin 256 → Fin 64 → EReal) (i : Fin 128) (dd : Fin 64) : EReal :=
  Ideal.div (∑ t : Fin 256, Ideal.exp (sc i t * scale) * v t dd) (∑ t : Fin 256, Ideal.exp (sc i t * scale))

theorem headOut_apply (h : Fin 16) (o1 : Nat) (ho1 : o1 = 64 * h.val) (h4 : S256x1024.Slices ![0, o1] S256x64)
    (vv : FVec Ideal S256x1024 .bf16) (sc : FVec Ideal S128x256 .f32) (i : Fin 128) (dd : Fin 64) :
    headOut o1 h4 vv sc (ix2 i dd)
      = outOf (fun i t => sc (ix2 i t)) (fun t dd => vv (ix2 t (hcol h dd))) i dd := by
  subst ho1
  unfold headOut outOf
  refine (divf_apply _ _ _).trans (congrArg₂ Ideal.div ?_ ?_)
  · refine (matmul_nn_apply (m := 128) (k := 256) (n := 64) dot_S128x256_S256x64_S128x64_1_0_0_1_n_n_wf _ _ i dd).trans ?_
    refine Finset.sum_congr rfl fun t _ => ?_
    exact congrArg₂ (· * ·) rfl (slice2_axis1_apply _ vv h4 t dd (hcol h dd) rfl)
  · refine (broadcastTo_apply _ broadcasts_S128x1_S128x64 (ix2 i dd) (ix2 i (0 : Fin 1))
      (fun a => match a with | ⟨0, _⟩ => rfl | ⟨1, _⟩ => rfl)).trans ?_
    refine (shapeCast_apply _ shapeCasts_S128_S128x1 (ix2 i (0 : Fin 1)) (ix1 i) (by
      rw [Shape.rowMajor_val_one, Shape.rowMajor_val_two]
      show i.val = i.val * 1 + 0
      omega)).trans ?_
    refine (Ideal.multiReduction_add_single _ _ reduces_S128x256_S128 _ _ (ix1 i)).trans ?_
    refine Finset.sum_congr rfl fun t _ => ?_
    have e : reduces_S128x256_S128.lift (ix1 i) t = ix2 i t := by
      funext c; apply Fin.ext
      match c with
      | ⟨0, _⟩ => rfl
      | ⟨1, _⟩ => rfl
    rw [e]
    rfl

def hv (q : FVec Ideal S128x1024 .bf16) (qr : FVec Ideal S128x512 .bf16) (kr : FVec Ideal S256x32 .bf16)
    (kk vv : FVec Ideal S256x1024 .bf16) (h : Fin 16) (i : Fin 128) (dd : Fin 64) : EReal :=
  outOf (fun i t => (∑ d : Fin 64, q (ix2 i (hcol h d)) * kk (ix2 t (hcol h d)))
      + ∑ r : Fin 32, qr (ix2 i (rcol h r)) * kr (ix2 t r))
    (fun t dd => vv (ix2 t (hcol h dd))) i dd

theorem head_apply (h : Fin 16) (o1 o2 : Nat) (ho1 : o1 = 64 * h.val) (ho2 : o2 = 32 * h.val)
    (h1 : S128x1024.Slices ![0, o1] S128x64) (h2 : S128x512.Slices ![0, o2] S128x32)
    (h3 h4 : S256x1024.Slices ![0, o1] S256x64)
    (q : FVec Ideal S128x1024 .bf16) (qr : FVec Ideal S128x512 .bf16) (kr : FVec Ideal S256x32 .bf16)
    (kk vv : FVec Ideal S256x1024 .bf16) (i : Fin 128) (dd : Fin 64) :
    headOut o1 h4 vv (headScore o1 o2 h1 h2 h3 q qr kr kk) (ix2 i dd) = hv q qr kr kk vv h i dd := by
  refine (headOut_apply h o1 ho1 h4 vv _ i dd).trans ?_
  unfold hv
  exact congrArg (fun s => outOf s (fun t dd => vv (ix2 t (hcol h dd))) i dd)
    (funext fun i => funext fun t => headScore_apply h o1 o2 ho1 ho2 h1 h2 h3 q qr kr kk i t)

def headsCat (f : Fin 16 → FVec Ideal S128x64 .f32) : FVec Ideal S128x1024 .f32 :=
  concatenate S128x1024 1 [⟨S128x64, f 0⟩, ⟨S128x64, f 1⟩, ⟨S128x64, f 2⟩, ⟨S128x64, f 3⟩, ⟨S128x64, f 4⟩, ⟨S128x64, f 5⟩,
      ⟨S128x64, f 6⟩, ⟨S128x64, f 7⟩, ⟨S128x64, f 8⟩, ⟨S128x64, f 9⟩, ⟨S128x64, f 10⟩, ⟨S128x64, f 11⟩, ⟨S128x64, f 12⟩,
      ⟨S128x64, f 13⟩, ⟨S128x64, f 14⟩, ⟨S128x64, f 15⟩]
    concatenates_S128x64_S128x64_S128x64_S128x64_S128x64_S128x64_S128x64_S128x64_S128x64_S128x64_S128x64_S128x64_S128x64_S128x64_S128x64_S128x64_S128x1024_d1

theorem headsCat_apply (f : Fin 16 → FVec Ideal S128x64 .f32) (i : Fin 128) (n : Fin 1024) :
    headsCat f (ix2 i n) = f (headOf n) (ix2 i ⟨n.val % 64, Nat.mod_lt _ (by decide)⟩) := by
  unfold headsCat
  exact concatenate_ofFn_apply (t := S128x1024) (s₁ := S128x64) 1 f
    concatenates_S128x64_S128x64_S128x64_S128x64_S128x64_S128x64_S128x64_S128x64_S128x64_S128x64_S128x64_S128x64_S128x64_S128x64_S128x64_S128x64_S128x1024_d1
    rfl 64 rfl (ix2 i n) (headOf n) rfl (ix2 i ⟨n.val % 64, Nat.mod_lt _ (by decide)⟩) rfl
    (fun b => match b with | ⟨0, _⟩ => fun _ => rfl | ⟨1, _⟩ => fun hne => absurd rfl hne)

def outGen (f : Fin 16 → FVec Ideal S128x64 .f32) (wo : Vec Ideal S1024x1024 .f32) : FVec Ideal S128x1024 .f32 :=
  matmul dot_S128x1024_S1024x1024_S128x1024_1_0_0_1_n_n none (truncf .bf16 (headsCat f) bitsLt_bf16_f32)
    (truncf .bf16 (shapeCast S1024x1024 wo shapeCasts_S1024x1024_S1024x1024) bitsLt_bf16_f32)
    (constant S128x1024 .f32 0x00000000#32)

theorem outGen_apply (f : Fin 16 → FVec Ideal S128x64 .f32) (wo : Vec Ideal S1024x1024 .f32) (i : Fin 128) (e : Fin 1024) :
    outGen f wo (ix2 i e)
      = ∑ n : Fin 1024, f (headOf n) (ix2 i ⟨n.val % 64, Nat.mod_lt _ (by decide)⟩) * wo (ix2 n e) := by
  unfold outGen
  refine (matmul_nn_apply (m := 128) (k := 1024) (n := 1024) dot_S128x1024_S1024x1024_S128x1024_1_0_0_1_n_n_wf _ _ i e).trans ?_
  refine Finset.sum_congr rfl fun n _ => ?_
  exact congrArg₂ (· * ·) (headsCat_apply f i n) (congrFun (shapeCast_self wo shapeCasts_S1024x1024_S1024x1024) (ix2 n e))

theorem pay34_eq (vv : FVec Ideal S256x1024 .bf16) (a0 a1 a2 a3 a4 a5 a6 a7 a8 a9 a10 a11 a12 a13 a14 : FVec Ideal S128x64 .f32)
    (sc : FVec Ideal S128x256 .f32) (wo : Vec Ideal S1024x1024 .f32) :
    k0_pay34 vv a0 a1 a2 a3 a4 a5 a6 a7 a8 a9 a10 a11 a12 a13 a14 sc wo
      = outGen ![a0, a1, a2, a3, a4, a5, a6, a7, a8, a9, a10, a11, a12, a13, a14,
          headOut 960 slices_S256x1024_o0_960_S256x64 vv sc] wo := rfl

section Instances
variable (m : (ℓ : Loc Cert.KernelIdeal.nD Cert.KernelIdeal.τ Cert.KernelIdeal.sig) → Buf (Elt Ideal) ℓ) (d : Dev nD)
variable (i : Fin 128) (dd : Fin 64)

theorem hd0_eq : hd0 m d (ix2 i dd) = hv (qv m d) (qrv m d) (krv m d) (kk m d) (vv m d) 0 i dd :=
  head_apply 0 0 0 rfl rfl slices_S128x1024_o0_0_S128x64 slices_S128x512_o0_0_S128x32 slices_S256x1024_o0_0_S256x64
    slices_S256x1024_o0_0_S256x64 (qv m d) (qrv m d) (krv m d) (kk m d) (vv m d) i dd
theorem hd1_eq : hd1 m d (ix2 i dd) = hv (qv m d) (qrv m d) (krv m d) (kk m d) (vv m d) 1 i dd :=
  head_apply 1 64 32 rfl rfl slices_S128x1024_o0_64_S128x64 slices_S128x512_o0_32_S128x32 slices_S256x1024_o0_64_S256x64
    slices_S256x1024_o0_64_S256x64 (qv m d) (qrv m d) (krv m d) (kk m d) (vv m d) i dd
theorem hd2_eq : hd2 m d (ix2 i dd) = hv (qv m d) (qrv m d) (krv m d) (kk m d) (vv m d) 2 i dd :=
  head_apply 2 128 64 rfl rfl slices_S128x1024_o0_128_S128x64 slices_S128x512_o0_64_S128x32 slices_S256x1024_o0_128_S256x64
    slices_S256x1024_o0_128_S256x64 (qv m d) (qrv m d) (krv m d) (kk m d) (vv m d) i dd
theorem hd3_eq : hd3 m d (ix2 i dd) = hv (qv m d) (qrv m d) (krv m d) (kk m d) (vv m d) 3 i dd :=
  head_apply 3 192 96 rfl rfl slices_S128x1024_o0_192_S128x64 slices_S128x512_o0_96_S128x32 slices_S256x1024_o0_192_S256x64
    slices_S256x1024_o0_192_S256x64 (qv m d) (qrv m d) (krv m d) (kk m d) (vv m d) i dd
theorem hd4_eq : hd4 m d (ix2 i dd) = hv (qv m d) (qrv m d) (krv m d) (kk m d) (vv m d) 4 i dd :=
  head_apply 4 256 128 rfl rfl slices_S128x1024_o0_256_S128x64 slices_S128x512_o0_128_S128x32 slices_S256x1024_o0_256_S256x64
    slices_S256x1024_o0_256_S256x64 (qv m d) (qrv m d) (krv m d) (kk m d) (vv m d) i dd
theorem hd5_eq : hd5 m d (ix2 i dd) = hv (qv m d) (qrv m d) (krv m d) (kk m d) (vv m d) 5 i dd :=
  head_apply 5 320 160 rfl rfl slices_S128x1024_o0_320_S128x64 slices_S128x512_o0_160_S128x32 slices_S256x1024_o0_320_S256x64
    slices_S256x1024_o0_320_S256x64 (qv m d) (qrv m d) (krv m d) (kk m d) (vv m d) i dd
theorem hd6_eq : hd6 m d (ix2 i dd) = hv (qv m d) (qrv m d) (krv m d) (kk m d) (vv m d) 6 i dd :=
  head_apply 6 384 192 rfl rfl slices_S128x1024_o0_384_S128x64 slices_S128x512_o0_192_S128x32 slices_S256x1024_o0_384_S256x64
    slices_S256x1024_o0_384_S256x64 (qv m d) (qrv m d) (krv m d) (kk m d) (vv m d) i dd
theorem hd7_eq : hd7 m d (ix2 i dd) = hv (qv m d) (qrv m d) (krv m d) (kk m d) (vv m d) 7 i dd :=
  head_apply 7 448 224 rfl rfl slices_S128x1024_o0_448_S128x64 slices_S128x512_o0_224_S128x32 slices_S256x1024_o0_448_S256x64
    slices_S256x1024_o0_448_S256x64 (qv m d) (qrv m d) (krv m d) (kk m d) (vv m d) i dd
theorem hd8_eq : hd8 m d (ix2 i dd) = hv (qv m d) (qrv m d) (krv m d) (kk m d) (vv m d) 8 i dd :=
  head_apply 8 512 256 rfl rfl slices_S128x1024_o0_512_S128x64 slices_S128x512_o0_256_S128x32 slices_S256x1024_o0_512_S256x64
    slices_S256x1024_o0_512_S256x64 (qv m d) (qrv m d) (krv m d) (kk m d) (vv m d) i dd
theorem hd9_eq : hd9 m d (ix2 i dd) = hv (qv m d) (qrv m d) (krv m d) (kk m d) (vv m d) 9 i dd :=
  head_apply 9 576 288 rfl rfl slices_S128x1024_o0_576_S128x64 slices_S128x512_o0_288_S128x32 slices_S256x1024_o0_576_S256x64
    slices_S256x1024_o0_576_S256x64 (qv m d) (qrv m d) (krv m d) (kk m d) (vv m d) i dd
theorem hd10_eq : hd10 m d (ix2 i dd) = hv (qv m d) (qrv m d) (krv m d) (kk m d) (vv m d) 10 i dd :=
  head_apply 10 640 320 rfl rfl slices_S128x1024_o0_640_S128x64 slices_S128x512_o0_320_S128x32 slices_S256x1024_o0_640_S256x64
    slices_S256x1024_o0_640_S256x64 (qv m d) (qrv m d) (krv m d) (kk m d) (vv m d) i dd
theorem hd11_eq : hd11 m d (ix2 i dd) = hv (qv m d) (qrv m d) (krv m d) (kk m d) (vv m d) 11 i dd :=
  head_apply 11 704 352 rfl rfl slices_S128x1024_o0_704_S128x64 slices_S128x512_o0_352_S128x32 slices_S256x1024_o0_704_S256x64
    slices_S256x1024_o0_704_S256x64 (qv m d) (qrv m d) (krv m d) (kk m d) (vv m d) i dd
theorem hd12_eq : hd12 m d (ix2 i dd) = hv (qv m d) (qrv m d) (krv m d) (kk m d) (vv m d) 12 i dd :=
  head_apply 12 768 384 rfl rfl slices_S128x1024_o0_768_S128x64 slices_S128x512_o0_384_S128x32 slices_S256x1024_o0_768_S256x64
    slices_S256x1024_o0_768_S256x64 (qv m d) (qrv m d) (krv m d) (kk m d) (vv m d) i dd
theorem hd13_eq : hd13 m d (ix2 i dd) = hv (qv m d) (qrv m d) (krv m d) (kk m d) (vv m d) 13 i dd :=
  head_apply 13 832 416 rfl rfl slices_S128x1024_o0_832_S128x64 slices_S128x512_o0_416_S128x32 slices_S256x1024_o0_832_S256x64
    slices_S256x1024_o0_832_S256x64 (qv m d) (qrv m d) (krv m d) (kk m d) (vv m d) i dd
theorem hd14_eq : hd14 m d (ix2 i dd) = hv (qv m d) (qrv m d) (krv m d) (kk m d) (vv m d) 14 i dd :=
  head_apply 14 896 448 rfl rfl slices_S128x1024_o0_896_S128x64 slices_S128x512_o0_448_S128x32 slices_S256x1024_o0_896_S256x64
    slices_S256x1024_o0_896_S256x64 (qv m d) (qrv m d) (krv m d) (kk m d) (vv m d) i dd
theorem hd15_eq : headOut 960 slices_S256x1024_o0_960_S256x64 (vv m d) (sc15 m d) (ix2 i dd)
    = hv (qv m d) (qrv m d) (krv m d) (kk m d) (vv m d) 15 i dd :=
  head_apply 15 960 480 rfl rfl slices_S128x1024_o0_960_S128x64 slices_S128x512_o0_480_S128x32 slices_S256x1024_o0_960_S256x64
    slices_S256x1024_o0_960_S256x64 (qv m d) (qrv m d) (krv m d) (kk m d) (vv m d) i dd

end Instances

theorem hcol_headOf (n : Fin 1024) : hcol (headOf n) ⟨n.val % 64, Nat.mod_lt _ (by decide)⟩ = n :=
  Fin.ext (Nat.div_add_mod n.val 64)

section Assembly
variable (m : (ℓ : Loc Cert.KernelIdeal.nD Cert.KernelIdeal.τ Cert.KernelIdeal.sig) → Buf (Elt Ideal) ℓ) (d : Dev nD)

theorem heads_apply (h : Fin 16) (i : Fin 128) (dd : Fin 64) :
    (![hd0 m d, hd1 m d, hd2 m d, hd3 m d, hd4 m d, hd5 m d, hd6 m d, hd7 m d, hd8 m d, hd9 m d, hd10 m d, hd11 m d,
        hd12 m d, hd13 m d, hd14 m d, headOut 960 slices_S256x1024_o0_960_S256x64 (vv m d) (sc15 m d)]
      : Fin 16 → FVec Ideal S128x64 .f32) h (ix2 i dd)
      = hv (qv m d) (qrv m d) (krv m d) (kk m d) (vv m d) h i dd := by
  fin_cases h
  · exact hd0_eq m d i dd
  · exact hd1_eq m d i dd
  · exact hd2_eq m d i dd
  · exact hd3_eq m d i dd
  · exact hd4_eq m d i dd
  · exact hd5_eq m d i dd
  · exact hd6_eq m d i dd
  · exact hd7_eq m d i dd
  · exact hd8_eq m d i dd
  · exact hd9_eq m d i dd
  · exact hd10_eq m d i dd
  · exact hd11_eq m d i dd
  · exact hd12_eq m d i dd
  · exact hd13_eq m d i dd
  · exact hd14_eq m d i dd
  · exact hd15_eq m d i dd

theorem outF_hv (i : Fin 128) (e : Fin 1024) :
    outF m d (ix2 i e)
      = ∑ n : Fin 1024, hv (qv m d) (qrv m d) (krv m d) (kk m d) (vv m d) (headOf n) i ⟨n.val % 64, Nat.mod_lt _ (by decide)⟩
          * st7 m d (ix2 n e) := by
  unfold outF
  refine (congrFun (pay34_eq (vv m d) (hd0 m d) (hd1 m d) (hd2 m d) (hd3 m d) (hd4 m d) (hd5 m d) (hd6 m d) (hd7 m d) (hd8 m d)
    (hd9 m d) (hd10 m d) (hd11 m d) (hd12 m d) (hd13 m d) (hd14 m d) (sc15 m d) (st7 m d)) (ix2 i e)).trans ?_
  refine (outGen_apply _ _ i e).trans ?_
  refine Finset.sum_congr rfl fun n _ => ?_
  exact congrArg (· * st7 m d (ix2 n e)) (heads_apply m d (headOf n) i _)

theorem outB_outF (c : Dev nD) (i : Fin 128) (e : Fin 1024) : outB m c (ix3 (0 : Fin 1) i e) = outF m c (ix2 i e) :=
  shapeCast_ab_1ab_apply (truncf .bf16 (outF m c) bitsLt_bf16_f32 : FVec Ideal S128x1024 .bf16) shapeCasts_S128x1024_S1x128x1024 0 i e

theorem blkOwn_outF (i : Fin 128) (e : Fin 1024) : blkOwn m d (ix3 (0 : Fin 1) i e) = outF m d (ix2 i e) :=
  shapeCast_ab_1ab_apply (outF m d) shapeCasts_S128x1024_S1x128x1024 0 i e

theorem unstage_apply (v : Vec Ideal S1x128x1024 .bf16) (i : Fin 128) (e : Fin 1024) :
    shapeCast S1x128x1024 (extf .f32 (shapeCast S128x1024 v shapeCasts_S1x128x1024_S128x1024 : FVec Ideal S128x1024 .bf16) bitsLt_bf16_f32 : FVec Ideal S128x1024 .f32)
        shapeCasts_S128x1024_S1x128x1024 (ix3 (0 : Fin 1) i e)
      = v (ix3 (0 : Fin 1) i e) :=
  (shapeCast_ab_1ab_apply _ shapeCasts_S128x1024_S1x128x1024 0 i e).trans
    (shapeCast_1ab_ab_apply v shapeCasts_S1x128x1024_S128x1024 i e)

theorem blkZ_outF (i : Fin 128) (e : Fin 1024) : blkZ m d (ix3 (0 : Fin 1) i e) = outF m (peer 1 d) (ix2 i e) :=
  (unstage_apply (outB m (peer 1 d)) i e).trans (outB_outF m (peer 1 d) i e)
theorem blkY_outF (i : Fin 128) (e : Fin 1024) : blkY m d (ix3 (0 : Fin 1) i e) = outF m (peer 2 d) (ix2 i e) :=
  (unstage_apply (outB m (peer 2 d)) i e).trans (outB_outF m (peer 2 d) i e)
theorem blkYZ_outF (i : Fin 128) (e : Fin 1024) : blkYZ m d (ix3 (0 : Fin 1) i e) = outF m (peer 3 d) (ix2 i e) :=
  (unstage_apply (outB m (peer 3 d)) i e).trans (outB_outF m (peer 3 d) i e)

end Assembly

end Heads

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

variable (hag : Cert.Mla.Agree m m') (d : Dev nD)
include hag

theorem outF_eq (i : Fin 128) (e : Fin 1024) :
    outF m d (ix2 i e)
      = outK (wX m') (wWdkv m') (wWuk m') (wWuv m') (wWq m') (wWqr m') (wWkr m') (wWo m') (yOf d) (qrow d i) e := by
  refine (Heads.outF_hv m d i e).trans ?_
  unfold outK
  refine Finset.sum_congr rfl fun n _ => ?_
  refine congrArg₂ (· * ·) ?_ (congrFun (st7_eq m m' hag d) (ix2 n e))
  unfold Heads.hv Heads.outOf attK score
  simp only [qv_eq m m' hag d, qrv_eq m m' hag d, krv_eq m m' hag d, kk_eq m m' hag d, vv_eq m m' hag d,
    Heads.hcol_headOf]

theorem blkOwn_eq (i : Fin 128) (e : Fin 1024) :
    blkOwn m d (ix3 (0 : Fin 1) i e)
      = outK (wX m') (wWdkv m') (wWuk m') (wWuv m') (wWq m') (wWqr m') (wWkr m') (wWo m') (yOf d) (qrow d i) e :=
  (Heads.blkOwn_outF m d i e).trans (outF_eq m m' hag d i e)
theorem blkZ_eq (i : Fin 128) (e : Fin 1024) :
    blkZ m d (ix3 (0 : Fin 1) i e)
      = outK (wX m') (wWdkv m') (wWuk m') (wWuv m') (wWq m') (wWqr m') (wWkr m') (wWo m') (yOf (peer 1 d)) (qrow (peer 1 d) i) e :=
  (Heads.blkZ_outF m d i e).trans (outF_eq m m' hag (peer 1 d) i e)
theorem blkY_eq (i : Fin 128) (e : Fin 1024) :
    blkY m d (ix3 (0 : Fin 1) i e)
      = outK (wX m') (wWdkv m') (wWuk m') (wWuv m') (wWq m') (wWqr m') (wWkr m') (wWo m') (yOf (peer 2 d)) (qrow (peer 2 d) i) e :=
  (Heads.blkY_outF m d i e).trans (outF_eq m m' hag (peer 2 d) i e)
theorem blkYZ_eq (i : Fin 128) (e : Fin 1024) :
    blkYZ m d (ix3 (0 : Fin 1) i e)
      = outK (wX m') (wWdkv m') (wWuk m') (wWuv m') (wWq m') (wWqr m') (wWkr m') (wWo m') (yOf (peer 3 d)) (qrow (peer 3 d) i) e :=
  (Heads.blkYZ_outF m d i e).trans (outF_eq m m' hag (peer 3 d) i e)

end Cert.KernelIdealProof

end
-- ==== Proof.KernelValueC.lean ====
import proofs.«900964_g7700000000000965_dist_mla_v7x_xyz2x2x2_x_b2_s256_d1024_dc64_f32_1_alg».proof.Proof.KernelValueB
import proofs.«900964_g7700000000000965_dist_mla_v7x_xyz2x2x2_x_b2_s256_d1024_dc64_f32_1_alg».proof.Proof.Data

noncomputable section

open scoped BigOperators

namespace Cert.KernelIdealProof

open Cert.KernelIdeal Cert.KernelIdeal.Gen
open Idealize.ShloMosaic Idealize.ShloMosaic.TcCoe Idealize.ShloMosaic.ValueIdx Idealize.SL.Sem
open Cert.Mla

private theorem yOf_peer1 (c : Dev nD) : (yOf (peer 1 c)).val = (yOf c).val := by revert c; decide
private theorem zOf_peer1 (c : Dev nD) : (zOf (peer 1 c)).val = 1 - (zOf c).val := by revert c; decide
private theorem yOf_peer2 (c : Dev nD) : (yOf (peer 2 c)).val = 1 - (yOf c).val := by revert c; decide
private theorem zOf_peer2 (c : Dev nD) : (zOf (peer 2 c)).val = (zOf c).val := by revert c; decide
private theorem yOf_peer3 (c : Dev nD) : (yOf (peer 3 c)).val = 1 - (yOf c).val := by revert c; decide
private theorem zOf_peer3 (c : Dev nD) : (zOf (peer 3 c)).val = 1 - (zOf c).val := by revert c; decide

private theorem place (d : Dev nD) (a : Fin 2) (s : Fin 256) (hy : (yOf d).val = a.val) (hz : (zOf d).val = s.val / 128) :
    yOf d = a ∧ qrow d ⟨s.val % 128, Nat.mod_lt _ (by decide)⟩ = s := by
  refine ⟨Fin.ext hy, Fin.ext ?_⟩
  show 128 * (zOf d).val + s.val % 128 = s.val
  rw [hz]; exact Nat.div_add_mod _ _

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (hag : Cert.Mla.Agree m m') (c : Dev nD)
include hag

theorem outFinal_eq :
    (outFinal m c : (⟨3, ![2, 256, 1024]⟩ : Shape).Idx → EReal)
      = fun i => outK (wX m') (wWdkv m') (wWuk m') (wWuv m') (wWq m') (wWqr m') (wWkr m') (wWo m') (i 0) (i 1) (i 2) := by
  funext i
  obtain ⟨a, s, e, rfl⟩ : ∃ (a : Fin 2) (s : Fin 256) (e : Fin 1024), i = ix3 a s e := ⟨i 0, i 1, i 2, eq_ix3 i⟩
  have hy := (yOf c).isLt
  have hz := (zOf c).isLt
  have hq : s.val / 128 < 2 := Nat.div_lt_of_lt_mul (by have := s.isLt; omega)
  show (if a.val = (yOf c).val then
      (if s.val / 128 = (zOf c).val then blkOwn m c (ix3 (0 : Fin 1) (⟨s.val % 128, Nat.mod_lt _ (by decide)⟩ : Fin 128) e)
        else blkZ m c (ix3 (0 : Fin 1) (⟨s.val % 128, Nat.mod_lt _ (by decide)⟩ : Fin 128) e))
    else
      (if s.val / 128 = (zOf c).val then blkY m c (ix3 (0 : Fin 1) (⟨s.val % 128, Nat.mod_lt _ (by decide)⟩ : Fin 128) e)
        else blkYZ m c (ix3 (0 : Fin 1) (⟨s.val % 128, Nat.mod_lt _ (by decide)⟩ : Fin 128) e)))
    = outK (wX m') (wWdkv m') (wWuk m') (wWuv m') (wWq m') (wWqr m') (wWkr m') (wWo m') a s e
  by_cases hy0 : a.val = (yOf c).val <;> by_cases hz0 : s.val / 128 = (zOf c).val
  · obtain ⟨e1, e2⟩ := place c a s hy0.symm hz0.symm
    rw [if_pos hy0, if_pos hz0, blkOwn_eq m m' hag c, e1, e2]
  · obtain ⟨e1, e2⟩ := place (peer 1 c) a s (by rw [yOf_peer1]; exact hy0.symm) (by rw [zOf_peer1]; omega)
    rw [if_pos hy0, if_neg hz0, blkZ_eq m m' hag c, e1, e2]
  · obtain ⟨e1, e2⟩ := place (peer 2 c) a s (by rw [yOf_peer2]; have := a.isLt; omega) (by rw [zOf_peer2]; exact hz0.symm)
    rw [if_neg hy0, if_pos hz0, blkY_eq m m' hag c, e1, e2]
  · obtain ⟨e1, e2⟩ := place (peer 3 c) a s (by rw [yOf_peer3]; have := a.isLt; omega) (by rw [zOf_peer3]; omega)
    rw [if_neg hy0, if_neg hz0, blkYZ_eq m m' hag c, e1, e2]

end Cert.KernelIdealProof

end
-- ==== Proof.RefValue.lean ====
import proofs.«900964_g7700000000000965_dist_mla_v7x_xyz2x2x2_x_b2_s256_d1024_dc64_f32_1_alg».proof.Proof.Gen.ReferenceIdeal.Read
import proofs.«900964_g7700000000000965_dist_mla_v7x_xyz2x2x2_x_b2_s256_d1024_dc64_f32_1_alg».proof.Proof.Spec
import Idealize.ShloMosaic.PureOps.Reduce
import Idealize.ShloMosaic.PureOps.Ideal.Laws
import Idealize.ShloMosaic.Lib.ValueIdx
import Mathlib.Data.Finset.Fold
import Mathlib.Data.Finset.Lattice.Fold

noncomputable section

open scoped BigOperators

namespace Cert.Mla.Ref

open Cert.ReferenceIdeal Idealize.ShloMosaic Idealize.ShloMosaic.TcCoe Idealize.ShloMosaic.ValueIdx Idealize.SL.Sem

section Stages
variable (X : TX) (Wdkv : TWdkv) (Wuk Wuv : TWu) (Wq : TWq) (Wqr : TWqr) (Wkr : TWkr) (Wo : TWq)

theorem lat_eq (b : Fin 2) (s : Fin 256) (j : Fin 128) :
    Read.val_main_v0 (F := Ideal) X Wdkv (ix3 b s j) = lat X Wdkv b s j := by
  rw [Read.val_main_v0_apply]
  unfold lat
  refine Finset.sum_congr rfl fun k _ => ?_
  have e1 : Read.lidx_main_v0 (ix3 b s j) k = ix3 b s k :=
    funext fun a => by match a with | ⟨0, _⟩ => rfl | ⟨1, _⟩ => rfl | ⟨2, _⟩ => rfl
  have e2 : Read.ridx_main_v0 (ix3 b s j) k = ix2 k j :=
    funext fun a => by match a with | ⟨0, _⟩ => rfl | ⟨1, _⟩ => rfl
  rw [e1, e2]

theorem keyF_eq (b : Fin 2) (s : Fin 256) (n : Fin 1024) :
    Read.val_main_v1 (F := Ideal) X Wdkv Wuk (ix3 b s n) = keyF X Wdkv Wuk b s n := by
  rw [Read.val_main_v1_apply]
  unfold keyF
  refine Finset.sum_congr rfl fun k _ => ?_
  have e1 : Read.lidx_main_v1 (ix3 b s n) k = ix3 b s k :=
    funext fun a => by match a with | ⟨0, _⟩ => rfl | ⟨1, _⟩ => rfl | ⟨2, _⟩ => rfl
  have e2 : Read.ridx_main_v1 (ix3 b s n) k = ix2 k n :=
    funext fun a => by match a with | ⟨0, _⟩ => rfl | ⟨1, _⟩ => rfl
  rw [e1, e2, lat_eq]

theorem valF_eq (b : Fin 2) (s : Fin 256) (n : Fin 1024) :
    Read.val_main_v3 (F := Ideal) X Wdkv Wuv (ix3 b s n) = valF X Wdkv Wuv b s n := by
  rw [Read.val_main_v3_apply]
  unfold valF
  refine Finset.sum_congr rfl fun k _ => ?_
  have e1 : Read.lidx_main_v3 (ix3 b s n) k = ix3 b s k :=
    funext fun a => by match a with | ⟨0, _⟩ => rfl | ⟨1, _⟩ => rfl | ⟨2, _⟩ => rfl
  have e2 : Read.ridx_main_v3 (ix3 b s n) k = ix2 k n :=
    funext fun a => by match a with | ⟨0, _⟩ => rfl | ⟨1, _⟩ => rfl
  rw [e1, e2, lat_eq]

theorem qryF_eq (b : Fin 2) (s : Fin 256) (n : Fin 1024) :
    Read.val_main_v5 (F := Ideal) X Wq (ix3 b s n) = qryF X Wq b s n := by
  rw [Read.val_main_v5_apply]
  unfold qryF
  refine Finset.sum_congr rfl fun k _ => ?_
  have e1 : Read.lidx_main_v5 (ix3 b s n) k = ix3 b s k :=
    funext fun a => by match a with | ⟨0, _⟩ => rfl | ⟨1, _⟩ => rfl | ⟨2, _⟩ => rfl
  have e2 : Read.ridx_main_v5 (ix3 b s n) k = ix2 k n :=
    funext fun a => by match a with | ⟨0, _⟩ => rfl | ⟨1, _⟩ => rfl
  rw [e1, e2]

theorem qrF_eq (b : Fin 2) (s : Fin 256) (p : Fin 512) :
    Read.val_main_v7 (F := Ideal) X Wqr (ix3 b s p) = qrF X Wqr b s p := by
  rw [Read.val_main_v7_apply]
  unfold qrF
  refine Finset.sum_congr rfl fun k _ => ?_
  have e1 : Read.lidx_main_v7 (ix3 b s p) k = ix3 b s k :=
    funext fun a => by match a with | ⟨0, _⟩ => rfl | ⟨1, _⟩ => rfl | ⟨2, _⟩ => rfl
  have e2 : Read.ridx_main_v7 (ix3 b s p) k = ix2 k p :=
    funext fun a => by match a with | ⟨0, _⟩ => rfl | ⟨1, _⟩ => rfl
  rw [e1, e2]

theorem krF_eq (b : Fin 2) (s : Fin 256) (r : Fin 32) :
    Read.val_main_v9 (F := Ideal) X Wkr (ix3 b s r) = krF X Wkr b s r := by
  rw [Read.val_main_v9_apply]
  unfold krF
  refine Finset.sum_congr rfl fun k _ => ?_
  have e1 : Read.lidx_main_v9 (ix3 b s r) k = ix3 b s k :=
    funext fun a => by match a with | ⟨0, _⟩ => rfl | ⟨1, _⟩ => rfl | ⟨2, _⟩ => rfl
  have e2 : Read.ridx_main_v9 (ix3 b s r) k = ix2 k r :=
    funext fun a => by match a with | ⟨0, _⟩ => rfl | ⟨1, _⟩ => rfl
  rw [e1, e2]

theorem idx_split64 (b : Fin 2) (s : Fin 256) (h : Fin 16) (d : Fin 64) :
    Read.idx_main_v2 (ix4 b s h d) = ix3 b s (hcol h d) := by
  have hb := b.isLt; have hs := s.isLt; have hh := h.isLt; have hd := d.isLt
  funext a
  match a with
  | ⟨0, _⟩ => exact Fin.ext (by show (((b.val * 256 + s.val) * 16 + h.val) * 64 + d.val) / 262144 = b.val; omega)
  | ⟨1, _⟩ => exact Fin.ext (by show (((b.val * 256 + s.val) * 16 + h.val) * 64 + d.val) / 1024 % 256 = s.val; omega)
  | ⟨2, _⟩ => exact Fin.ext (by show (((b.val * 256 + s.val) * 16 + h.val) * 64 + d.val) % 1024 = 64 * h.val + d.val; omega)

theorem idx_split32 (b : Fin 2) (s : Fin 256) (h : Fin 16) (r : Fin 32) :
    Read.idx_main_v8 (ix4 b s h r) = ix3 b s (rcol h r) := by
  have hb := b.isLt; have hs := s.isLt; have hh := h.isLt; have hr := r.isLt
  funext a
  match a with
  | ⟨0, _⟩ => exact Fin.ext (by show (((b.val * 256 + s.val) * 16 + h.val) * 32 + r.val) / 131072 = b.val; omega)
  | ⟨1, _⟩ => exact Fin.ext (by show (((b.val * 256 + s.val) * 16 + h.val) * 32 + r.val) / 512 % 256 = s.val; omega)
  | ⟨2, _⟩ => exact Fin.ext (by show (((b.val * 256 + s.val) * 16 + h.val) * 32 + r.val) % 512 = 32 * h.val + r.val; omega)

theorem idx_unit (b : Fin 2) (s : Fin 256) (z : Fin 1) (r : Fin 32) :
    Read.idx_main_v10 (ix4 b s z r) = ix3 b s r := by
  have hb := b.isLt; have hs := s.isLt; have hz := z.isLt; have hr := r.isLt
  funext a
  match a with
  | ⟨0, _⟩ => exact Fin.ext (by show (((b.val * 256 + s.val) * 1 + z.val) * 32 + r.val) / 8192 = b.val; omega)
  | ⟨1, _⟩ => exact Fin.ext (by show (((b.val * 256 + s.val) * 1 + z.val) * 32 + r.val) / 32 % 256 = s.val; omega)
  | ⟨2, _⟩ => exact Fin.ext (by show (((b.val * 256 + s.val) * 1 + z.val) * 32 + r.val) % 32 = r.val; omega)

theorem keyH_eq (b : Fin 2) (s : Fin 256) (h : Fin 16) (d : Fin 64) :
    Read.val_main_v2 (F := Ideal) X Wdkv Wuk (ix4 b s h d) = keyF X Wdkv Wuk b s (hcol h d) := by
  rw [Read.val_main_v2_apply, idx_split64, keyF_eq]

theorem valH_eq (b : Fin 2) (s : Fin 256) (h : Fin 16) (d : Fin 64) :
    Read.val_main_v4 (F := Ideal) X Wdkv Wuv (ix4 b s h d) = valF X Wdkv Wuv b s (hcol h d) := by
  rw [Read.val_main_v4_apply, show Read.idx_main_v4 (ix4 b s h d) = ix3 b s (hcol h d) from idx_split64 b s h d, valF_eq]

theorem qryH_eq (b : Fin 2) (s : Fin 256) (h : Fin 16) (d : Fin 64) :
    Read.val_main_v6 (F := Ideal) X Wq (ix4 b s h d) = qryF X Wq b s (hcol h d) := by
  rw [Read.val_main_v6_apply, show Read.idx_main_v6 (ix4 b s h d) = ix3 b s (hcol h d) from idx_split64 b s h d, qryF_eq]

theorem qrH_eq (b : Fin 2) (s : Fin 256) (h : Fin 16) (r : Fin 32) :
    Read.val_main_v8 (F := Ideal) X Wqr (ix4 b s h r) = qrF X Wqr b s (rcol h r) := by
  rw [Read.val_main_v8_apply, idx_split32, qrF_eq]

theorem krH_eq (b : Fin 2) (s : Fin 256) (h : Fin 16) (r : Fin 32) :
    Read.val_main_v12 (F := Ideal) X Wkr (ix4 b s h r) = krF X Wkr b s r := by
  rw [Read.val_main_v12_apply, Read.val_main_v10_apply]
  have e : Read.idx_main_v12 (ix4 b s h r) = ix4 b s (0 : Fin 1) r :=
    funext fun a => by match a with | ⟨0, _⟩ => rfl | ⟨1, _⟩ => rfl | ⟨2, _⟩ => rfl | ⟨3, _⟩ => rfl
  rw [e, idx_unit, krF_eq]

theorem scale_eq (i : S2x16x256x256.Idx) : Read.val_main_v15 (F := Ideal) i = scale := by
  rw [Read.val_main_v15_apply, Read.val_main_cst_apply]
  rfl

theorem score_eq (b : Fin 2) (h : Fin 16) (s t : Fin 256) :
    Read.val_main_v16 (F := Ideal) X Wdkv Wuk Wq Wqr Wkr (ix4 b h s t)
      = score X Wdkv Wuk Wq Wqr Wkr b h s t := by
  rw [Read.val_main_v16_apply, Read.val_main_v14_apply, scale_eq, Read.val_main_v11_apply, Read.val_main_v13_apply]
  unfold score
  have e1 : ∀ k : Fin 64, Read.lidx_main_v11 (ix4 b h s t) k = ix4 b s h k := fun k =>
    funext fun a => by match a with | ⟨0, _⟩ => rfl | ⟨1, _⟩ => rfl | ⟨2, _⟩ => rfl | ⟨3, _⟩ => rfl
  have e2 : ∀ k : Fin 64, Read.ridx_main_v11 (ix4 b h s t) k = ix4 b t h k := fun k =>
    funext fun a => by match a with | ⟨0, _⟩ => rfl | ⟨1, _⟩ => rfl | ⟨2, _⟩ => rfl | ⟨3, _⟩ => rfl
  have e3 : ∀ k : Fin 32, Read.lidx_main_v13 (ix4 b h s t) k = ix4 b s h k := fun k =>
    funext fun a => by match a with | ⟨0, _⟩ => rfl | ⟨1, _⟩ => rfl | ⟨2, _⟩ => rfl | ⟨3, _⟩ => rfl
  have e4 : ∀ k : Fin 32, Read.ridx_main_v13 (ix4 b h s t) k = ix4 b t h k := fun k =>
    funext fun a => by match a with | ⟨0, _⟩ => rfl | ⟨1, _⟩ => rfl | ⟨2, _⟩ => rfl | ⟨3, _⟩ => rfl
  simp only [e1, e2, e3, e4, qryH_eq, keyH_eq, qrH_eq, krH_eq, Ideal.mulf_def, Ideal.addf_def]

theorem negInf_eq : Ideal.ofBits .f32 0xFF800000#32 = (⊥ : EReal) := by
  simp [Ideal.ofBits, Ideal.ieee]

theorem fold_congr_op {α β : Type} (op₁ op₂ : α → α → α) [Std.Commutative op₁] [Std.Associative op₁]
    [Std.Commutative op₂] [Std.Associative op₂] (e : op₁ = op₂) (z : α) (f : β → α) (S : Finset β) :
    S.fold op₁ z f = S.fold op₂ z f := by
  subst e
  rfl

theorem lift_ix3 (R : S2x16x256x256.Reduces [3] S2x16x256) (b : Fin 2) (h : Fin 16) (s : Fin 256)
    (t : Fin (S2x16x256x256.size 3)) : R.lift (ix3 b h s) t = ix4 b h s (⟨t.val, t.isLt⟩ : Fin 256) := by
  funext c
  apply Fin.ext
  fin_cases c <;> rfl

theorem rowMax_eq (b : Fin 2) (h : Fin 16) (s : Fin 256) :
    Read.val_main_v17 (F := Ideal) X Wdkv Wuk Wq Wqr Wkr (ix3 b h s)
      = rowMax X Wdkv Wuk Wq Wqr Wkr b h s := by
  have R : S2x16x256x256.Reduces [3] S2x16x256 := by decide
  unfold Read.val_main_v17 rowMax
  rw [Host.reduce_eq_fold_single FloatOps.maximumf _ _ _ R _]
  unfold Finset.sup
  have ef : (Read.val_main_v16 (F := Ideal) X Wdkv Wuk Wq Wqr Wkr ∘ R.lift (ix3 b h s))
      = fun t : Fin 256 => score X Wdkv Wuk Wq Wqr Wkr b h s t := funext fun t => by
    show Read.val_main_v16 (F := Ideal) X Wdkv Wuk Wq Wqr Wkr (R.lift (ix3 b h s) t) = _
    rw [lift_ix3, score_eq]
    rfl
  have ez : Read.val_main_cst_0 (F := Ideal) (Shape.Idx.first Facts₀.h_S_) = (⊥ : EReal) := by
    rw [Read.val_main_cst_0_apply]
    exact negInf_eq
  rw [ef, ez]
  exact fold_congr_op _ _ (funext fun x => funext fun y => rfl) _ _ _

theorem shift_eq (b : Fin 2) (h : Fin 16) (s t : Fin 256) :
    Read.val_main_v19 (F := Ideal) X Wdkv Wuk Wq Wqr Wkr (ix4 b h s t)
      = rowMax X Wdkv Wuk Wq Wqr Wkr b h s := by
  rw [Read.val_main_v19_apply, Read.val_main_v18_apply]
  have e : Read.idx_main_v18 (Read.idx_main_v19 (ix4 b h s t)) = ix3 b h s :=
    funext fun a => by match a with | ⟨0, _⟩ => rfl | ⟨1, _⟩ => rfl | ⟨2, _⟩ => rfl
  rw [e, rowMax_eq]

theorem expo_eq (b : Fin 2) (h : Fin 16) (s t : Fin 256) :
    Read.val_main_v21 (F := Ideal) X Wdkv Wuk Wq Wqr Wkr (ix4 b h s t)
      = Ideal.exp (score X Wdkv Wuk Wq Wqr Wkr b h s t - rowMax X Wdkv Wuk Wq Wqr Wkr b h s) := by
  rw [Read.val_main_v21_apply, Read.val_main_v20_apply, score_eq, shift_eq]
  rfl

theorem total_eq (b : Fin 2) (h : Fin 16) (s : Fin 256) :
    Read.val_main_v22 (F := Ideal) X Wdkv Wuk Wq Wqr Wkr (ix3 b h s)
      = ∑ t : Fin 256, Ideal.exp (score X Wdkv Wuk Wq Wqr Wkr b h s t - rowMax X Wdkv Wuk Wq Wqr Wkr b h s) := by
  rw [Read.val_main_v22_apply, Read.val_main_cst_1_apply, Ideal.ofBits_def, Ideal.ofBits_zero_f32, zero_add]
  refine Finset.sum_congr rfl fun k _ => ?_
  have e : Read.idx_main_v22 (ix3 b h s) k = ix4 b h s k :=
    funext fun a => by match a with | ⟨0, _⟩ => rfl | ⟨1, _⟩ => rfl | ⟨2, _⟩ => rfl | ⟨3, _⟩ => rfl
  rw [e, expo_eq]

theorem prob_eq (b : Fin 2) (h : Fin 16) (s t : Fin 256) :
    Read.val_main_v25 (F := Ideal) X Wdkv Wuk Wq Wqr Wkr (ix4 b h s t)
      = prob X Wdkv Wuk Wq Wqr Wkr (rowMax X Wdkv Wuk Wq Wqr Wkr) b h s t := by
  rw [Read.val_main_v25_apply, expo_eq, Read.val_main_v24_apply, Read.val_main_v23_apply]
  have e : Read.idx_main_v23 (Read.idx_main_v24 (ix4 b h s t)) = ix3 b h s :=
    funext fun a => by match a with | ⟨0, _⟩ => rfl | ⟨1, _⟩ => rfl | ⟨2, _⟩ => rfl
  rw [e, total_eq]
  rfl

theorem hcol_headOf (n : Fin 1024) : hcol (headOf n) (⟨n.val % 64, Nat.mod_lt _ (by norm_num)⟩ : Fin 64) = n := by
  apply Fin.ext
  show 64 * (n.val / 64) + n.val % 64 = n.val
  omega

theorem idx_merge64 (b : Fin 2) (s : Fin 256) (n : Fin 1024) :
    Read.idx_main_v28 (ix3 b s n)
      = ix4 b s (headOf n) (⟨n.val % 64, Nat.mod_lt _ (by norm_num)⟩ : Fin 64) := by
  have hb := b.isLt; have hs := s.isLt; have hn := n.isLt
  funext a
  match a with
  | ⟨0, _⟩ => exact Fin.ext (by show ((b.val * 256 + s.val) * 1024 + n.val) / 262144 = b.val; omega)
  | ⟨1, _⟩ => exact Fin.ext (by show ((b.val * 256 + s.val) * 1024 + n.val) / 1024 % 256 = s.val; omega)
  | ⟨2, _⟩ => exact Fin.ext (by show ((b.val * 256 + s.val) * 1024 + n.val) / 64 % 16 = n.val / 64; omega)
  | ⟨3, _⟩ => exact Fin.ext (by show ((b.val * 256 + s.val) * 1024 + n.val) % 64 = n.val % 64; omega)

theorem attH_eq (b : Fin 2) (h : Fin 16) (d : Fin 64) (s : Fin 256) :
    Read.val_main_v26 (F := Ideal) X Wdkv Wuk Wuv Wq Wqr Wkr (ix4 b h d s)
      = ∑ t : Fin 256, valF X Wdkv Wuv b t (hcol h d)
          * prob X Wdkv Wuk Wq Wqr Wkr (rowMax X Wdkv Wuk Wq Wqr Wkr) b h s t := by
  rw [Read.val_main_v26_apply]
  refine Finset.sum_congr rfl fun k _ => ?_
  have e1 : Read.lidx_main_v26 (ix4 b h d s) k = ix4 b k h d :=
    funext fun a => by match a with | ⟨0, _⟩ => rfl | ⟨1, _⟩ => rfl | ⟨2, _⟩ => rfl | ⟨3, _⟩ => rfl
  have e2 : Read.ridx_main_v26 (ix4 b h d s) k = ix4 b h s k :=
    funext fun a => by match a with | ⟨0, _⟩ => rfl | ⟨1, _⟩ => rfl | ⟨2, _⟩ => rfl | ⟨3, _⟩ => rfl
  rw [e1, e2, valH_eq, prob_eq]

theorem attR_eq (b : Fin 2) (s : Fin 256) (n : Fin 1024) :
    Read.val_main_v28 (F := Ideal) X Wdkv Wuk Wuv Wq Wqr Wkr (ix3 b s n)
      = attR X Wdkv Wuk Wuv Wq Wqr Wkr (rowMax X Wdkv Wuk Wq Wqr Wkr) b s n := by
  rw [Read.val_main_v28_apply, idx_merge64, Read.val_main_v27_apply]
  have e : Read.idx_main_v27 (ix4 b s (headOf n) (⟨n.val % 64, Nat.mod_lt _ (by norm_num)⟩ : Fin 64))
      = ix4 b (headOf n) (⟨n.val % 64, Nat.mod_lt _ (by norm_num)⟩ : Fin 64) s :=
    funext fun a => by match a with | ⟨0, _⟩ => rfl | ⟨1, _⟩ => rfl | ⟨2, _⟩ => rfl | ⟨3, _⟩ => rfl
  rw [e, attH_eq, hcol_headOf]
  rfl

theorem outR_eq (b : Fin 2) (s : Fin 256) (e : Fin 1024) :
    Read.val_main_v29 (F := Ideal) X Wdkv Wuk Wuv Wq Wqr Wkr Wo (ix3 b s e)
      = outR X Wdkv Wuk Wuv Wq Wqr Wkr Wo (rowMax X Wdkv Wuk Wq Wqr Wkr) b s e := by
  rw [Read.val_main_v29_apply]
  unfold outR
  refine Finset.sum_congr rfl fun k _ => ?_
  have e1 : Read.lidx_main_v29 (ix3 b s e) k = ix3 b s k :=
    funext fun a => by match a with | ⟨0, _⟩ => rfl | ⟨1, _⟩ => rfl | ⟨2, _⟩ => rfl
  have e2 : Read.ridx_main_v29 (ix3 b s e) k = ix2 k e :=
    funext fun a => by match a with | ⟨0, _⟩ => rfl | ⟨1, _⟩ => rfl
  rw [e1, e2, attR_eq]

end Stages

variable (m : (ℓ : Loc nD τ sig) → Buf (Elt Ideal) ℓ) (c : Dev nD)

abbrev aX : TX := m ((c.tc : Thread nD τ).loc main_arg0)
abbrev aWdkv : TWdkv := m ((c.tc : Thread nD τ).loc main_arg1)
abbrev aWuk : TWu := m ((c.tc : Thread nD τ).loc main_arg2)
abbrev aWuv : TWu := m ((c.tc : Thread nD τ).loc main_arg3)
abbrev aWq : TWq := m ((c.tc : Thread nD τ).loc main_arg4)
abbrev aWqr : TWqr := m ((c.tc : Thread nD τ).loc main_arg5)
abbrev aWkr : TWkr := m ((c.tc : Thread nD τ).loc main_arg6)
abbrev aWo : TWq := m ((c.tc : Thread nD τ).loc main_arg7)

def refOut : (⟨3, ![2, 256, 1024]⟩ : Shape).Idx → EReal := fun i =>
  outR (aX m c) (aWdkv m c) (aWuk m c) (aWuv m c) (aWq m c) (aWqr m c) (aWkr m c) (aWo m c)
    (rowMax (aX m c) (aWdkv m c) (aWuk m c) (aWq m c) (aWqr m c) (aWkr m c)) (i 0) (i 1) (i 2)

theorem res_eq : Cert.ReferenceIdeal.Value.res_main_v29 m c = refOut m c := by
  rw [Read.val_main_v29_eq]
  funext i
  obtain ⟨b, s, e, rfl⟩ : ∃ b s e, i = ix3 b s e := ⟨i 0, i 1, i 2, eq_ix3 i⟩
  exact outR_eq (aX m c) (aWdkv m c) (aWuk m c) (aWuv m c) (aWq m c) (aWqr m c) (aWkr m c) (aWo m c) b s e

end Cert.Mla.Ref

end
-- ==== Proof.SoftmaxLaw.lean ====
import proofs.«900964_g7700000000000965_dist_mla_v7x_xyz2x2x2_x_b2_s256_d1024_dc64_f32_1_alg».proof.Proof.Spec
import Mathlib.Data.EReal.Basic
import Mathlib.Data.EReal.Operations
import Mathlib.Analysis.SpecialFunctions.Exp
import Mathlib.Order.Fin.Basic
import Mathlib.Tactic.FieldSimp
import Mathlib.Tactic.Ring

noncomputable section

open scoped BigOperators

namespace Cert.Mla

open Idealize.ShloMosaic Idealize.ShloMosaic.ValueIdx

private theorem real_of {x : EReal} (h : x ≠ ⊥ ∧ x ≠ ⊤) : ∃ r : ℝ, x = (r : EReal) :=
  ⟨x.toReal, (EReal.coe_toReal h.2 h.1).symm⟩

private theorem coe_real (r : ℝ) : (r : EReal) ≠ ⊥ ∧ (r : EReal) ≠ ⊤ :=
  ⟨EReal.coe_ne_bot r, EReal.coe_ne_top r⟩

private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem sum_mul_real {ι : Type*} (s : Finset ι) (f g : ι → EReal)
    (hf : ∀ i, f i ≠ ⊥ ∧ f i ≠ ⊤) (hg : ∀ i, g i ≠ ⊥ ∧ g i ≠ ⊤) :
    (∑ i ∈ s, f i * g i) ≠ ⊥ ∧ (∑ i ∈ s, f i * g i) ≠ ⊤ := by
  choose F hF using fun i => real_of (hf i)
  choose G hG using fun i => real_of (hg i)
  simp only [hF, hG, ← EReal.coe_mul, ← coe_sum]
  exact coe_real _

private theorem add_real {x y : EReal} (hx : x ≠ ⊥ ∧ x ≠ ⊤) (hy : y ≠ ⊥ ∧ y ≠ ⊤) :
    x + y ≠ ⊥ ∧ x + y ≠ ⊤ := by
  obtain ⟨a, rfl⟩ := real_of hx
  obtain ⟨b, rfl⟩ := real_of hy
  rw [← EReal.coe_add]; exact coe_real _

private theorem mul_real {x y : EReal} (hx : x ≠ ⊥ ∧ x ≠ ⊤) (hy : y ≠ ⊥ ∧ y ≠ ⊤) :
    x * y ≠ ⊥ ∧ x * y ≠ ⊤ := by
  obtain ⟨a, rfl⟩ := real_of hx
  obtain ⟨b, rfl⟩ := real_of hy
  rw [← EReal.coe_mul]; exact coe_real _

private theorem scale_real : scale ≠ ⊥ ∧ scale ≠ ⊤ := by
  have hex : ((0x3DD105EC#32 : BitVec 32).extractLsb' 23 8).toNat ≠ 2 ^ 8 - 1 := by decide
  unfold scale Ideal.ofBits Ideal.ieee
  simp only [if_neg hex]
  split_ifs <;> exact coe_real _

section
variable {X : TX} {Wdkv : TWdkv} {Wuk Wuv : TWu} {Wq : TWq} {Wqr : TWqr} {Wkr : TWkr}

private theorem lat_real (hX : Fin' X) (hWdkv : Fin' Wdkv) (b : Fin 2) (s : Fin 256) (j : Fin 128) :
    lat X Wdkv b s j ≠ ⊥ ∧ lat X Wdkv b s j ≠ ⊤ :=
  sum_mul_real _ _ _ (fun _ => hX _) (fun _ => hWdkv _)

private theorem keyF_real (hX : Fin' X) (hWdkv : Fin' Wdkv) (hWuk : Fin' Wuk) (b : Fin 2) (s : Fin 256)
    (n : Fin 1024) : keyF X Wdkv Wuk b s n ≠ ⊥ ∧ keyF X Wdkv Wuk b s n ≠ ⊤ :=
  sum_mul_real _ _ _ (fun _ => lat_real hX hWdkv _ _ _) (fun _ => hWuk _)

private theorem valF_real (hX : Fin' X) (hWdkv : Fin' Wdkv) (hWuv : Fin' Wuv) (b : Fin 2) (s : Fin 256)
    (n : Fin 1024) : valF X Wdkv Wuv b s n ≠ ⊥ ∧ valF X Wdkv Wuv b s n ≠ ⊤ :=
  sum_mul_real _ _ _ (fun _ => lat_real hX hWdkv _ _ _) (fun _ => hWuv _)

private theorem qryF_real (hX : Fin' X) (hWq : Fin' Wq) (b : Fin 2) (s : Fin 256) (n : Fin 1024) :
    qryF X Wq b s n ≠ ⊥ ∧ qryF X Wq b s n ≠ ⊤ :=
  sum_mul_real _ _ _ (fun _ => hX _) (fun _ => hWq _)

private theorem qrF_real (hX : Fin' X) (hWqr : Fin' Wqr) (b : Fin 2) (s : Fin 256) (p : Fin 512) :
    qrF X Wqr b s p ≠ ⊥ ∧ qrF X Wqr b s p ≠ ⊤ :=
  sum_mul_real _ _ _ (fun _ => hX _) (fun _ => hWqr _)

private theorem krF_real (hX : Fin' X) (hWkr : Fin' Wkr) (b : Fin 2) (s : Fin 256) (r : Fin 32) :
    krF X Wkr b s r ≠ ⊥ ∧ krF X Wkr b s r ≠ ⊤ :=
  sum_mul_real _ _ _ (fun _ => hX _) (fun _ => hWkr _)

private theorem score_real (hX : Fin' X) (hWdkv : Fin' Wdkv) (hWuk : Fin' Wuk) (hWq : Fin' Wq) (hWqr : Fin' Wqr)
    (hWkr : Fin' Wkr) (b : Fin 2) (h : Fin 16) (s t : Fin 256) :
    score X Wdkv Wuk Wq Wqr Wkr b h s t ≠ ⊥ ∧ score X Wdkv Wuk Wq Wqr Wkr b h s t ≠ ⊤ :=
  mul_real
    (add_real
      (sum_mul_real _ _ _ (fun _ => qryF_real hX hWq _ _ _) (fun _ => keyF_real hX hWdkv hWuk _ _ _))
      (sum_mul_real _ _ _ (fun _ => qrF_real hX hWqr _ _ _) (fun _ => krF_real hX hWkr _ _ _)))
    scale_real

end

private theorem softmax_shift {ι : Type*} [Fintype ι] [Nonempty ι] (σ v : ι → ℝ) (μ : ℝ) :
    (∑ t, (v t : EReal) * Ideal.div (Ideal.exp ((σ t : EReal) - (μ : EReal)))
        (∑ t', Ideal.exp ((σ t' : EReal) - (μ : EReal))))
      = Ideal.div (∑ t, Ideal.exp (σ t : EReal) * (v t : EReal)) (∑ t, Ideal.exp (σ t : EReal)) := by
  have hS : 0 < ∑ t, Real.exp (σ t) := Finset.sum_pos (fun _ _ => Real.exp_pos _) Finset.univ_nonempty
  have hT : 0 < ∑ t, Real.exp (σ t - μ) := Finset.sum_pos (fun _ _ => Real.exp_pos _) Finset.univ_nonempty
  simp only [← EReal.coe_sub, Ideal.exp_coe, ← coe_sum, ← EReal.coe_mul, Ideal.div_coe hS.ne',
    Ideal.div_coe hT.ne']
  rw [EReal.coe_eq_coe_iff]
  have hTS : ∑ t, Real.exp (σ t - μ) = (∑ t, Real.exp (σ t)) / Real.exp μ := by
    rw [Finset.sum_div]; exact Finset.sum_congr rfl fun t _ => Real.exp_sub _ _
  rw [hTS, Finset.sum_mul]
  refine Finset.sum_congr rfl fun t _ => ?_
  rw [Real.exp_sub]
  have hμ : Real.exp μ ≠ 0 := (Real.exp_pos μ).ne'
  field_simp

variable {X : TX} {Wdkv : TWdkv} {Wuk Wuv : TWu} {Wq : TWq} {Wqr : TWqr} {Wkr : TWkr} (Wo : TWq)

theorem rowMax_real (hX : Fin' X) (hWdkv : Fin' Wdkv) (hWuk : Fin' Wuk) (hWq : Fin' Wq) (hWqr : Fin' Wqr) (hWkr : Fin' Wkr)
    (b : Fin 2) (h : Fin 16) (s : Fin 256) :
    rowMax X Wdkv Wuk Wq Wqr Wkr b h s ≠ ⊥ ∧ rowMax X Wdkv Wuk Wq Wqr Wkr b h s ≠ ⊤ := by
  obtain ⟨t, -, ht⟩ := Finset.exists_mem_eq_sup (Finset.univ : Finset (Fin 256)) Finset.univ_nonempty
    (fun t => score X Wdkv Wuk Wq Wqr Wkr b h s t)
  rw [rowMax, ht]
  exact score_real hX hWdkv hWuk hWq hWqr hWkr b h s t

theorem outR_eq_outK (hX : Fin' X) (hWdkv : Fin' Wdkv) (hWuk : Fin' Wuk) (hWuv : Fin' Wuv) (hWq : Fin' Wq) (hWqr : Fin' Wqr)
    (hWkr : Fin' Wkr) (sh : Fin 2 → Fin 16 → Fin 256 → EReal) (hsh : ∀ b h s, sh b h s ≠ ⊥ ∧ sh b h s ≠ ⊤)
    (b : Fin 2) (s : Fin 256) (e : Fin 1024) :
    outR X Wdkv Wuk Wuv Wq Wqr Wkr Wo sh b s e = outK X Wdkv Wuk Wuv Wq Wqr Wkr Wo b s e := by
  unfold outR outK
  refine Finset.sum_congr rfl fun n _ => ?_
  congr 1
  choose σ hσ using fun t => real_of (score_real hX hWdkv hWuk hWq hWqr hWkr b (headOf n) s t)
  choose v hv using fun t => real_of (valF_real hX hWdkv hWuv b t n)
  obtain ⟨μ, hμ⟩ := real_of (hsh b (headOf n) s)
  unfold attR attK prob
  simp only [hσ, hv, hμ]
  exact softmax_shift σ v μ

end Cert.Mla

end
-- ==== Proof.Assembly.lean ====
import proofs.«900964_g7700000000000965_dist_mla_v7x_xyz2x2x2_x_b2_s256_d1024_dc64_f32_1_alg».proof.Defs
import proofs.«900964_g7700000000000965_dist_mla_v7x_xyz2x2x2_x_b2_s256_d1024_dc64_f32_1_alg».proof.Proof.Gen.Kernel
import proofs.«900964_g7700000000000965_dist_mla_v7x_xyz2x2x2_x_b2_s256_d1024_dc64_f32_1_alg».proof.Proof.Gen.KernelIdeal
import proofs.«900964_g7700000000000965_dist_mla_v7x_xyz2x2x2_x_b2_s256_d1024_dc64_f32_1_alg».proof.Proof.Gen.ReferenceIdeal
import proofs.«900964_g7700000000000965_dist_mla_v7x_xyz2x2x2_x_b2_s256_d1024_dc64_f32_1_alg».proof.Proof.Gen.ReferenceIdeal.Run
import proofs.«900964_g7700000000000965_dist_mla_v7x_xyz2x2x2_x_b2_s256_d1024_dc64_f32_1_alg».proof.Proof.Gen.Pre_finite_inputs_Kernel
import proofs.«900964_g7700000000000965_dist_mla_v7x_xyz2x2x2_x_b2_s256_d1024_dc64_f32_1_alg».proof.Proof.Gen.Pre_finite_inputs_ReferenceIdeal
import proofs.«900964_g7700000000000965_dist_mla_v7x_xyz2x2x2_x_b2_s256_d1024_dc64_f32_1_alg».proof.Proof.Launch
import proofs.«900964_g7700000000000965_dist_mla_v7x_xyz2x2x2_x_b2_s256_d1024_dc64_f32_1_alg».proof.Proof.Body
import proofs.«900964_g7700000000000965_dist_mla_v7x_xyz2x2x2_x_b2_s256_d1024_dc64_f32_1_alg».proof.Proof.WLaunch
import proofs.«900964_g7700000000000965_dist_mla_v7x_xyz2x2x2_x_b2_s256_d1024_dc64_f32_1_alg».proof.Proof.WBody
import proofs.«900964_g7700000000000965_dist_mla_v7x_xyz2x2x2_x_b2_s256_d1024_dc64_f32_1_alg».proof.Proof.KernelValueC
import proofs.«900964_g7700000000000965_dist_mla_v7x_xyz2x2x2_x_b2_s256_d1024_dc64_f32_1_alg».proof.Proof.RefValue
import proofs.«900964_g7700000000000965_dist_mla_v7x_xyz2x2x2_x_b2_s256_d1024_dc64_f32_1_alg».proof.Proof.SoftmaxLaw
import proofs.«900964_g7700000000000965_dist_mla_v7x_xyz2x2x2_x_b2_s256_d1024_dc64_f32_1_alg».proof.Proof.Finite

noncomputable section

namespace Cert.Assembly

open Idealize.ShloMosaic Idealize.ShloMosaic.TcCoe Idealize.SL.Sem
open Cert.KernelIdealProof Cert.Mla

theorem frame_R : Cert.frame_ReferenceIdeal := fun m g _ =>
  (θ_run (Cert.ReferenceIdeal.defs (F := Ideal)) _ _).mono (fun _ h c => (h c).2)
    (Cert.ReferenceIdeal.Value.run (F := Ideal) m g)

section Kernel
variable (m : (ℓ : Loc Cert.KernelIdeal.nD Cert.KernelIdeal.τ Cert.KernelIdeal.sig) → Buf (Elt Ideal) ℓ)
  (g : Dev Cert.KernelIdeal.nD → PrngReg)

private theorem arg_kept (r : PUnit × MemSt Cert.KernelIdeal.nD Cert.KernelIdeal.τ Cert.KernelIdeal.sig (Elt Ideal))
    (h : QC m g r) (c : Dev Cert.KernelIdeal.nD) (w : Fin 9) (hw : w.val < 8) :
    r.2.mem ((Cert.KernelIdeal.cfg0.win w).arr.view.loc (c : Thread Cert.KernelIdeal.nD Cert.KernelIdeal.τ))
      = m ((Cert.KernelIdeal.cfg0.win w).arr.view.loc (c : Thread Cert.KernelIdeal.nD Cert.KernelIdeal.τ)) :=
  (h c w).trans (finalA_in m g c w hw)

private theorem res_is (r : PUnit × MemSt Cert.KernelIdeal.nD Cert.KernelIdeal.τ Cert.KernelIdeal.sig (Elt Ideal))
    (h : QC m g r) (c : Dev Cert.KernelIdeal.nD) :
    r.2.mem ((Cert.KernelIdeal.cfg0.win (8 : Fin 9)).arr.view.loc (c : Thread Cert.KernelIdeal.nD Cert.KernelIdeal.τ))
      = outFinal m c :=
  (h c (8 : Fin 9)).trans (finalA_out m g c)

end Kernel

theorem frame_KI : Cert.frame_KernelIdeal := fun m g _ =>
  (θ_run (Cert.KernelIdeal.defs (F := Ideal)) _ _).mono
    (fun r h c => ⟨arg_kept m g r h c 0 (by decide), arg_kept m g r h c 1 (by decide), arg_kept m g r h c 2 (by decide),
      arg_kept m g r h c 3 (by decide), arg_kept m g r h c 4 (by decide), arg_kept m g r h c 5 (by decide),
      arg_kept m g r h c 6 (by decide), arg_kept m g r h c 7 (by decide)⟩)
    (run_main (F := Ideal) m g (body_obligation m g))

theorem alg : Cert.algebraic_KernelIdeal_ReferenceIdeal := fun m g m' g' hpre hag => by
  obtain ⟨hX, hWdkv, hWuk, hWuv, hWq, hWqr, hWkr, hWo⟩ := fin_of_pre m m' hpre hag
  refine ⟨fun i => outK (wX m') (wWdkv m') (wWuk m') (wWuv m') (wWq m') (wWqr m') (wWkr m') (wWo m') (i 0) (i 1) (i 2), ?_, ?_⟩
  · exact (θ_run (Cert.KernelIdeal.defs (F := Ideal)) _ _).mono
      (fun r h c => ⟨(res_is m g r h c).trans (outFinal_eq m m' hag c),
        arg_kept m g r h c 0 (by decide), arg_kept m g r h c 1 (by decide), arg_kept m g r h c 2 (by decide),
        arg_kept m g r h c 3 (by decide), arg_kept m g r h c 4 (by decide), arg_kept m g r h c 5 (by decide),
        arg_kept m g r h c 6 (by decide), arg_kept m g r h c 7 (by decide)⟩)
      (run_main (F := Ideal) m g (body_obligation m g))
  · exact (θ_run (Cert.ReferenceIdeal.defs (F := Ideal)) _ _).mono
      (fun r h => ⟨(h 0).1.trans ((Ref.res_eq m' 0).trans (funext fun i =>
          outR_eq_outK (wWo m') hX hWdkv hWuk hWuv hWq hWqr hWkr _
            (fun b hd s => rowMax_real hX hWdkv hWuk hWq hWqr hWkr b hd s) (i 0) (i 1) (i 2))),
        (h 0).2⟩)
      (Cert.ReferenceIdeal.Value.run (F := Ideal) m' g')

section KernelWords
variable (m : (ℓ : Loc Cert.Kernel.nD Cert.Kernel.τ Cert.Kernel.sig) → Buf (Elt Bits) ℓ)
  (g : Dev Cert.Kernel.nD → PrngReg)

private theorem arg_keptW (r : PUnit × MemSt Cert.Kernel.nD Cert.Kernel.τ Cert.Kernel.sig (Elt Bits))
    (h : Cert.KernelProof.QC m g r) (c : Dev Cert.Kernel.nD) (w : Fin 9) (hw : w.val < 8) :
    r.2.mem ((Cert.Kernel.cfg0.win w).arr.view.loc (c : Thread Cert.Kernel.nD Cert.Kernel.τ))
      = m ((Cert.Kernel.cfg0.win w).arr.view.loc (c : Thread Cert.Kernel.nD Cert.Kernel.τ)) :=
  (h c w).trans (Cert.KernelProof.finalA_in m g c w hw)

end KernelWords

theorem frame_K : Cert.frame_Kernel := fun m g _ =>
  (θ_run (Cert.Kernel.defs (F := Bits)) _ _).mono
    (fun r h c => ⟨arg_keptW m g r h c 0 (by decide), arg_keptW m g r h c 1 (by decide), arg_keptW m g r h c 2 (by decide),
      arg_keptW m g r h c 3 (by decide), arg_keptW m g r h c 4 (by decide), arg_keptW m g r h c 5 (by decide),
      arg_keptW m g r h c 6 (by decide), arg_keptW m g r h c 7 (by decide)⟩)
    (Cert.KernelProof.run_main (F := Bits) m g (Cert.KernelProof.body_obligation m g))

end Cert.Assembly

end
-- ==== Proof.lean ====
import proofs.«900964_g7700000000000965_dist_mla_v7x_xyz2x2x2_x_b2_s256_d1024_dc64_f32_1_alg».proof.Defs
import proofs.«900964_g7700000000000965_dist_mla_v7x_xyz2x2x2_x_b2_s256_d1024_dc64_f32_1_alg».proof.Proof.Gen.Kernel
import proofs.«900964_g7700000000000965_dist_mla_v7x_xyz2x2x2_x_b2_s256_d1024_dc64_f32_1_alg».proof.Proof.Gen.Kernel.Skeleton
import proofs.«900964_g7700000000000965_dist_mla_v7x_xyz2x2x2_x_b2_s256_d1024_dc64_f32_1_alg».proof.Proof.Gen.Kernel.Launch
import proofs.«900964_g7700000000000965_dist_mla_v7x_xyz2x2x2_x_b2_s256_d1024_dc64_f32_1_alg».proof.Proof.Gen.Kernel.Points
import proofs.«900964_g7700000000000965_dist_mla_v7x_xyz2x2x2_x_b2_s256_d1024_dc64_f32_1_alg».proof.Proof.Gen.Kernel.Frame
import proofs.«900964_g7700000000000965_dist_mla_v7x_xyz2x2x2_x_b2_s256_d1024_dc64_f32_1_alg».proof.Proof.Gen.KernelIdeal
import proofs.«900964_g7700000000000965_dist_mla_v7x_xyz2x2x2_x_b2_s256_d1024_dc64_f32_1_alg».proof.Proof.Gen.KernelIdeal.Skeleton
import proofs.«900964_g7700000000000965_dist_mla_v7x_xyz2x2x2_x_b2_s256_d1024_dc64_f32_1_alg».proof.Proof.Gen.KernelIdeal.Launch
import proofs.«900964_g7700000000000965_dist_mla_v7x_xyz2x2x2_x_b2_s256_d1024_dc64_f32_1_alg».proof.Proof.Gen.KernelIdeal.Points
import proofs.«900964_g7700000000000965_dist_mla_v7x_xyz2x2x2_x_b2_s256_d1024_dc64_f32_1_alg».proof.Proof.Gen.KernelIdeal.Frame
import proofs.«900964_g7700000000000965_dist_mla_v7x_xyz2x2x2_x_b2_s256_d1024_dc64_f32_1_alg».proof.Proof.Gen.ReferenceIdeal
import proofs.«900964_g7700000000000965_dist_mla_v7x_xyz2x2x2_x_b2_s256_d1024_dc64_f32_1_alg».proof.Proof.Gen.Pre_finite_inputs_Kernel
import proofs.«900964_g7700000000000965_dist_mla_v7x_xyz2x2x2_x_b2_s256_d1024_dc64_f32_1_alg».proof.Proof.Gen.Pre_finite_inputs_ReferenceIdeal
import Idealize.ShloMosaic.Adequacy
import Idealize.ShloMosaic.Init

import proofs.«900964_g7700000000000965_dist_mla_v7x_xyz2x2x2_x_b2_s256_d1024_dc64_f32_1_alg».proof.Proof.Assembly

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Assembly.frame_K, Cert.Assembly.frame_KI, Cert.Assembly.frame_R, trivial, Cert.Assembly.alg⟩

end Cert.Proof

end
